-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x128 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x4096 : Shape := ⟨2, ![4096, 4096]⟩
abbrev S4096x1 : Shape := ⟨2, ![4096, 1]⟩
abbrev S50000x128 : Shape := ⟨2, ![50000, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S50000x128 : S_.BroadcastsInDim S50000x128 (![] : Fin 0 → Fin S50000x128.rank)
  reducesTo_S50000x128_S_d0_1 : S50000x128.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg0 : IVec S4096 32) (main_arg1 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg0 main_v34
  let main_c_13 : IVec S_ 32 := constantI S_ 32 50000#32
  let main_v36 : IVec S4096 32 := broadcastInDim S4096 ![] bcast_S_S4096 main_c_13
  let main_v37 : IVec S4096 1 := cmpi .slt main_arg0 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  let main_c_15 : IVec S_ 32 := constantI S_ 32 0#32
  let main_v41 : IVec S4096 32 := broadcastInDim S4096 ![] bcast_S_S4096 main_c_15
  let main_v42 : IVec S4096 1 := cmpi .sge main_arg1 main_v41
  let main_c_16 : IVec S_ 32 := constantI S_ 32 50000#32
  let main_v43 : IVec S4096 32 := broadcastInDim S4096 ![] bcast_S_S4096 main_c_16
  let main_v44 : IVec S4096 1 := cmpi .slt main_arg1 main_v43
  let main_v45 : IVec S4096 1 := andi main_v42 main_v44
  let main_c_17 : IVec S_ 1 := constantI S_ 1 1#1
  let main_v46 : IVec S_ 1 := (fun x v => Host.reduce IntOp.andi x v reducesTo_S4096_S_d0 h_S_) main_v45 main_c_17
  let main_v47 : IVec S_ 1 := andi main_v40 main_v46
  main_v47

def fn_part1 {F : FTy → Type} [FloatOps F] (main_arg0 : IVec S4096 32) (main_arg1 : IVec S4096 32) (main_arg6 : FVec F S4096x4096 .f32) (main_arg7 : FVec F S50000x128 .f32) (main_arg8 : FVec F S50000x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg6
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S50000x128 .f32 := Host.absf main_arg7
  let main_cst_8 : FVec F S_ .f32 := constant S_ .f32 0x7F800000#32
  let main_v25 : FVec F S50000x128 .f32 := broadcastInDim S50000x128 ![] bcast_S_S50000x128 main_cst_8
  let main_v26 : IVec S50000x128 1 := cmpf .olt main_v24 main_v25
  let main_c_9 : IVec S_ 1 := constantI S_ 1 1#1
  let main_v27 : IVec S_ 1 := (fun x v => Host.reduce IntOp.andi x v reducesTo_S50000x128_S_d0_1 h_S_) main_v26 main_c_9
  let main_v28 : IVec S_ 1 := andi main_v23 main_v27
  let main_v29 : FVec F S50000x128 .f32 := Host.absf main_arg8
  let main_cst_10 : FVec F S_ .f32 := constant S_ .f32 0x7F800000#32
  let main_v30 : FVec F S50000x128 .f32 := broadcastInDim S50000x128 ![] bcast_S_S50000x128 main_cst_10
  let main_v31 : IVec S50000x128 1 := cmpf .olt main_v29 main_v30
  let main_c_11 : IVec S_ 1 := constantI S_ 1 1#1
  let main_v32 : IVec S_ 1 := (fun x v => Host.reduce IntOp.andi x v reducesTo_S50000x128_S_d0_1 h_S_) main_v31 main_c_11
  let main_v33 : IVec S_ 1 := andi main_v28 main_v32
  fn_part2 (F := F) main_arg0 main_arg1 main_v33

def fn {F : FTy → Type} [FloatOps F] (main_arg0 : IVec S4096 32) (main_arg1 : IVec S4096 32) (main_arg2 : FVec F S4096x4096 .f32) (main_arg3 : FVec F S4096x1 .f32) (main_arg4 : FVec F S4096x1 .f32) (main_arg5 : FVec F S4096x4096 .f32) (main_arg6 : FVec F S4096x4096 .f32) (main_arg7 : FVec F S50000x128 .f32) (main_arg8 : FVec F S50000x128 .f32) : IVec S_ 1 :=
  let main_v0 : FVec F S4096x4096 .f32 := Host.absf main_arg2
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1 .f32 := Host.absf main_arg3
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg4
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096x4096 .f32 := Host.absf main_arg5
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg0 main_arg1 main_arg6 main_arg7 main_arg8 main_v13 main_v16
-- ==== Kernel.lean ====
abbrev S4096 : Shape := ⟨1, ![4096]⟩
abbrev S4096x4096 : Shape := ⟨2, ![4096, 4096]⟩
abbrev S4096x1 : Shape := ⟨2, ![4096, 1]⟩
abbrev S50000x128 : Shape := ⟨2, ![50000, 128]⟩
abbrev S_ : Shape := ⟨0, ![]⟩
abbrev S1 : Shape := ⟨1, ![1]⟩
abbrev S1x1 : Shape := ⟨2, ![1, 1]⟩
abbrev S4096x128 : Shape := ⟨2, ![4096, 128]⟩
abbrev S1x4096 : Shape := ⟨2, ![1, 4096]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩
abbrev S128x1024 : Shape := ⟨2, ![128, 1024]⟩
abbrev S1024 : Shape := ⟨1, ![1024]⟩
abbrev S1024x512 : Shape := ⟨2, ![1024, 512]⟩
abbrev S512x1024 : Shape := ⟨2, ![512, 1024]⟩
abbrev S128x4096 : Shape := ⟨2, ![128, 4096]⟩
abbrev S128x128 : Shape := ⟨2, ![128, 128]⟩

abbrev nBuf : Space → Nat
  | .hbm => 156
  | .vmem => 86
  | .smem => 0
  | _ => 0

abbrev hbmTy0_0 (i : Nat) : BufTy := match i % 128 with
  | 0 => ⟨S4096, .i32⟩
  | 1 => ⟨S4096, .i32⟩
  | 2 => ⟨S4096x4096, .f32⟩
  | 3 => ⟨S4096x1, .f32⟩
  | 4 => ⟨S4096x1, .f32⟩
  | 5 => ⟨S4096x4096, .f32⟩
  | 6 => ⟨S4096x4096, .f32⟩
  | 7 => ⟨S50000x128, .f32⟩
  | 8 => ⟨S50000x128, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S1, .i32⟩
  | 18 => ⟨S_, .i32⟩
  | 19 => ⟨S4096x1, .i32⟩
  | 20 => ⟨S4096x1, .i1⟩
  | 21 => ⟨S1x1, .i32⟩
  | 22 => ⟨S4096x1, .i32⟩
  | 23 => ⟨S4096x1, .i1⟩
  | 24 => ⟨S4096x1, .i1⟩
  | 25 => ⟨S_, .i1⟩
  | 26 => ⟨S4096, .i1⟩
  | 27 => ⟨S4096x128, .f32⟩
  | 28 => ⟨S4096x128, .i1⟩
  | 29 => ⟨S_, .f32⟩
  | 30 => ⟨S4096x128, .f32⟩
  | 31 => ⟨S4096x128, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S1, .i32⟩
  | 41 => ⟨S_, .i32⟩
  | 42 => ⟨S4096x1, .i32⟩
  | 43 => ⟨S4096x1, .i1⟩
  | 44 => ⟨S1x1, .i32⟩
  | 45 => ⟨S4096x1, .i32⟩
  | 46 => ⟨S4096x1, .i1⟩
  | 47 => ⟨S4096x1, .i1⟩
  | 48 => ⟨S_, .i1⟩
  | 49 => ⟨S4096, .i1⟩
  | 50 => ⟨S4096x128, .f32⟩
  | 51 => ⟨S4096x128, .i1⟩
  | 52 => ⟨S_, .f32⟩
  | 53 => ⟨S4096x128, .f32⟩
  | 54 => ⟨S4096x128, .f32⟩
  | 55 => ⟨S4096x128, .f32⟩
  | 56 => ⟨S_, .f32⟩
  | 57 => ⟨S4096, .f32⟩
  | 58 => ⟨S4096x1, .f32⟩
  | 59 => ⟨S4096x1, .f32⟩
  | 60 => ⟨S1x4096, .f32⟩
  | 61 => ⟨S1x4096, .f32⟩
  | 62 => ⟨S4096x4096, .f32⟩
  | 63 => ⟨S4096x1, .f32⟩
  | 64 => ⟨S4096x1, .f32⟩
  | 65 => ⟨S4096x1, .f32⟩
  | 66 => ⟨S4096x128, .f32⟩
  | 67 => ⟨S_, .f32⟩
  | 68 => ⟨S4096, .f32⟩
  | 69 => ⟨S4096x1, .f32⟩
  | 70 => ⟨S4096x1, .f32⟩
  | 71 => ⟨S1x4096, .f32⟩
  | 72 => ⟨S1x4096, .f32⟩
  | 73 => ⟨S4096x4096, .f32⟩
  | 74 => ⟨S4096x1, .f32⟩
  | 75 => ⟨S4096x1, .f32⟩
  | 76 => ⟨S4096x1, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1x1, .f32⟩
  | 86 => ⟨S1x1, .f32⟩
  | 87 => ⟨S_, .f32⟩
  | 88 => ⟨S4096, .f32⟩
  | 89 => ⟨S4096x1, .f32⟩
  | 90 => ⟨S_, .f32⟩
  | 91 => ⟨S4096, .f32⟩
  | 92 => ⟨S1x4096, .f32⟩
  | 93 => ⟨S4096x1, .f32⟩
  | 94 => ⟨S_, .f32⟩
  | 95 => ⟨S_, .f32⟩
  | 96 => ⟨S1x1, .f32⟩
  | 97 => ⟨S4096x4096, .f32⟩
  | 98 => ⟨S4096x4096, .f32⟩
  | 99 => ⟨S4096x1, .f32⟩
  | 100 => ⟨S4096x4096, .f32⟩
  | 101 => ⟨S4096x4096, .f32⟩
  | 102 => ⟨S4096x1, .f32⟩
  | 103 => ⟨S1x4096, .f32⟩
  | 104 => ⟨S4096x4096, .f32⟩
  | 105 => ⟨S4096x128, .f32⟩
  | 106 => ⟨S_, .f32⟩
  | 107 => ⟨S4096, .f32⟩
  | 108 => ⟨S4096x1, .f32⟩
  | 109 => ⟨S4096x1, .f32⟩
  | 110 => ⟨S4096x128, .f32⟩
  | 111 => ⟨S_, .f32⟩
  | 112 => ⟨S4096, .f32⟩
  | 113 => ⟨S4096x1, .f32⟩
  | 114 => ⟨S4096x1, .f32⟩
  | 115 => ⟨S1x4096, .f32⟩
  | 116 => ⟨S1x4096, .f32⟩
  | 117 => ⟨S4096x1, .f32⟩
  | 118 => ⟨S4096x1, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096, .i32⟩

abbrev hbmTy0_1 (i : Nat) : BufTy := match i % 128 with
  | 0 => ⟨S128x4096, .f32⟩
  | 1 => ⟨S128x128, .f32⟩
  | 2 => ⟨S128x128, .i32⟩
  | 3 => ⟨S128x128, .i32⟩
  | 4 => ⟨S_, .i32⟩
  | 5 => ⟨S128x128, .i32⟩
  | 6 => ⟨S128x128, .i32⟩
  | 7 => ⟨S128x128, .i1⟩
  | 8 => ⟨S128x128, .f32⟩
  | 9 => ⟨S128x128, .f32⟩
  | 10 => ⟨S128x128, .f32⟩
  | 11 => ⟨S_, .f32⟩
  | 12 => ⟨S_, .f32⟩
  | 13 => ⟨S_, .f32⟩
  | 14 => ⟨S128x4096, .f32⟩
  | 15 => ⟨S128x128, .f32⟩
  | 16 => ⟨S128x128, .i32⟩
  | 17 => ⟨S128x128, .i32⟩
  | 18 => ⟨S_, .i32⟩
  | 19 => ⟨S128x128, .i32⟩
  | 20 => ⟨S128x128, .i32⟩
  | 21 => ⟨S128x128, .i1⟩
  | 22 => ⟨S128x128, .f32⟩
  | 23 => ⟨S128x128, .f32⟩
  | 24 => ⟨S128x128, .f32⟩
  | 25 => ⟨S_, .f32⟩
  | 26 => ⟨S_, .f32⟩
  | 27 => ⟨S_, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x1, .f32⟩
  | .local _ .vmem, ⟨28, _⟩ => ⟨S1024x1, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1, .f32⟩
  | .local _ .vmem, ⟨38, _⟩ => ⟨S1024x1, .f32⟩
  | .local _ .vmem, ⟨39, _⟩ => ⟨S1024x1, .f32⟩
  | .local _ .vmem, ⟨40, _⟩ => ⟨S1024x1, .f32⟩
  | .local _ .vmem, ⟨41, _⟩ => ⟨S1024x1, .f32⟩
  | .local _ .vmem, ⟨42, _⟩ => ⟨S1024x1, .f32⟩
  | .local _ .vmem, ⟨43, _⟩ => ⟨S1024x1, .f32⟩
  | .local _ .vmem, ⟨44, _⟩ => ⟨S1024x1, .f32⟩
  | .local _ .vmem, ⟨45, _⟩ => ⟨S1024x1, .f32⟩
  | .local _ .vmem, ⟨46, _⟩ => ⟨S1024x512, .f32⟩
  | .local _ .vmem, ⟨47, _⟩ => ⟨S1024x512, .f32⟩
  | .local _ .vmem, ⟨48, _⟩ => ⟨S512x1024, .f32⟩
  | .local _ .vmem, ⟨49, _⟩ => ⟨S512x1024, .f32⟩
  | .local _ .vmem, ⟨50, _⟩ => ⟨S1x1, .f32⟩
  | .local _ .vmem, ⟨51, _⟩ => ⟨S1024x1024, .f32⟩
  | .local _ .vmem, ⟨52, _⟩ => ⟨S1024x1024, .f32⟩
  | .local _ .vmem, ⟨53, _⟩ => ⟨S1024x1024, .f32⟩
  | .local _ .vmem, ⟨54, _⟩ => ⟨S1024x512, .f32⟩
  | .local _ .vmem, ⟨55, _⟩ => ⟨S1024x512, .f32⟩
  | .local _ .vmem, ⟨56, _⟩ => ⟨S1024x512, .f32⟩
  | .local _ .vmem, ⟨57, _⟩ => ⟨S1024x512, .f32⟩
  | .local _ .vmem, ⟨58, _⟩ => ⟨S1024x1, .f32⟩
  | .local _ .vmem, ⟨59, _⟩ => ⟨S1024x1, .f32⟩
  | .local _ .vmem, ⟨60, _⟩ => ⟨S1x1024, .f32⟩
  | .local _ .vmem, ⟨61, _⟩ => ⟨S1x1024, .f32⟩
  | .local _ .vmem, ⟨62, _⟩ => ⟨S1024x1024, .f32⟩
  | .local _ .vmem, ⟨63, _⟩ => ⟨S1024x1024, .f32⟩
  | .local _ .vmem, ⟨64, _⟩ => ⟨S1024x128, .f32⟩
  | .local _ .vmem, ⟨65, _⟩ => ⟨S1024x128, .f32⟩
  | .local _ .vmem, ⟨66, _⟩ => ⟨S1024x128, .f32⟩
  | .local _ .vmem, ⟨67, _⟩ => ⟨S1024x128, .f32⟩
  | .local _ .vmem, ⟨68, _⟩ => ⟨S1024x1, .f32⟩
  | .local _ .vmem, ⟨69, _⟩ => ⟨S1024x1, .f32⟩
  | .local _ .vmem, ⟨70, _⟩ => ⟨S1x1024, .f32⟩
  | .local _ .vmem, ⟨71, _⟩ => ⟨S1x1024, .f32⟩
  | .local _ .vmem, ⟨72, _⟩ => ⟨S1x1, .f32⟩
  | .local _ .vmem, ⟨73, _⟩ => ⟨S1x1, .f32⟩
  | .local _ .vmem, ⟨74, _⟩ => ⟨S1x1, .f32⟩
  | .local _ .vmem, ⟨75, _⟩ => ⟨S1x1024, .f32⟩
  | .local _ .vmem, ⟨76, _⟩ => ⟨S1x1024, .f32⟩
  | .local _ .vmem, ⟨77, _⟩ => ⟨S1024x1, .f32⟩
  | .local _ .vmem, ⟨78, _⟩ => ⟨S1024x1, .f32⟩
  | .local _ .vmem, ⟨79, _⟩ => ⟨S1024x1, .f32⟩
  | .local _ .vmem, ⟨80, _⟩ => ⟨S1024x1, .f32⟩
  | .local _ .vmem, ⟨81, _⟩ => ⟨S1024x1, .f32⟩
  | .local _ .vmem, ⟨82, _⟩ => ⟨S1024x1, .f32⟩
  | .local _ .vmem, ⟨83, _⟩ => ⟨S1024x1024, .f32⟩
  | .local _ .vmem, ⟨84, _⟩ => ⟨S1024x1, .f32⟩
  | .local _ .vmem, ⟨85, _⟩ => ⟨S1024x1, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_v2 : Ref sig .tc := ⟨.hbm, 55, rfl⟩
abbrev main_cst : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8_0 : Ref sig .tc := ⟨.hbm, 62, rfl⟩
abbrev main_v8_1 : Ref sig .tc := ⟨.hbm, 63, rfl⟩
abbrev main_v8_2 : Ref sig .tc := ⟨.hbm, 64, rfl⟩
abbrev main_v8_3 : Ref sig .tc := ⟨.hbm, 65, rfl⟩
abbrev main_v9 : Ref sig .tc := ⟨.hbm, 66, rfl⟩
abbrev main_cst_0 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15_0 : Ref sig .tc := ⟨.hbm, 73, rfl⟩
abbrev main_v15_1 : Ref sig .tc := ⟨.hbm, 74, rfl⟩
abbrev main_v15_2 : Ref sig .tc := ⟨.hbm, 75, rfl⟩
abbrev main_v15_3 : Ref sig .tc := ⟨.hbm, 76, rfl⟩
abbrev main_cst_1 : Ref sig .tc := ⟨.hbm, 77, rfl⟩
abbrev main_v16 : Ref sig .tc := ⟨.hbm, 78, rfl⟩
abbrev main_cst_2 : Ref sig .tc := ⟨.hbm, 79, rfl⟩
abbrev main_v17 : Ref sig .tc := ⟨.hbm, 80, rfl⟩
abbrev main_cst_3 : Ref sig .tc := ⟨.hbm, 81, rfl⟩
abbrev main_v18 : Ref sig .tc := ⟨.hbm, 82, rfl⟩
abbrev main_cst_4 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_cst_5 : Ref sig .tc := ⟨.hbm, 87, rfl⟩
abbrev main_v22 : Ref sig .tc := ⟨.hbm, 88, rfl⟩
abbrev main_v23 : Ref sig .tc := ⟨.hbm, 89, rfl⟩
abbrev main_cst_6 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_cst_7 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_cst_8 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_cst_9 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47_0 : Ref sig .tc := ⟨.hbm, 117, rfl⟩
abbrev main_v47_1 : Ref sig .tc := ⟨.hbm, 118, rfl⟩
abbrev main_cst_10 : Ref sig .tc := ⟨.hbm, 119, rfl⟩
abbrev main_v48 : Ref sig .tc := ⟨.hbm, 120, rfl⟩
abbrev main_cst_11 : Ref sig .tc := ⟨.hbm, 121, rfl⟩
abbrev main_v49 : Ref sig .tc := ⟨.hbm, 122, rfl⟩
abbrev main_cst_12 : Ref sig .tc := ⟨.hbm, 123, rfl⟩
abbrev main_v50 : Ref sig .tc := ⟨.hbm, 124, rfl⟩
abbrev main_cst_13 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_c : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_cst_14 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_c_15 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_cst_16 : Ref sig .tc := ⟨.hbm, 153, rfl⟩
abbrev main_v75 : Ref sig .tc := ⟨.hbm, 154, rfl⟩
abbrev main_v76 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_stg9_0 : Ref sig .tc := ⟨.vmem, 41, rfl⟩
abbrev cc1_stg9_1 : Ref sig .tc := ⟨.vmem, 42, rfl⟩
abbrev cc1_scratch0 : Ref sig .tc := ⟨.vmem, 43, rfl⟩
abbrev cc1_scratch1 : Ref sig .tc := ⟨.vmem, 44, rfl⟩
abbrev cc1_scratch2 : Ref sig .tc := ⟨.vmem, 45, rfl⟩
abbrev cc2_stg0_0 : Ref sig .tc := ⟨.vmem, 46, rfl⟩
abbrev cc2_stg0_1 : Ref sig .tc := ⟨.vmem, 47, rfl⟩
abbrev cc2_stg1_0 : Ref sig .tc := ⟨.vmem, 48, rfl⟩
abbrev cc2_stg1_1 : Ref sig .tc := ⟨.vmem, 49, rfl⟩
abbrev cc2_stg2_0 : Ref sig .tc := ⟨.vmem, 50, rfl⟩
abbrev cc2_stg3_0 : Ref sig .tc := ⟨.vmem, 51, rfl⟩
abbrev cc2_stg3_1 : Ref sig .tc := ⟨.vmem, 52, rfl⟩
abbrev cc2_scratch0 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc3_stg9_0 : Ref sig .tc := ⟨.vmem, 72, rfl⟩
abbrev cc3_stg10_0 : Ref sig .tc := ⟨.vmem, 73, rfl⟩
abbrev cc3_stg11_0 : Ref sig .tc := ⟨.vmem, 74, rfl⟩
abbrev cc3_stg12_0 : Ref sig .tc := ⟨.vmem, 75, rfl⟩
abbrev cc3_stg12_1 : Ref sig .tc := ⟨.vmem, 76, rfl⟩
abbrev cc3_stg13_0 : Ref sig .tc := ⟨.vmem, 77, rfl⟩
abbrev cc3_stg13_1 : Ref sig .tc := ⟨.vmem, 78, rfl⟩
abbrev cc3_stg14_0 : Ref sig .tc := ⟨.vmem, 79, rfl⟩
abbrev cc3_stg14_1 : Ref sig .tc := ⟨.vmem, 80, rfl⟩
abbrev cc3_stg15_0 : Ref sig .tc := ⟨.vmem, 81, rfl⟩
abbrev cc3_stg15_1 : Ref sig .tc := ⟨.vmem, 82, rfl⟩
abbrev cc3_scratch0 : Ref sig .tc := ⟨.vmem, 83, rfl⟩
abbrev cc3_scratch1 : Ref sig .tc := ⟨.vmem, 84, rfl⟩
abbrev cc3_scratch2 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc2_sem0_0 : DmaSem sig := 40
abbrev cc2_sem0_1 : DmaSem sig := 41
abbrev cc2_sem1_0 : DmaSem sig := 42
abbrev cc2_sem1_1 : DmaSem sig := 43
abbrev cc2_sem2_0 : DmaSem sig := 44
abbrev cc2_sem3_0 : DmaSem sig := 45
abbrev cc2_sem3_1 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem2_1 : DmaSem sig := 52
abbrev cc3_sem3_0 : DmaSem sig := 53
abbrev cc3_sem3_1 : DmaSem sig := 54
abbrev cc3_sem4_0 : DmaSem sig := 55
abbrev cc3_sem4_1 : DmaSem sig := 56
abbrev cc3_sem5_0 : DmaSem sig := 57
abbrev cc3_sem5_1 : DmaSem sig := 58
abbrev cc3_sem6_0 : DmaSem sig := 59
abbrev cc3_sem6_1 : DmaSem sig := 60
abbrev cc3_sem7_0 : DmaSem sig := 61
abbrev cc3_sem7_1 : DmaSem sig := 62
abbrev cc3_sem8_0 : DmaSem sig := 63
abbrev cc3_sem8_1 : DmaSem sig := 64
abbrev cc3_sem9_0 : DmaSem sig := 65
abbrev cc3_sem10_0 : DmaSem sig := 66
abbrev cc3_sem11_0 : DmaSem sig := 67
abbrev cc3_sem12_0 : DmaSem sig := 68
abbrev cc3_sem12_1 : DmaSem sig := 69
abbrev cc3_sem13_0 : DmaSem sig := 70
abbrev cc3_sem13_1 : DmaSem sig := 71
abbrev cc3_sem14_0 : DmaSem sig := 72
abbrev cc3_sem14_1 : DmaSem sig := 73
abbrev cc3_sem15_0 : DmaSem sig := 74
abbrev cc3_sem15_1 : DmaSem sig := 75

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v73 : BitVec 1 := Scalar.cmpi .eq arg1 c3_i32
  let v74 : BitVec 32 := Scalar.extui v73
  let c0_i32_36 : BitVec 32 := 0#32
  let v75 : BitVec 1 := Scalar.cmpi .ne v74 c0_i32_36
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v73 : BitVec 1 := Scalar.cmpi .eq arg1 c3_i32
  let v74 : BitVec 32 := Scalar.extui v73
  let c0_i32_36 : BitVec 32 := 0#32
  let v75 : BitVec 1 := Scalar.cmpi .ne v74 c0_i32_36
  v75

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1024x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v18 : BitVec 1 := Scalar.cmpi .eq arg2 c7_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 4, 8], ![false, false, false]⟩

def k3_cond5 (i : grid3.Coords) : BitVec 1 :=
  let arg1 : BitVec 32 := BitVec.ofNat 32 (i 1).val
  let c3_i32 : BitVec 32 := 3#32
  let v31 : BitVec 1 := Scalar.cmpi .eq arg1 c3_i32
  let arg2 : BitVec 32 := BitVec.ofNat 32 (i 2).val
  let c7_i32_16 : BitVec 32 := 7#32
  let v32 : BitVec 1 := Scalar.cmpi .eq arg2 c7_i32_16
  let v33 : BitVec 1 := Scalar.andi v31 v32
  let v34 : BitVec 32 := Scalar.extui v33
  let c0_i32_17 : BitVec 32 := 0#32
  let v35 : BitVec 1 := Scalar.cmpi .ne v34 c0_i32_17
  v35

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_9 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_13 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false, false]

abbrev stage3_6 : Fin 2 → Memref sig .tc .vmem S1024x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true, false]

abbrev stage3_7 : Fin 2 → Memref sig .tc .vmem S1024x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false, false]

abbrev stage3_8 : Fin 2 → Memref sig .tc .vmem S1x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![false, true, false]

abbrev stage3_9 : Fin 1 → Memref sig .tc .vmem S1x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false, false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false, false]

abbrev stage3_11 : Fin 1 → Memref sig .tc .vmem S1x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false, false]

abbrev stage3_12 : Fin 2 → Memref sig .tc .vmem S1x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![false, true, false]

abbrev stage3_13 : Fin 2 → Memref sig .tc .vmem S1024x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, false, false]

abbrev stage3_14 : Fin 2 → Memref sig .tc .vmem S1024x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, false, false]

abbrev stage3_15 : Fin 2 → Memref sig .tc .vmem S1024x1 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, false, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x128_0 : S4096.BroadcastsInDim S4096x128 (![0] : Fin 1 → Fin S4096x128.rank)
  bcast_S_S4096x128 : S_.BroadcastsInDim S4096x128 (![] : Fin 0 → Fin S4096x128.rank)
  reducesTo_S4096x128_S4096_d1 : S4096x128.ReducesTo [1] S4096
  transposes_S4096x1_S1x4096_1_0 : S4096x1.Transposes [1, 0] S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reducesTo_S4096x1_S_d0_1 : S4096x1.ReducesTo [0, 1] S_
  shapeCasts_S_S1x1 : S_.ShapeCasts S1x1
  reducesTo_S4096x4096_S4096_d1 : S4096x4096.ReducesTo [1] S4096
  reducesTo_S4096x4096_S4096_d0 : S4096x4096.ReducesTo [0] S4096
  bcast_S4096_S1x4096_1 : S4096.BroadcastsInDim S1x4096 (![1] : Fin 1 → Fin S1x4096.rank)
  transposes_S1x4096_S4096x1_1_0 : S1x4096.Transposes [1, 0] S4096x1
  bcast_S_S4096x4096 : S_.BroadcastsInDim S4096x4096 (![] : Fin 0 → Fin S4096x4096.rank)
  shapeCasts_S1024x1024_S1024x1024 : S1024x1024.ShapeCasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  transposes_S1024x512_p1_0_S512x1024 : S1024x512.Transposes [1, 0] S512x1024
  transposes_S4096x128_S128x4096_1_0 : S4096x128.Transposes [1, 0] S128x4096
  bcast_S_S128x128 : S_.BroadcastsInDim S128x128 (![] : Fin 0 → Fin S128x128.rank)
  reducesTo_S128x128_S_d0_1 : S128x128.ReducesTo [0, 1] S_
  gather_S50000x128_S4096x1_S4096x128_1_0_n_n_0_1_1128_wf : GatherDims.WF S50000x128 S4096x1 S4096x128 [1] [0] [] [0] [] 1 ![1, 128]
  dot_S1024x128_S128x1024_S1024x1024_1_0_0_1_n_n_wf : DotDims.WF S1024x128 S128x1024 S1024x1024 [1] [0] [0] [1] [] []
  dot_S4096x4096_S4096x1_S4096x1_1_0_0_1_n_n_wf : DotDims.WF S4096x4096 S4096x1 S4096x1 [1] [0] [0] [1] [] []
  dot_S1024x512_S512x1024_S1024x1024_1_0_0_1_n_n_wf : DotDims.WF S1024x512 S512x1024 S1024x1024 [1] [0] [0] [1] [] []
  dot_S128x4096_S4096x128_S128x128_1_0_0_1_n_n_wf : DotDims.WF S128x4096 S4096x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x4096.size a
  hwx0_6 : ∀ i : grid0.Coords, EltTy.bits .f32 = 32 ∨ (Rect.block (s := S4096x4096) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S4096x1.size a
  hwx0_7 : ∀ i : grid0.Coords, EltTy.bits .f32 = 32 ∨ (Rect.block (s := S4096x1) S1024x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S4096x1.size a
  hwx0_8 : ∀ i : grid0.Coords, EltTy.bits .f32 = 32 ∨ (Rect.block (s := S4096x1) S1024x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S4096x1.size a
  hwx0_9 : ∀ i : grid0.Coords, EltTy.bits .f32 = 32 ∨ (Rect.block (s := S4096x1) S1024x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x128.size a
  hwx1_0 : ∀ i : grid1.Coords, EltTy.bits .f32 = 32 ∨ (Rect.block (s := S4096x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .f32 = 32 ∨ (Rect.block (s := S4096x4096) S1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S4096x4096.size a
  hwx1_6 : ∀ i : grid1.Coords, EltTy.bits .f32 = 32 ∨ (Rect.block (s := S4096x4096) S1024x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S4096x1.size a
  hwx1_7 : ∀ i : grid1.Coords, EltTy.bits .f32 = 32 ∨ (Rect.block (s := S4096x1) S1024x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x1.size a ≤ S4096x1.size a
  hwx1_8 : ∀ i : grid1.Coords, EltTy.bits .f32 = 32 ∨ (Rect.block (s := S4096x1) S1024x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1.size a ≤ S4096x1.size a
  hwx1_9 : ∀ i : grid1.Coords, EltTy.bits .f32 = 32 ∨ (Rect.block (s := S4096x1) S1024x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .f32 = 32 ∨ (Rect.block (s := S4096x4096) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S4096x4096.size a
  hwx3_0 : ∀ i : grid3.Coords, EltTy.bits .f32 = 32 ∨ (Rect.block (s := S4096x4096) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S4096x4096.size a
  hwx3_1 : ∀ i : grid3.Coords, EltTy.bits .f32 = 32 ∨ (Rect.block (s := S4096x4096) S1024x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S4096x1.size a
  hwx3_2 : ∀ i : grid3.Coords, EltTy.bits .f32 = 32 ∨ (Rect.block (s := S4096x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x4096.size a
  hwx3_3 : ∀ i : grid3.Coords, EltTy.bits .f32 = 32 ∨ (Rect.block (s := S1x4096) S1x1024.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1024.size a ≤ S4096x4096.size a
  hwx3_4 : ∀ i : grid3.Coords, EltTy.bits .f32 = 32 ∨ (Rect.block (s := S4096x4096) S1024x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S4096x128.size a
  hwx3_5 : ∀ i : grid3.Coords, EltTy.bits .f32 = 32 ∨ (Rect.block (s := S4096x128) S1024x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x128.size a ≤ S4096x128.size a
  hwx3_6 : ∀ i : grid3.Coords, EltTy.bits .f32 = 32 ∨ (Rect.block (s := S4096x128) S1024x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x1.size a ≤ S4096x1.size a
  hwx3_7 : ∀ i : grid3.Coords, EltTy.bits .f32 = 32 ∨ (Rect.block (s := S4096x1) S1024x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x1024.size a ≤ S1x4096.size a
  hwx3_8 : ∀ i : grid3.Coords, EltTy.bits .f32 = 32 ∨ (Rect.block (s := S1x4096) S1x1024.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x1.size a ≤ S1x1.size a
  hwx3_9 : ∀ i : grid3.Coords, EltTy.bits .f32 = 32 ∨ (Rect.block (s := S1x1) S1x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x1.size a ≤ S1x1.size a
  hwx3_11 : ∀ i : grid3.Coords, EltTy.bits .f32 = 32 ∨ (Rect.block (s := S1x1) S1x1.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1x1024.size a ≤ S1x4096.size a
  hwx3_12 : ∀ i : grid3.Coords, EltTy.bits .f32 = 32 ∨ (Rect.block (s := S1x4096) S1x1024.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S1024x1.size a ≤ S4096x1.size a
  hwx3_13 : ∀ i : grid3.Coords, EltTy.bits .f32 = 32 ∨ (Rect.block (s := S4096x1) S1024x1.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S1024x1.size a ≤ S4096x1.size a
  hwx3_14 : ∀ i : grid3.Coords, EltTy.bits .f32 = 32 ∨ (Rect.block (s := S4096x1) S1024x1.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S1024x1.size a ≤ S4096x1.size a
  hwx3_15 : ∀ i : grid3.Coords, EltTy.bits .f32 = 32 ∨ (Rect.block (s := S4096x1) S1024x1.size (cc3_transform_15 i) (hinb3_15 i)).WholeWords (EltTy.packing .f32)

variable [Facts₀]

def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1024x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_2) S1024x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_3) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1024x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_0) S1024x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v15_1) S1024x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v15_2) S1024x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v15_3) S1024x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v8_0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v36) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_0) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8_1) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg2) S1024x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v0) S1024x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v1) S1024x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v40) S1024x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v45) S1x1024.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v20) S1x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v21) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v28) S1x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v35) S1x1024.size cc3_transform_12 reads3_12 false false 2 stage3_12 sem3_12
    hrank3 hreads3_12 hinb3_12 nbuf3_12 (Memref.isWhole_whole _) hwx3_12 hstage3_12

abbrev win3_13 : Pipeline.Window sig grid3 :=
  Pipeline.Window.ofSpec (Memref.whole main_v31) S1024x1.size cc3_transform_13 reads3_13 false false 2 stage3_13 sem3_13
    hrank3 hreads3_13 hinb3_13 nbuf3_13 (Memref.isWhole_whole _) hwx3_13 hstage3_13

abbrev win3_14 : Pipeline.Window sig grid3 :=
  Pipeline.Window.ofSpec (Memref.whole main_v47_0) S1024x1.size cc3_transform_14 reads3_14 true false 2 stage3_14 sem3_14
    hrank3 hreads3_14 hinb3_14 nbuf3_14 (Memref.isWhole_whole _) hwx3_14 hstage3_14

abbrev win3_15 : Pipeline.Window sig grid3 :=
  Pipeline.Window.ofSpec (Memref.whole main_v47_1) S1024x1.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

abbrev idle3 : Fin 16 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k3_cond5 i == 1#1) | 15 => fun i => !(k3_cond5 i == 1#1) | ⟨_ + 16, h⟩ => absurd h (Nat.not_lt.2 (Nat.le_add_left _ _))

class Facts : Prop extends Facts₀ where

variable [Facts]
-- ==== ReferenceIdeal.lean ====
abbrev S4096 : Shape := ⟨1, ![4096]⟩
abbrev S4096x4096 : Shape := ⟨2, ![4096, 4096]⟩
abbrev S4096x1 : Shape := ⟨2, ![4096, 1]⟩
abbrev S50000x128 : Shape := ⟨2, ![50000, 128]⟩
abbrev S_ : Shape := ⟨0, ![]⟩
abbrev S4096x128 : Shape := ⟨2, ![4096, 128]⟩
abbrev S128x4096 : Shape := ⟨2, ![128, 4096]⟩
abbrev S1x4096 : Shape := ⟨2, ![1, 4096]⟩
abbrev S128x128 : Shape := ⟨2, ![128, 128]⟩

abbrev nBuf : Space → Nat
  | .hbm => 164
  | .vmem => 0
  | .smem => 0
  | _ => 0

abbrev hbmTy0_0 (i : Nat) : BufTy := match i % 128 with
  | 0 => ⟨S4096, .i32⟩
  | 1 => ⟨S4096, .i32⟩
  | 2 => ⟨S4096x4096, .f32⟩
  | 3 => ⟨S4096x1, .f32⟩
  | 4 => ⟨S4096x1, .f32⟩
  | 5 => ⟨S4096x4096, .f32⟩
  | 6 => ⟨S4096x4096, .f32⟩
  | 7 => ⟨S50000x128, .f32⟩
  | 8 => ⟨S50000x128, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x128, .f32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x128, .f32⟩
  | 27 => ⟨S4096x128, .f32⟩
  | 28 => ⟨S_, .f32⟩
  | 29 => ⟨S4096, .f32⟩
  | 30 => ⟨S4096x1, .f32⟩
  | 31 => ⟨S4096x1, .f32⟩
  | 32 => ⟨S128x4096, .f32⟩
  | 33 => ⟨S4096x4096, .f32⟩
  | 34 => ⟨S1x4096, .f32⟩
  | 35 => ⟨S4096x4096, .f32⟩
  | 36 => ⟨S_, .f32⟩
  | 37 => ⟨S4096x4096, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S4096x128, .f32⟩
  | 51 => ⟨S_, .f32⟩
  | 52 => ⟨S4096, .f32⟩
  | 53 => ⟨S4096x1, .f32⟩
  | 54 => ⟨S4096x1, .f32⟩
  | 55 => ⟨S128x4096, .f32⟩
  | 56 => ⟨S4096x4096, .f32⟩
  | 57 => ⟨S1x4096, .f32⟩
  | 58 => ⟨S4096x4096, .f32⟩
  | 59 => ⟨S_, .f32⟩
  | 60 => ⟨S4096x4096, .f32⟩
  | 61 => ⟨S4096x4096, .f32⟩
  | 62 => ⟨S4096x4096, .f32⟩
  | 63 => ⟨S_, .f32⟩
  | 64 => ⟨S4096x4096, .f32⟩
  | 65 => ⟨S4096x4096, .f32⟩
  | 66 => ⟨S_, .f32⟩
  | 67 => ⟨S4096x4096, .f32⟩
  | 68 => ⟨S4096x4096, .f32⟩
  | 69 => ⟨S4096x4096, .f32⟩
  | 70 => ⟨S_, .f32⟩
  | 71 => ⟨S4096x4096, .f32⟩
  | 72 => ⟨S4096x4096, .f32⟩
  | 73 => ⟨S4096x128, .f32⟩
  | 74 => ⟨S_, .f32⟩
  | 75 => ⟨S4096, .f32⟩
  | 76 => ⟨S4096x1, .f32⟩
  | 77 => ⟨S4096x1, .f32⟩
  | 78 => ⟨S4096x128, .f32⟩
  | 79 => ⟨S_, .f32⟩
  | 80 => ⟨S4096, .f32⟩
  | 81 => ⟨S4096x1, .f32⟩
  | 82 => ⟨S4096x1, .f32⟩
  | 83 => ⟨S128x4096, .f32⟩
  | 84 => ⟨S4096x4096, .f32⟩
  | 85 => ⟨S1x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .f32⟩
  | 100 => ⟨S4096x1, .f32⟩
  | 101 => ⟨S1x4096, .f32⟩
  | 102 => ⟨S4096x4096, .f32⟩
  | 103 => ⟨S4096x4096, .f32⟩
  | 104 => ⟨S1x4096, .f32⟩
  | 105 => ⟨S4096x4096, .f32⟩
  | 106 => ⟨S4096x4096, .f32⟩
  | 107 => ⟨S4096x4096, .f32⟩
  | 108 => ⟨S4096x4096, .f32⟩
  | 109 => ⟨S4096x4096, .f32⟩
  | 110 => ⟨S4096x4096, .f32⟩
  | 111 => ⟨S_, .f32⟩
  | 112 => ⟨S4096x4096, .f32⟩
  | 113 => ⟨S4096x4096, .f32⟩
  | 114 => ⟨S4096x4096, .f32⟩
  | 115 => ⟨S4096x4096, .f32⟩
  | 116 => ⟨S_, .f32⟩
  | 117 => ⟨S_, .f32⟩
  | 118 => ⟨S4096x4096, .f32⟩
  | 119 => ⟨S_, .f32⟩
  | 120 => ⟨S_, .f32⟩
  | 121 => ⟨S4096x4096, .f32⟩
  | 122 => ⟨S4096x4096, .f32⟩
  | 123 => ⟨S4096x4096, .f32⟩
  | 124 => ⟨S4096x4096, .f32⟩
  | 125 => ⟨S4096x4096, .f32⟩
  | 126 => ⟨S_, .f32⟩
  | 127 => ⟨S_, .f32⟩
  | _ => ⟨S4096, .i32⟩

abbrev hbmTy0_1 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S4096x4096, .f32⟩
  | 5 => ⟨S_, .f32⟩
  | 6 => ⟨S_, .f32⟩
  | 7 => ⟨S_, .f32⟩
  | 8 => ⟨S128x4096, .f32⟩
  | 9 => ⟨S128x128, .f32⟩
  | 10 => ⟨S128x128, .i32⟩
  | 11 => ⟨S128x128, .i32⟩
  | 12 => ⟨S_, .i32⟩
  | 13 => ⟨S128x128, .i32⟩
  | 14 => ⟨S128x128, .i32⟩
  | 15 => ⟨S128x128, .i1⟩
  | 16 => ⟨S128x128, .f32⟩
  | 17 => ⟨S128x128, .f32⟩
  | 18 => ⟨S128x128, .f32⟩
  | 19 => ⟨S_, .f32⟩
  | 20 => ⟨S_, .f32⟩
  | 21 => ⟨S_, .f32⟩
  | 22 => ⟨S128x4096, .f32⟩
  | 23 => ⟨S128x128, .f32⟩
  | 24 => ⟨S128x128, .i32⟩
  | 25 => ⟨S128x128, .i32⟩
  | 26 => ⟨S_, .i32⟩
  | 27 => ⟨S128x128, .i32⟩
  | 28 => ⟨S128x128, .i32⟩
  | 29 => ⟨S128x128, .i1⟩
  | 30 => ⟨S128x128, .f32⟩
  | 31 => ⟨S128x128, .f32⟩
  | 32 => ⟨S128x128, .f32⟩
  | 33 => ⟨S_, .f32⟩
  | 34 => ⟨S_, .f32⟩
  | 35 => ⟨S_, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_12 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_20 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_21 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_22 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_23 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_c_24 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_25 : Ref sig .tc := ⟨.hbm, 161, rfl⟩
abbrev main_v125 : Ref sig .tc := ⟨.hbm, 162, rfl⟩
abbrev main_v126 : Ref sig .tc := ⟨.hbm, 163, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x128_S4096_d1 : S4096x128.ReducesTo [1] S4096
  h_S_ : 0 < S_.numel
  transposes_S4096x128_S128x4096_1_0 : S4096x128.Transposes [1, 0] S128x4096
  transposes_S4096x1_S1x4096_1_0 : S4096x1.Transposes [1, 0] S1x4096
  bcast_S_S4096x4096 : S_.BroadcastsInDim S4096x4096 (![] : Fin 0 → Fin S4096x4096.rank)
  transposes_S4096x4096_S4096x4096_1_0 : S4096x4096.Transposes [1, 0] S4096x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  gather_S50000x128_S4096x1_S4096x128_1_0_n_n_0_1_1128_wf : GatherDims.WF S50000x128 S4096x1 S4096x128 [1] [0] [] [0] [] 1 ![1, 128]
  dot_S4096x128_S128x4096_S4096x4096_1_0_0_1_n_n_wf : DotDims.WF S4096x128 S128x4096 S4096x4096 [1] [0] [0] [1] [] []
  dot_S4096x1_S1x4096_S4096x4096_1_0_0_1_n_n_wf : DotDims.WF S4096x1 S1x4096 S4096x4096 [1] [0] [0] [1] [] []
  dot_S4096x4096_S4096x1_S4096x1_1_0_0_1_n_n_wf : DotDims.WF S4096x4096 S4096x1 S4096x1 [1] [0] [0] [1] [] []
  dot_S1x4096_S4096x4096_S1x4096_1_0_0_1_n_n_wf : DotDims.WF S1x4096 S4096x4096 S1x4096 [1] [0] [0] [1] [] []
  dot_S4096x4096_S4096x4096_S4096x4096_1_0_0_1_n_n_wf : DotDims.WF S4096x4096 S4096x4096 S4096x4096 [1] [0] [0] [1] [] []
  dot_S128x4096_S4096x128_S128x128_1_0_0_1_n_n_wf : DotDims.WF S128x4096 S4096x128 S128x128 [1] [0] [0] [1] [] []

variable [Facts₀]

def gather_S50000x128_S4096x1_S4096x128_1_0_n_n_0_1_1128 : GatherDims S50000x128 S4096x1 S4096x128 where
  offsetDims := [1]
  collapsedSliceDims := [0]
  operandBatchingDims := []
  startIndicesBatchingDims := []
  startIndexMap := [0]
  indexVectorDim := 1
  sliceSizes := ![1, 128]
  wf := gather_S50000x128_S4096x1_S4096x128_1_0_n_n_0_1_1128_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S128x4096_S4096x128_S128x128_1_0_0_1_n_n : DotDims S128x4096 S4096x128 S128x128 where
  lhsContracting := [1]
  rhsContracting := [0]
  lhsNonContracting := [0]
  rhsNonContracting := [1]
  lhsBatch := []
  rhsBatch := []
  wf := dot_S128x4096_S4096x128_S128x128_1_0_0_1_n_n_wf

class Facts : Prop extends Facts₀ where

variable [Facts]
-- ==== Proof.BitsBody0.lean ====
import proofs.«403712_j45286135169680_3_alg».proof.Proof.Gen.Kernel.Skeleton
import Idealize.ShloMosaic.Lib.Pipeline.Value
import Idealize.ShloMosaic.Lib.Pipeline.TableIdle

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h inb]

theorem load_whole {κ : Kind} {sp : Space} {sz : Fin 2 → ℕ} {e : EltTy} (v : View sig κ sp ⟨2, sz⟩ e) (inb) (x) :
    v.readAt (Elt F) (Rect.unit ![0, 0] sz inb).toLoadRect (v.rep x) = x :=
  ((View.readAt_eq_ld v _ _).trans (View.ld_unit_zero hz2 inb _)).trans (View.read_rep v x)

theorem cover_whole {κ : Kind} {sp : Space} {sz : Fin 2 → ℕ} {e : EltTy} (v : View sig κ sp ⟨2, sz⟩ e) (inb) (w) :
    v.readCov [(⟨Rect.unit ![0, 0] sz inb, w⟩ : View.Piece (Elt F) ⟨2, sz⟩ e)] (Rect.unit ![0, 0] sz inb).toLoadRect = w :=
  View.readCov_unit_zero v hz2 inb w

theorem stored (c : Thread nD τ) {sp : Space} {sz : Fin 2 → ℕ} {e : EltTy} (m : Memref sig c.2.kind sp ⟨2, sz⟩ e) (q) (f) (inb) (w) (L) :
    (m.view.loc c ↦[m.view.set]{q} m.view.writes (Elt F) f ((⟨Rect.unit ![0, 0] sz inb, w⟩ : View.Piece (Elt F) ⟨2, sz⟩ e) :: L))
      ⊢ (m.view.loc c ↦[m.view.set]{q} m.view.rep w : sProp 𝕄) := by
  rw [← owns_eq_rep]; unfold owns
  iintro H; iexists _; isplitr; swap; · iexact H
  ipureintro; exact read_writes_unit_zero m.view f hz2 inb w L

abbrev cond1 (i : grid0.Coords) : BitVec 1 :=
  Scalar.cmpi .ne (Scalar.extui (Scalar.cmpi .eq (BitVec.ofNat 32 (i 1).val) 0#32)) 0#32

abbrev Acc (F : FTy → Type) : Type := Vec F S1024x1 .f32 × Vec F S1024x1 .f32 × Vec F S1024x1 .f32

set_option maxHeartbeats 1000000 in
theorem run (c : Dev nD) (E : Set ℕ) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole)
    (x0 x1 : Vec F S1024x128 .f32) (x2 : Vec F S1024x1 .f32) (x3 x4 : Vec F S1x1024 .f32) (x5 v : Vec F S1024x1024 .f32) (s r : Acc F)
    (hv : v = k0_pay4 x0 x1 x2 x3) (hr : r = (k0_pay5 v s.1 x4, k0_pay7 v x5 s.2.1, k0_pay6 v s.2.2))
    (hs : cond1 i = 1#1 → s = (k0_pay1, k0_pay2, k0_pay3)) (h : ¬ (cond1 i = 1#1 ∧ k0_cond2 i = 1#1)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ a : Acc F, ⌜¬ cond1 i = 1#1 → a = s⌝ ∗ owns (c : Thread nD τ) arg12 fullShare a.1 ∗ owns (c : Thread nD τ) arg13 fullShare a.2.1 ∗ owns (c : Thread nD τ) arg14 fullShare a.2.2)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare v
            ∗ (∃ b : Acc F, ⌜k0_cond2 i = 1#1 → b = r⌝ ∗ owns (c : Thread nD τ) arg9 fullShare b.1 ∗ owns (c : Thread nD τ) arg10 fullShare b.2.1 ∗ owns (c : Thread nD τ) arg11 fullShare b.2.2)
            ∗ owns (c : Thread nD τ) arg12 fullShare r.1 ∗ owns (c : Thread nD τ) arg13 fullShare r.2.1 ∗ owns (c : Thread nD τ) arg14 fullShare r.2.2) -∗ K ⟨⟩))
      ⊢ wp frame (wpE (defs₀ (F := F)) Variants.none c none) E (cc0__self_cost_kernel i arg2 harg2 arg3 harg3 arg4 harg4 arg5 harg5 arg6 harg6 arg7 harg7 arg8 harg8 arg9 harg9 arg10 harg10 arg11 harg11 arg12 harg12 arg13 harg13 arg14 harg14) K := by
  subst hv hr
  simp only [cc0__self_cost_kernel_eq_skeleton]; unfold cc0__self_cost_kernel_skel
  simp only [k0_part1_eq_skeleton, k0_part2_eq_skeleton]; unfold k0_part1_skel k0_part2_skel
  simp only [owns_eq_rep]
  iintro ⟨H0, H1, H2, H3, H4, H5, ⟨%d6, H6⟩, ⟨%d7, H7⟩, ⟨%d8, H8⟩, ⟨%d9, H9⟩, ⟨%a, %ha, H12, H13, H14⟩, Hk⟩
  have hl := @load_whole F _
  have hc := @cover_whole F _
  by_cases h1 : cond1 i = 1#1
  on_goal 1 => obtain rfl := hs h1; have h2 : ¬ k0_cond2 i = 1#1 := fun h2 => h ⟨h1, h2⟩
  on_goal 2 => obtain rfl := ha h1; by_cases h2 : k0_cond2 i = 1#1
  all_goals
    sl_exec
    sl_step
    iapply Hk
    iframe H0 H1 H2 H3 H4 H5
    isplitl [H6]; · (iapply stored; iexact H6)
    isplitl [H7 H8 H9]
    · first
        | (iexists (d7, d8, d9); isplitr; · (ipureintro; exact fun e => absurd e h2)
           isplitl [H7]; · iexact H7
           isplitl [H8]; · iexact H8
           iexact H9)
        | (iexists _; isplitr; · (ipureintro; exact fun _ => rfl)
           isplitl [H7]; · (iapply stored; iexact H7)
           isplitl [H8]; · (iapply stored; iexact H8)
           iapply stored; iexact H9)
    isplitl [H12]; · (iapply stored; iexact H12)
    isplitl [H13]; · (iapply stored; iexact H13)
    iapply stored; iexact H14

end Cert.Kernel.Reg0
-- ==== Proof.BitsRegion0.lean ====
import proofs.«403712_j45286135169680_3_alg».proof.Proof.BitsBody0
import proofs.«403712_j45286135169680_3_alg».proof.Proof.Gen.Kernel.Launch

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev Scr (F : FTy → Type) : Type := Vec F S1024x1 .f32 × Vec F S1024x1 .f32 × Vec F S1024x1 .f32

def scrInit : Scr F := (k0_pay1, k0_pay2, k0_pay3)

def cost (c : Dev nD) (t : Fin cfg0.N) : Vec F S1024x1024 .f32 :=
  k0_pay4 (iblk V c 0 t) (iblk V c 1 t) (iblk V c 2 t) (iblk V c 3 t)

def scrStep (c : Dev nD) (t : Fin cfg0.N) (s : Scr F) : Scr F :=
  (k0_pay5 (cost V c t) s.1 (iblk V c 4 t), k0_pay7 (cost V c t) (iblk V c 5 t) s.2.1, k0_pay6 (cost V c t) s.2.2)

def scr (c : Dev nD) : ℕ → Scr F
  | 0 => scrInit
  | n + 1 => if h : n < cfg0.N then scrStep V c ⟨n, h⟩ (if n % 4 = 0 then scrInit else scr c n) else scr c n

def scrIn (c : Dev nD) (t : Fin cfg0.N) : Scr F := if t.val % 4 = 0 then scrInit else scr V c t.val

def scrOut (c : Dev nD) (t : Fin cfg0.N) : Scr F := scrStep V c t (scrIn V c t)

theorem scr_succ (c : Dev nD) (t : Fin cfg0.N) : scr V c (t.val + 1) = scrOut V c t := by
  unfold scrOut scrIn; rw [scr, dif_pos t.isLt]

def scrHeld (c : Dev nD) (n : ℕ) : sProp 𝕄 :=
  iprop(∃ s : Scr F, ⌜n % 4 ≠ 0 → s = scr V c n⌝
    ∗ owns (c : Thread nD τ) (Memref.whole cc0_scratch0) fullShare s.1
    ∗ owns (c : Thread nD τ) (Memref.whole cc0_scratch1) fullShare s.2.1
    ∗ owns (c : Thread nD τ) (Memref.whole cc0_scratch2) fullShare s.2.2)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => cost V c t
    | ⟨7, _⟩ => (scrOut V c t).1
    | ⟨8, _⟩ => (scrOut V c t).2.1
    | ⟨9, _⟩ => (scrOut V c t).2.2
  Φ t := iprop(Pipeline.scopedRestBut (Ix := Unit) (Name := ℕ) (U := UR sig nD τ) (Lvl := ℕ) (Val := Elt F) spec0 c [cc0_scratch0, cc0_scratch1, cc0_scratch2]
    ∗ scrHeld V c t.val)
  q w := match w with
    | ⟨0, _⟩ => fullShare.left
    | ⟨1, _⟩ => fullShare.right
    | _ => fullShare
  owed _ := 0

theorem A_eq (c : Dev nD) (w : Fin cfg0.W) : (dat V c).A w = V c (Pipeline.arrRef spec0 w) := by
  dsimp only [dat]

theorem q_0 (c : Dev nD) : (dat V c).q 0 = fullShare.left := rfl
theorem q_1 (c : Dev nD) : (dat V c).q 1 = fullShare.right := rfl
theorem q_rest (c : Dev nD) (w : Fin cfg0.W) (h0 : w ≠ 0) (h1 : w ≠ 1) : (dat V c).q w = fullShare := by
  fin_cases w
  · exact absurd rfl h0
  · exact absurd rfl h1
  all_goals rfl

theorem cond1_iff : ∀ t : Fin cfg0.N, Reg0.cond1 (cfg0.grid.coords t) = 1#1 ↔ t.val % 4 = 0 :=
  (by decide +kernel : ∀ t : Fin grid0.N, Reg0.cond1 (grid0.coords t) = 1#1 ↔ t.val % 4 = 0)
theorem cond2_iff : ∀ t : Fin cfg0.N, k0_cond2 (cfg0.grid.coords t) = 1#1 ↔ t.val % 4 = 3 :=
  (by decide +kernel : ∀ t : Fin grid0.N, k0_cond2 (grid0.coords t) = 1#1 ↔ t.val % 4 = 3)

theorem sched : ∀ w : Fin cfg0.W, 7 ≤ w.val → (cfg0.win w).isOut = true ∧ ∀ t : Fin cfg0.N,
    (cfg0.win w).flush t = decide (t.val % 4 = 3) ∧ cfg0.idle w (cfg0.grid.coords t) = decide (t.val % 4 ≠ 3) :=
  (by decide +kernel : ∀ w : Fin 10, 7 ≤ w.val → (win0 w).isOut = true ∧ ∀ t : Fin grid0.N,
    (win0 w).flush t = decide (t.val % 4 = 3) ∧ idle0 w (grid0.coords t) = decide (t.val % 4 ≠ 3))

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl

theorem before_1 (c : Dev nD) (t : Fin cfg0.N) (d) : (dat V c).before 1 t d = iblk V c 1 t :=
  ((dat V c).before_in_eq_fetched 1 rfl (fun _ => rfl) (fun _ _ _ => rfl) (fun _ => rfl) t d).trans rfl

theorem before_2 (c : Dev nD) (t : Fin cfg0.N) (d) : (dat V c).before 2 t d = iblk V c 2 t :=
  ((dat V c).before_in_eq_fetched 2 rfl (fun _ => rfl) (fun _ _ _ => rfl) (fun _ => rfl) t d).trans rfl

theorem before_3 (c : Dev nD) (t : Fin cfg0.N) (d) : (dat V c).before 3 t d = iblk V c 3 t :=
  ((dat V c).before_in_eq_fetched 3 rfl (fun _ => rfl) (fun _ _ _ => rfl) (fun _ => rfl) t d).trans rfl

theorem before_4 (c : Dev nD) (t : Fin cfg0.N) (d) : (dat V c).before 4 t d = iblk V c 4 t :=
  ((dat V c).before_in_eq_fetched 4 rfl (fun _ => rfl) (fun _ _ _ => rfl) (fun _ => rfl) t d).trans rfl

theorem before_5 (c : Dev nD) (t : Fin cfg0.N) (d) : (dat V c).before 5 t d = iblk V c 5 t :=
  ((dat V c).before_in_eq_fetched 5 rfl (fun _ => rfl) (fun _ _ _ => rfl) (fun _ => rfl) t d).trans rfl

theorem before_out (c : Dev nD) (w : Fin cfg0.W) (hw : 7 ≤ w.val) (t : Fin cfg0.N) (d) : (dat V c).before w t d = d := by
  obtain ⟨ho, hs⟩ := sched w hw
  rw [(dat V c).before_idle_run w (fun t => (cfg0.win w).fetch_out ho t) d (t.val % 4) t (Nat.mod_le _ _) fun j h1 h2 => by
    rw [(hs j).2, (hs j).1]; exact ⟨decide_eq_true (by omega), decide_eq_false (by omega)⟩]
  exact (dat V c).before_out_reset w ho _ (by
    by_cases h0 : t.val - t.val % 4 = 0
    · exact .inl h0
    · exact .inr ⟨h0, by rw [(hs _).1]; exact decide_eq_true (by show (t.val - t.val % 4 - 1) % 4 = 3; omega)⟩) d

theorem Φ_eq (c : Dev nD) (t : Fin (cfg0.N + 1)) : (dat V c).Φ t
    = iprop(Pipeline.scopedRestBut (Ix := Unit) (Name := ℕ) (U := UR sig nD τ) (Lvl := ℕ) (Val := Elt F) spec0 c [cc0_scratch0, cc0_scratch1, cc0_scratch2]
        ∗ scrHeld V c t.val) := by dsimp only [dat]

theorem hin (c : Dev nD) : (Pipeline.scopedRest (Ix := Unit) (Name := ℕ) (U := UR sig nD τ) (Lvl := ℕ) (Val := Elt F) spec0 c : sProp 𝕄) ⊢ (dat V c).Φ 0 := by
  rw [scopedRest0_split, Φ_eq]
  unfold scrHeld
  iintro ⟨⟨⟨%f0, H0⟩, ⟨%f1, H1⟩, ⟨%f2, H2⟩⟩, HR⟩
  isplitl [HR]; · iexact HR
  iexists ((f0, f1, f2) : Scr F)
  isplitr; · ipureintro; intro h; exact absurd rfl h
  rw [owns_whole, owns_whole, owns_whole]
  isplitl [H0]; · iexact H0
  isplitl [H1]; · iexact H1
  iexact H2

theorem hout (c : Dev nD) : (dat V c).Φ (Fin.last cfg0.N) ⊢ (Pipeline.scopedRest (Ix := Unit) (Name := ℕ) (U := UR sig nD τ) (Lvl := ℕ) (Val := Elt F) spec0 c : sProp 𝕄) := by
  rw [scopedRest0_split, Φ_eq]
  unfold scrHeld
  iintro ⟨HR, ⟨%s, -, H0, H1, H2⟩⟩
  ihave H0 := (Entails.of_eq (owns_whole (c : Thread nD τ) cc0_scratch0 fullShare s.1)) $$ H0
  ihave H1 := (Entails.of_eq (owns_whole (c : Thread nD τ) cc0_scratch1 fullShare s.2.1)) $$ H1
  ihave H2 := (Entails.of_eq (owns_whole (c : Thread nD τ) cc0_scratch2 fullShare s.2.2)) $$ H2
  isplitr [HR]; swap; · iexact HR
  isplitl [H0]; · iexists _; iexact H0
  isplitl [H1]; · iexists _; iexact H1
  iexists _; iexact H2

theorem leaves (c : Dev nD) (w : Fin cfg0.W) (hw : 7 ≤ w.val) (t : Fin cfg0.N) (d) (h : t.val % 4 = 3 → d = (dat V c).after w t) :
    owns (c : Thread nD τ) ((cfg0.win w).stage (cfg0.slots t w)) fullShare d ⊢ (dat V c).leavesExact w t := by
  obtain ⟨hf, hi⟩ := (sched w hw).2 t
  by_cases h3 : t.val % 4 = 3
  · unfold Dat.leavesExact; rw [hi, decide_eq_false (not_not.mpr h3), h h3]
  · rw [Dat.leavesExact_idle _ w t (by rw [hi, decide_eq_true h3]) (by rw [hf, decide_eq_false h3])]
    iintro H; iexists d; rw [before_out V c w hw]; iexact H

set_option maxHeartbeats 1000000 in
theorem body_obligation (c : Dev nD) : BodyObligation (dat (F := F) V c) (defs₀ (F := F)) Variants.none () Set.univ := fun t => by
  rw [bigSep_W0, bigSep_W0]
  simp only [before_0, before_1, before_2, before_3, before_4, before_5]
  rw [show (dat V c).owesAt () t.succ = (dat V c).owesAt () t.castSucc from rfl, Φ_eq, Φ_eq]
  unfold scrHeld
  iintro ⟨⟨HR, %a, %ha, S0, S1, S2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Reg0.run c Set.univ (grid0.coords t) _ (stage_whole0 0 _) _ (stage_whole0 1 _) _ (stage_whole0 2 _) _ (stage_whole0 3 _) _ (stage_whole0 4 _) _ (stage_whole0 5 _) _ (stage_whole0 6 _) _ (stage_whole0 7 _) _ (stage_whole0 8 _) _ (stage_whole0 9 _) _ (Memref.isWhole_whole _) _ (Memref.isWhole_whole _) _ (Memref.isWhole_whole _)
    (iblk V c 0 t) (iblk V c 1 t) (iblk V c 2 t) (iblk V c 3 t) (iblk V c 4 t) (iblk V c 5 t) (cost V c t) (scrIn V c t) (scrOut V c t) rfl rfl
    (fun h1 => if_pos ((cond1_iff t).mp h1)) (fun h => by have := (cond1_iff t).mp h.1; have := (cond2_iff t).mp h.2; omega) _)
  iframe H0 H1 H2 H3 H4 H5
  isplitl [H6]; · (iexists _; iexact H6)
  isplitl [H7]; · (iexists _; iexact H7)
  isplitl [H8]; · (iexists _; iexact H8)
  isplitl [H9]; · (iexists _; iexact H9)
  isplitl [S0 S1 S2]
  · iexists a; iframe S0 S1 S2; ipureintro
    exact fun h1 => (ha (mt (cond1_iff t).mpr h1)).trans (if_neg (mt (cond1_iff t).mpr h1)).symm
  iintro ⟨H0, H1, H2, H3, H4, H5, H6, ⟨%b, %hb, H7, H8, H9⟩, S0, S1, S2⟩
  iframe HR Ho
  isplitl [S0 S1 S2]
  · iexists (scrOut V c t); iframe S0 S1 S2; ipureintro; exact fun _ => (scr_succ V c t).symm
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · (iapply (leaves V c 7 (by decide) t b.1 fun h3 => by rw [hb ((cond2_iff t).mpr h3)]; rfl); iexact H7)
  isplitl [H8]; · (iapply (leaves V c 8 (by decide) t b.2.1 fun h3 => by rw [hb ((cond2_iff t).mpr h3)]; rfl); iexact H8)
  iapply (leaves V c 9 (by decide) t b.2.2 fun h3 => by rw [hb ((cond2_iff t).mpr h3)]; rfl); iexact H9

end Cert.Kernel.Reg0
-- ==== Proof.BitsRegion1.lean ====
import proofs.«403712_j45286135169680_3_alg».proof.Proof.BitsBody0
import proofs.«403712_j45286135169680_3_alg».proof.Proof.Gen.Kernel.Launch

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Scr (F : FTy → Type) : Type := Vec F S1024x1 .f32 × Vec F S1024x1 .f32 × Vec F S1024x1 .f32

def scrInit : Scr F := (k1_pay1, k1_pay2, k1_pay3)

def cost (c : Dev nD) (t : Fin cfg1.N) : Vec F S1024x1024 .f32 :=
  k1_pay4 (iblk V c 0 t) (iblk V c 1 t) (iblk V c 2 t) (iblk V c 3 t)

def scrStep (c : Dev nD) (t : Fin cfg1.N) (s : Scr F) : Scr F :=
  (k1_pay5 (cost V c t) s.1 (iblk V c 4 t), k1_pay7 (cost V c t) (iblk V c 5 t) s.2.1, k1_pay6 (cost V c t) s.2.2)

def scr (c : Dev nD) : ℕ → Scr F
  | 0 => scrInit
  | n + 1 => if h : n < cfg1.N then scrStep V c ⟨n, h⟩ (if n % 4 = 0 then scrInit else scr c n) else scr c n

def scrIn (c : Dev nD) (t : Fin cfg1.N) : Scr F := if t.val % 4 = 0 then scrInit else scr V c t.val

def scrOut (c : Dev nD) (t : Fin cfg1.N) : Scr F := scrStep V c t (scrIn V c t)

theorem scr_succ (c : Dev nD) (t : Fin cfg1.N) : scr V c (t.val + 1) = scrOut V c t := by
  unfold scrOut scrIn; rw [scr, dif_pos t.isLt]

def scrHeld (c : Dev nD) (n : ℕ) : sProp 𝕄 :=
  iprop(∃ s : Scr F, ⌜n % 4 ≠ 0 → s = scr V c n⌝
    ∗ owns (c : Thread nD τ) (Memref.whole cc1_scratch0) fullShare s.1
    ∗ owns (c : Thread nD τ) (Memref.whole cc1_scratch1) fullShare s.2.1
    ∗ owns (c : Thread nD τ) (Memref.whole cc1_scratch2) fullShare s.2.2)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => cost V c t
    | ⟨7, _⟩ => (scrOut V c t).1
    | ⟨8, _⟩ => (scrOut V c t).2.1
    | ⟨9, _⟩ => (scrOut V c t).2.2
  Φ t := iprop(Pipeline.scopedRestBut (Ix := Unit) (Name := ℕ) (U := UR sig nD τ) (Lvl := ℕ) (Val := Elt F) spec1 c [cc1_scratch0, cc1_scratch1, cc1_scratch2]
    ∗ scrHeld V c t.val)
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem q_0 (c : Dev nD) : (dat V c).q 0 = fullShare.left := rfl
theorem q_1 (c : Dev nD) : (dat V c).q 1 = fullShare.right := rfl
theorem q_rest (c : Dev nD) (w : Fin cfg1.W) (h0 : w ≠ 0) (h1 : w ≠ 1) : (dat V c).q w = fullShare := by
  fin_cases w
  · exact absurd rfl h0
  · exact absurd rfl h1
  all_goals rfl

theorem cond1_iff : ∀ t : Fin cfg1.N, Reg0.cond1 (cfg1.grid.coords t) = 1#1 ↔ t.val % 4 = 0 :=
  (by decide +kernel : ∀ t : Fin grid1.N, Reg0.cond1 (grid1.coords t) = 1#1 ↔ t.val % 4 = 0)
theorem cond2_iff : ∀ t : Fin cfg1.N, k1_cond2 (cfg1.grid.coords t) = 1#1 ↔ t.val % 4 = 3 :=
  (by decide +kernel : ∀ t : Fin grid1.N, k1_cond2 (grid1.coords t) = 1#1 ↔ t.val % 4 = 3)

theorem sched : ∀ w : Fin cfg1.W, 7 ≤ w.val → (cfg1.win w).isOut = true ∧ ∀ t : Fin cfg1.N,
    (cfg1.win w).flush t = decide (t.val % 4 = 3) ∧ cfg1.idle w (cfg1.grid.coords t) = decide (t.val % 4 ≠ 3) :=
  (by decide +kernel : ∀ w : Fin 10, 7 ≤ w.val → (win1 w).isOut = true ∧ ∀ t : Fin grid1.N,
    (win1 w).flush t = decide (t.val % 4 = 3) ∧ idle1 w (grid1.coords t) = decide (t.val % 4 ≠ 3))

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl

theorem before_1 (c : Dev nD) (t : Fin cfg1.N) (d) : (dat V c).before 1 t d = iblk V c 1 t :=
  ((dat V c).before_in_eq_fetched 1 rfl (fun _ => rfl) (fun _ _ _ => rfl) (fun _ => rfl) t d).trans rfl

theorem before_2 (c : Dev nD) (t : Fin cfg1.N) (d) : (dat V c).before 2 t d = iblk V c 2 t :=
  ((dat V c).before_in_eq_fetched 2 rfl (fun _ => rfl) (fun _ _ _ => rfl) (fun _ => rfl) t d).trans rfl

theorem before_3 (c : Dev nD) (t : Fin cfg1.N) (d) : (dat V c).before 3 t d = iblk V c 3 t :=
  ((dat V c).before_in_eq_fetched 3 rfl (fun _ => rfl) (fun _ _ _ => rfl) (fun _ => rfl) t d).trans rfl

theorem before_4 (c : Dev nD) (t : Fin cfg1.N) (d) : (dat V c).before 4 t d = iblk V c 4 t :=
  ((dat V c).before_in_eq_fetched 4 rfl (fun _ => rfl) (fun _ _ _ => rfl) (fun _ => rfl) t d).trans rfl

theorem before_5 (c : Dev nD) (t : Fin cfg1.N) (d) : (dat V c).before 5 t d = iblk V c 5 t :=
  ((dat V c).before_in_eq_fetched 5 rfl (fun _ => rfl) (fun _ _ _ => rfl) (fun _ => rfl) t d).trans rfl

theorem before_out (c : Dev nD) (w : Fin cfg1.W) (hw : 7 ≤ w.val) (t : Fin cfg1.N) (d) : (dat V c).before w t d = d := by
  obtain ⟨ho, hs⟩ := sched w hw
  rw [(dat V c).before_idle_run w (fun t => (cfg1.win w).fetch_out ho t) d (t.val % 4) t (Nat.mod_le _ _) fun j h1 h2 => by
    rw [(hs j).2, (hs j).1]; exact ⟨decide_eq_true (by omega), decide_eq_false (by omega)⟩]
  exact (dat V c).before_out_reset w ho _ (by
    by_cases h0 : t.val - t.val % 4 = 0
    · exact .inl h0
    · exact .inr ⟨h0, by rw [(hs _).1]; exact decide_eq_true (by show (t.val - t.val % 4 - 1) % 4 = 3; omega)⟩) d

theorem Φ_eq (c : Dev nD) (t : Fin (cfg1.N + 1)) : (dat V c).Φ t
    = iprop(Pipeline.scopedRestBut (Ix := Unit) (Name := ℕ) (U := UR sig nD τ) (Lvl := ℕ) (Val := Elt F) spec1 c [cc1_scratch0, cc1_scratch1, cc1_scratch2]
        ∗ scrHeld V c t.val) := by dsimp only [dat]

theorem hin (c : Dev nD) : (Pipeline.scopedRest (Ix := Unit) (Name := ℕ) (U := UR sig nD τ) (Lvl := ℕ) (Val := Elt F) spec1 c : sProp 𝕄) ⊢ (dat V c).Φ 0 := by
  rw [scopedRest1_split, Φ_eq]
  unfold scrHeld
  iintro ⟨⟨⟨%f0, H0⟩, ⟨%f1, H1⟩, ⟨%f2, H2⟩⟩, HR⟩
  isplitl [HR]; · iexact HR
  iexists ((f0, f1, f2) : Scr F)
  isplitr; · ipureintro; intro h; exact absurd rfl h
  rw [owns_whole, owns_whole, owns_whole]
  isplitl [H0]; · iexact H0
  isplitl [H1]; · iexact H1
  iexact H2

theorem hout (c : Dev nD) : (dat V c).Φ (Fin.last cfg1.N) ⊢ (Pipeline.scopedRest (Ix := Unit) (Name := ℕ) (U := UR sig nD τ) (Lvl := ℕ) (Val := Elt F) spec1 c : sProp 𝕄) := by
  rw [scopedRest1_split, Φ_eq]
  unfold scrHeld
  iintro ⟨HR, ⟨%s, -, H0, H1, H2⟩⟩
  ihave H0 := (Entails.of_eq (owns_whole (c : Thread nD τ) cc1_scratch0 fullShare s.1)) $$ H0
  ihave H1 := (Entails.of_eq (owns_whole (c : Thread nD τ) cc1_scratch1 fullShare s.2.1)) $$ H1
  ihave H2 := (Entails.of_eq (owns_whole (c : Thread nD τ) cc1_scratch2 fullShare s.2.2)) $$ H2
  isplitr [HR]; swap; · iexact HR
  isplitl [H0]; · iexists _; iexact H0
  isplitl [H1]; · iexists _; iexact H1
  iexists _; iexact H2

theorem leaves (c : Dev nD) (w : Fin cfg1.W) (hw : 7 ≤ w.val) (t : Fin cfg1.N) (d) (h : t.val % 4 = 3 → d = (dat V c).after w t) :
    owns (c : Thread nD τ) ((cfg1.win w).stage (cfg1.slots t w)) fullShare d ⊢ (dat V c).leavesExact w t := by
  obtain ⟨hf, hi⟩ := (sched w hw).2 t
  by_cases h3 : t.val % 4 = 3
  · unfold Dat.leavesExact; rw [hi, decide_eq_false (not_not.mpr h3), h h3]
  · rw [Dat.leavesExact_idle _ w t (by rw [hi, decide_eq_true h3]) (by rw [hf, decide_eq_false h3])]
    iintro H; iexists d; rw [before_out V c w hw]; iexact H

set_option maxHeartbeats 1000000 in
theorem body_obligation (c : Dev nD) : BodyObligation (dat (F := F) V c) (defs₀ (F := F)) Variants.none () Set.univ := fun t => by
  rw [bigSep_W1, bigSep_W1]
  simp only [before_0, before_1, before_2, before_3, before_4, before_5]
  rw [show (dat V c).owesAt () t.succ = (dat V c).owesAt () t.castSucc from rfl, Φ_eq, Φ_eq]
  unfold scrHeld
  iintro ⟨⟨HR, %a, %ha, S0, S1, S2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Reg0.run c Set.univ (grid1.coords t) _ (stage_whole1 0 _) _ (stage_whole1 1 _) _ (stage_whole1 2 _) _ (stage_whole1 3 _) _ (stage_whole1 4 _) _ (stage_whole1 5 _) _ (stage_whole1 6 _) _ (stage_whole1 7 _) _ (stage_whole1 8 _) _ (stage_whole1 9 _) _ (Memref.isWhole_whole _) _ (Memref.isWhole_whole _) _ (Memref.isWhole_whole _)
    (iblk V c 0 t) (iblk V c 1 t) (iblk V c 2 t) (iblk V c 3 t) (iblk V c 4 t) (iblk V c 5 t) (cost V c t) (scrIn V c t) (scrOut V c t) rfl rfl
    (fun h1 => if_pos ((cond1_iff t).mp h1)) (fun h => by have := (cond1_iff t).mp h.1; have := (cond2_iff t).mp h.2; omega) _)
  iframe H0 H1 H2 H3 H4 H5
  isplitl [H6]; · (iexists _; iexact H6)
  isplitl [H7]; · (iexists _; iexact H7)
  isplitl [H8]; · (iexists _; iexact H8)
  isplitl [H9]; · (iexists _; iexact H9)
  isplitl [S0 S1 S2]
  · iexists a; iframe S0 S1 S2; ipureintro
    exact fun h1 => (ha (mt (cond1_iff t).mpr h1)).trans (if_neg (mt (cond1_iff t).mpr h1)).symm
  iintro ⟨H0, H1, H2, H3, H4, H5, H6, ⟨%b, %hb, H7, H8, H9⟩, S0, S1, S2⟩
  iframe HR Ho
  isplitl [S0 S1 S2]
  · iexists (scrOut V c t); iframe S0 S1 S2; ipureintro; exact fun _ => (scr_succ V c t).symm
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · (iapply (leaves V c 7 (by decide) t b.1 fun h3 => by rw [hb ((cond2_iff t).mpr h3)]; rfl); iexact H7)
  isplitl [H8]; · (iapply (leaves V c 8 (by decide) t b.2.1 fun h3 => by rw [hb ((cond2_iff t).mpr h3)]; rfl); iexact H8)
  iapply (leaves V c 9 (by decide) t b.2.2 fun h3 => by rw [hb ((cond2_iff t).mpr h3)]; rfl); iexact H9

end Cert.Kernel.Reg1
-- ==== Proof.BitsRegion2.lean ====
import proofs.«403712_j45286135169680_3_alg».proof.Proof.Gen.Kernel.Launch
import proofs.«403712_j45286135169680_3_alg».proof.Proof.Gen.Kernel.Skeleton
import proofs.«403712_j45286135169680_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid2.Coords) : Prop :=
  (Scalar.cmpi .ne (Scalar.extui (Scalar.cmpi .eq (BitVec.ofNat 32 (i 2).val) 0#32)) 0#32) = 1#1
theorem hcond1 : ∀ t : Fin cfg2.N, cond1 (grid2.coords t) ↔ t.val % 8 = 0 :=
  (by decide +kernel : ∀ t : Fin grid2.N, cond1 (grid2.coords t) ↔ t.val % 8 = 0)

abbrev cond2 (i : grid2.Coords) : Prop := k2_cond2 i = 1#1
theorem hcond2 : ∀ t : Fin cfg2.N, cond2 (grid2.coords t) ↔ t.val % 8 = 7 :=
  (by decide +kernel : ∀ t : Fin grid2.N, cond2 (grid2.coords t) ↔ t.val % 8 = 7)

theorem hz2 : (![0, 0] : Fin 2 → ℕ) = fun _ => 0 := by
  funext a; fin_cases a <;> rfl

set_option maxHeartbeats 1000000 in
-- One run of the kernel: the accumulator restarts from zero where k = 0, the output takes it where k = 7.
theorem run (c : Dev nD) (i : grid2.Coords)
    (a3 : Memref sig .tc .vmem S1024x512 .f32) (h3 : a3.IsWhole) (a4 : Memref sig .tc .vmem S512x1024 .f32) (h4 : a4.IsWhole)
    (a5 : Memref sig .tc .vmem S1x1 .f32) (h5 : a5.IsWhole) (a6 : Memref sig .tc .vmem S1024x1024 .f32) (h6 : a6.IsWhole)
    (a7 : Memref sig .tc .vmem S1024x1024 .f32) (h7 : a7.IsWhole)
    (hx : cond1 i → ¬cond2 i)
    (x0 : Vec F S1024x512 .f32) (x1 : Vec F S512x1024 .f32) (x2 : Vec F S1x1 .f32) (o s : Vec F S1024x1024 .f32)
    (E : Set ℕ) (K : PUnit → sProp 𝕄) :
    iprop(ownsTc c a3 fullShare x0 ∗ ownsTc c a4 fullShare x1 ∗ ownsTc c a5 fullShare x2 ∗ ownsTc c a6 fullShare o ∗ ownsTc c a7 fullShare s
        ∗ (iprop(ownsTc c a3 fullShare x0 ∗ ownsTc c a4 fullShare x1 ∗ ownsTc c a5 fullShare x2
            ∗ ownsTc c a6 fullShare (if cond2 i then k2_pay2 x2 x0 x1 (if cond1 i then k2_pay1 else s) else o)
            ∗ ownsTc c a7 fullShare (k2_pay2 x2 x0 x1 (if cond1 i then k2_pay1 else s))) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel ownsTc owns
  by_cases hc1 : cond1 i <;> by_cases hc2 : cond2 i <;> first | exact absurd hc2 (hx hc1) | skip
  all_goals
    first | rw [if_pos hc1] | rw [if_neg hc1]
    first | rw [if_pos hc2] | rw [if_neg hc2]
    iintro ⟨⟨%f0, %e0, H0⟩, ⟨%f1, %e1, H1⟩, ⟨%f2, %e2, H2⟩, ⟨%f3, %e3, H3⟩, ⟨%f7, %e7, H7⟩, Hk⟩
    subst e0 e1 e2 e3 e7
    sl_exec (disch := first | sl_exact hc1 | sl_exact hc2)
    sl_step
    iapply Hk
    isplitl [H0]; · iexists _; iframe H0; ipureintro; rfl
    isplitl [H1]; · iexists _; iframe H1; ipureintro; rfl
    isplitl [H2]; · iexists _; iframe H2; ipureintro; rfl
    isplitl [H3] <;> iexists _ <;> first | iframe H3 | iframe H7
    all_goals
      ipureintro
      first
      | with_reducible rfl
      | sl_unfold_run_names
        rw [View.read_writes_eq_canon _ _ _ (fun y => ⟨_, List.mem_cons_self, View.mem_set_unit_zero hz2 inb_S1024x1024_S1024x1024_0_0 y⟩),
          View.canon_cons_unit_zero hz2]
        simp only [View.readAt_eq_ld, View.ld_unit_zero (S := S1x1) hz2, View.ld_unit_zero (S := S1024x512) hz2,
          View.ld_unit_zero (S := S512x1024) hz2, View.ld_unit_zero (S := S1024x1024) hz2,
          View.readCov_unit_zero (S := S1024x1024) _ hz2]

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def scr (c : Dev nD) : (n : ℕ) → n < cfg2.N → Vec F S1024x1024 .f32
  | 0, hn => k2_pay2 (iblk V c 2 ⟨0, hn⟩) (iblk V c 0 ⟨0, hn⟩) (iblk V c 1 ⟨0, hn⟩) (k2_pay1 (F := F))
  | n + 1, hn => k2_pay2 (iblk V c 2 ⟨n + 1, hn⟩) (iblk V c 0 ⟨n + 1, hn⟩) (iblk V c 1 ⟨n + 1, hn⟩)
      (if (n + 1) % 8 = 0 then (k2_pay1 (F := F)) else scr c n (Nat.lt_of_succ_lt hn))

-- The body's step on the accumulator is the recursion of scr.
theorem scr_eq (c : Dev nD) (t : Fin cfg2.N) (s : Vec F S1024x1024 .f32)
    (hs : ∀ h : t.val ≠ 0, s = scr V c (t.val - 1) (by omega)) :
    k2_pay2 (iblk V c 2 t) (iblk V c 0 t) (iblk V c 1 t) (if cond1 (grid2.coords t) then k2_pay1 else s) = scr V c t.val t.isLt := by
  obtain ⟨n, hn⟩ := t
  cases n with
  | zero => rw [if_pos ((hcond1 _).mpr rfl)]; rfl
  | succ n => rw [hs (Nat.succ_ne_zero n), if_congr (hcond1 ⟨n + 1, hn⟩) rfl rfl]; rfl

abbrev scM : Memref sig .tc .vmem S1024x1024 .f32 := Memref.whole cc2_scratch0

-- Before position n the accumulator holds what point n - 1 left (anything before the first point).
def Phi (c : Dev nD) (n : ℕ) (hn : n ≤ cfg2.N) : sProp 𝕄 :=
  iprop(∃ s, ⌜∀ h : n ≠ 0, s = scr V c (n - 1) (by omega)⌝ ∗ ownsTc c scM fullShare s
    ∗ Pipeline.scopedRestBut spec2 c [cc2_scratch0])

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => scr V c t.val t.isLt
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem after_3 (c : Dev nD) (t : Fin cfg2.N) : (dat V c).after 3 t = scr V c t.val t.isLt := by dsimp only [dat]

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d

-- Away from k = 7 the body leaves the output block as found; at k = 7 it is the accumulator.
theorem leaves3 (c : Dev nD) (t : Fin cfg2.N) (d) (Y : Vec F S1024x1024 .f32) (hY : Y = scr V c t.val t.isLt) :
    ownsTc c (st2_3 t) fullShare (if cond2 (grid2.coords t) then Y else (dat V c).before 3 t d) ⊢ (dat V c).leavesExact 3 t := by
  have e : cfg2.idle 3 (grid2.coords t) = !decide (cond2 (grid2.coords t)) := rfl
  by_cases h : cond2 (grid2.coords t)
  · unfold Dat.leavesExact; rw [if_pos h, hY, e, decide_eq_true h, after_3]; exact .rfl
  · rw [if_neg h, Dat.leavesExact_idle (dat V c) 3 t (by rw [e, decide_eq_false h]; rfl)
      (Bool.eq_false_iff.mpr fun hf => h ((hcond2 t).mpr ((flush2_3 t).mp hf)))]
    iintro H; iexists d; iexact H

theorem scoped_eq (c : Dev nD) :
    (Pipeline.scopedRest spec2 c : sProp 𝕄)
      = iprop((∃ d, ownsTc c scM fullShare d) ∗ Pipeline.scopedRestBut spec2 c [cc2_scratch0]) := by
  rw [scopedRest2_split]; simp only [scM, owns_whole]; try rfl

set_option maxHeartbeats 2000000 in
theorem sound_body (c : Dev nD) (t : Fin cfg2.N) :
    iprop(Phi V c t.val (Nat.le_of_lt t.isLt) ∗ (dat V c).owesAt () t.castSucc
      ∗ (∃ d, ownsTc c (st2_0 t) fullShare ((dat V c).before 0 t d)) ∗ (∃ d, ownsTc c (st2_1 t) fullShare ((dat V c).before 1 t d))
      ∗ (∃ d, ownsTc c (st2_2 t) fullShare ((dat V c).before 2 t d)) ∗ (∃ d, ownsTc c (st2_3 t) fullShare ((dat V c).before 3 t d)))
    ⊢ wp frame (wpE (defs₀ (F := F)) Variants.none c none) Set.univ (bodyAt2 t) fun _ =>
      iprop(Phi V c (t.val + 1) t.isLt ∗ (dat V c).owesAt () t.castSucc
        ∗ ownsTc c (st2_0 t) fullShare (iblk V c 0 t) ∗ ownsTc c (st2_1 t) fullShare (iblk V c 1 t)
        ∗ ownsTc c (st2_2 t) fullShare (iblk V c 2 t) ∗ (dat V c).leavesExact 3 t) := by
  simp only [before_0, before_1, before_2]
  unfold Phi
  iintro ⟨⟨%s, %hs, HS, HR⟩, Ho, ⟨%d0, H0⟩, ⟨%d1, H1⟩, ⟨%d2, H2⟩, ⟨%d3, H3⟩⟩
  iapply (run c (grid2.coords t) _ _ _ _ _ _ _ _ _ _ (fun h1 h2 => by have := (hcond1 t).mp h1; have := (hcond2 t).mp h2; omega) (iblk V c 0 t) (iblk V c 1 t) (iblk V c 2 t) _ s Set.univ _)
  iframe H0 H1 H2 H3 HS
  iintro ⟨H0, H1, H2, H3, HS⟩
  isplitl [HS HR]
  · iexists _; iframe HS HR; ipureintro; exact fun _ => scr_eq V c t s hs
  iframe Ho H0 H1 H2
  iapply (leaves3 V c t d3 _ (scr_eq V c t s hs))
  iexact H3

theorem body_obligation (c : Dev nD) : BodyObligation (dat (F := F) V c) (defs₀ (F := F)) Variants.none () Set.univ := fun t => by
  rw [bigSep_W2, bigSep_W2]
  exact sound_body V c t

theorem hin (c : Dev nD) : (Pipeline.scopedRest (Ix := Unit) (Name := ℕ) (U := UR sig nD τ) (Lvl := ℕ) (Val := Elt F) spec2 c : sProp 𝕄) ⊢ (dat V c).Φ 0 := by
  rw [scoped_eq, show (dat V c).Φ 0 = Phi V c 0 (Nat.zero_le _) from rfl]; unfold Phi
  iintro ⟨⟨%d, HS⟩, HR⟩
  iexists d; iframe HS HR; ipureintro; exact fun h => absurd rfl h

theorem hout (c : Dev nD) : (dat V c).Φ (Fin.last cfg2.N) ⊢ (Pipeline.scopedRest (Ix := Unit) (Name := ℕ) (U := UR sig nD τ) (Lvl := ℕ) (Val := Elt F) spec2 c : sProp 𝕄) := by
  rw [scoped_eq, show (dat V c).Φ (Fin.last cfg2.N) = Phi V c cfg2.N (Nat.le_refl _) from rfl]; unfold Phi
  iintro ⟨%s, -, HS, HR⟩
  iframe HR; iexists s; iexact HS

end Cert.Kernel.Reg2

end
-- ==== Proof.BitsRegion3.lean ====
import proofs.«403712_j45286135169680_3_alg».proof.Proof.Gen.Kernel.Launch
import proofs.«403712_j45286135169680_3_alg».proof.Proof.Gen.Kernel.Skeleton
import proofs.«403712_j45286135169680_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
import Idealize.ShloMosaic.Lib.Pipeline.TableIdle

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Scr (F : FTy → Type) where
  acc : Vec F S1024x1024 .f32
  dgw : Vec F S1024x1 .f32
  dw : Vec F S1024x1 .f32

def accStep (k : ℕ) (x10 : Vec F S1x1 .f32) (x0 x1 : Vec F S1024x512 .f32) (a : Vec F S1024x1024 .f32) :
    Vec F S1024x1024 .f32 :=
  k3_pay7 x10 x0 x1 (if k = 0 then k3_pay5 (F := F) else a)

def dwStep (j k : ℕ) (x5 x6 : Vec F S1024x128 .f32) (x7 : Vec F S1024x1 .f32) (x8 : Vec F S1x1024 .f32)
    (x4 : Vec F S1024x1024 .f32) (w : Vec F S1024x1 .f32) : Vec F S1024x1 .f32 :=
  if k = 0 then k3_pay8 (if j = 0 then k3_pay4 (F := F) else w) (k3_pay1 x5 x6 x7 x8 x4) else w

def dgwStep (j k : ℕ) (x10 x9 x11 : Vec F S1x1 .f32) (x12 : Vec F S1x1024 .f32) (x13 : Vec F S1024x1 .f32)
    (a' : Vec F S1024x1024 .f32) (x2 : Vec F S1024x1 .f32) (x3 : Vec F S1x1024 .f32) (x4 : Vec F S1024x1024 .f32)
    (g : Vec F S1024x1 .f32) : Vec F S1024x1 .f32 :=
  if k = 7 then k3_pay9 (k3_pay2 (k3_pay6 x10) x9 x11 x12 x13 a' x2 x3 g x4)
  else if j = 0 ∧ k = 0 then k3_pay3 (F := F) else g

theorem cond_nat : ∀ j < 4, ∀ k < 8,
    ((Scalar.cmpi .ne (Scalar.extui (Scalar.andi (Scalar.cmpi .eq (BitVec.ofNat 32 j) 0#32) (Scalar.cmpi .eq (BitVec.ofNat 32 k) 0#32)) : BitVec 32) 0#32 = 1#1) ↔ (j = 0 ∧ k = 0))
    ∧ ((Scalar.cmpi .ne (Scalar.extui (Scalar.cmpi .eq (BitVec.ofNat 32 k) 0#32) : BitVec 32) 0#32 = 1#1) ↔ k = 0)
    ∧ ((Scalar.cmpi .ne (Scalar.extui (Scalar.cmpi .eq (BitVec.ofNat 32 k) 7#32) : BitVec 32) 0#32 = 1#1) ↔ k = 7)
    ∧ ((Scalar.cmpi .ne (Scalar.extui (Scalar.andi (Scalar.cmpi .eq (BitVec.ofNat 32 j) 3#32) (Scalar.cmpi .eq (BitVec.ofNat 32 k) 7#32)) : BitVec 32) 0#32 = 1#1) ↔ (j = 3 ∧ k = 7)) := by
  decide

theorem cond5_iff (i : grid3.Coords) : k3_cond5 i = 1#1 ↔ ((i 1).val = 3 ∧ (i 2).val = 7) :=
  (cond_nat _ (i 1).isLt _ (i 2).isLt).2.2.2

theorem zz : (![0, 0] : Fin 2 → ℕ) = fun _ => 0 := funext fun a => by fin_cases a <;> rfl

theorem readAt_unit2 {sg : RefSig} {κ : Kind} {sp : Space} {n m : ℕ} {e : EltTy} (v : View sg κ sp ⟨2, ![n, m]⟩ e) (f : v.ty.Contents (Elt F))
    (inb : ∀ a, (![0, 0] : Fin 2 → ℕ) a + (![n, m] : Fin 2 → ℕ) a ≤ (![n, m] : Fin 2 → ℕ) a) :
    v.readAt (Elt F) (Rect.unit (s := ⟨2, ![n, m]⟩) ![0, 0] ![n, m] inb).toLoadRect f = v.read (Elt F) f := by
  rw [View.readAt_eq_ld]; exact View.ld_unit_zero zz inb _

theorem read_writes_cons_unit {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

theorem read_writes_cons_unit2 {sg : RefSig} {κ : Kind} {sp : Space} {n m : ℕ} {e : EltTy} (v : View sg κ sp ⟨2, ![n, m]⟩ e) (f : v.ty.Contents (Elt F))
    (inb : ∀ a, (![0, 0] : Fin 2 → ℕ) a + (![n, m] : Fin 2 → ℕ) a ≤ (![n, m] : Fin 2 → ℕ) a) (w : Shape.Idx ⟨2, ![n, m]⟩ → Elt F e)
    (L : List (View.Piece (Elt F) ⟨2, ![n, m]⟩ e)) :
    v.read (Elt F) (v.writes (Elt F) f (⟨Rect.unit (s := ⟨2, ![n, m]⟩) ![0, 0] ![n, m] inb, w⟩ :: L)) = w :=
  read_writes_cons_unit v f zz inb w L

-- On a view's own elements, contents are determined by what the view reads of them.
theorem held_read (c : Thread nD τ) {sp : Space} {sh : Shape} {e : EltTy} (m : Memref sig c.2.kind sp sh e) (q : PosShare TreeShare)
    (f : m.view.ty.Contents (Elt F)) :
    (m.view.loc c ↦[m.view.set]{q} f : sProp 𝕄) ⊢ (m.view.loc c ↦[m.view.set]{q} m.view.rep (m.view.read (Elt F) f)) :=
  (owns_intro c m q f).trans (Entails.of_eq (owns_eq_rep c m q _))

section Body

variable (c : Dev nD) (E : Set ℕ) (i : grid3.Coords)
    {arg3 arg4 : Memref sig .tc .vmem S1024x512 .f32} {arg5 arg10 arg16 arg17 arg18 arg20 arg21 : Memref sig .tc .vmem S1024x1 .f32} {arg6 arg11 arg15 : Memref sig .tc .vmem S1x1024 .f32} {arg7 arg19 : Memref sig .tc .vmem S1024x1024 .f32} {arg8 arg9 : Memref sig .tc .vmem S1024x128 .f32} {arg12 arg13 arg14 : Memref sig .tc .vmem S1x1 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole}
    (j k : ℕ) (x0 x1 : Vec F S1024x512 .f32) (x2 : Vec F S1024x1 .f32) (x3 : Vec F S1x1024 .f32) (x4 : Vec F S1024x1024 .f32)
    (x5 x6 : Vec F S1024x128 .f32) (x7 : Vec F S1024x1 .f32) (x8 : Vec F S1x1024 .f32) (x9 x10 x11 : Vec F S1x1 .f32)
    (x12 : Vec F S1x1024 .f32) (x13 : Vec F S1024x1 .f32)

def stepOn (s : Scr F) : Scr F :=
  { acc := accStep k x10 x0 x1 s.acc
    dgw := dgwStep j k x10 x9 x11 x12 x13 (accStep k x10 x0 x1 s.acc) x2 x3 x4 s.dgw
    dw := dwStep j k x5 x6 x7 x8 x4 s.dw }

theorem stepOn_reset (s s' : Scr F) : stepOn 0 0 x0 x1 x2 x3 x4 x5 x6 x7 x8 x9 x10 x11 x12 x13 s = stepOn 0 0 x0 x1 x2 x3 x4 x5 x6 x7 x8 x9 x10 x11 x12 x13 s' := by
  unfold stepOn accStep dgwStep dwStep
  simp only [if_pos, if_neg, and_self, OfNat.zero_ne_ofNat, ↓reduceIte]

set_option maxHeartbeats 2000000 in
-- By cases on which of the four tests on the coordinates `j`, `k` hold.
theorem sound_kernel (o14 o15 : Vec F S1024x1 .f32) (s : Scr F) (K : PUnit → sProp 𝕄) :
    iprop(owns c arg3 fullShare x0 ∗ owns c arg4 fullShare x1 ∗ owns c arg5 fullShare x2 ∗ owns c arg6 fullShare x3 ∗ owns c arg7 fullShare x4
        ∗ owns c arg8 fullShare x5 ∗ owns c arg9 fullShare x6 ∗ owns c arg10 fullShare x7 ∗ owns c arg11 fullShare x8 ∗ owns c arg12 fullShare x9
        ∗ owns c arg13 fullShare x10 ∗ owns c arg14 fullShare x11 ∗ owns c arg15 fullShare x12 ∗ owns c arg16 fullShare x13
        ∗ owns c arg17 fullShare o14 ∗ owns c arg18 fullShare o15 ∗ owns c arg19 fullShare s.acc ∗ owns c arg20 fullShare s.dgw ∗ owns c arg21 fullShare s.dw
        ∗ (iprop(owns c arg3 fullShare x0 ∗ owns c arg4 fullShare x1 ∗ owns c arg5 fullShare x2 ∗ owns c arg6 fullShare x3 ∗ owns c arg7 fullShare x4
        ∗ owns c arg8 fullShare x5 ∗ owns c arg9 fullShare x6 ∗ owns c arg10 fullShare x7 ∗ owns c arg11 fullShare x8 ∗ owns c arg12 fullShare x9
        ∗ owns c arg13 fullShare x10 ∗ owns c arg14 fullShare x11 ∗ owns c arg15 fullShare x12 ∗ owns c arg16 fullShare x13
        ∗ owns c arg17 fullShare (if (i 1).val = 3 ∧ (i 2).val = 7 then (stepOn (i 1).val (i 2).val x0 x1 x2 x3 x4 x5 x6 x7 x8 x9 x10 x11 x12 x13 s).dgw else o14)
        ∗ owns c arg18 fullShare (if (i 1).val = 3 ∧ (i 2).val = 7 then (stepOn (i 1).val (i 2).val x0 x1 x2 x3 x4 x5 x6 x7 x8 x9 x10 x11 x12 x13 s).dw else o15)
        ∗ owns c arg19 fullShare (stepOn (i 1).val (i 2).val x0 x1 x2 x3 x4 x5 x6 x7 x8 x9 x10 x11 x12 x13 s).acc ∗ owns c arg20 fullShare (stepOn (i 1).val (i 2).val x0 x1 x2 x3 x4 x5 x6 x7 x8 x9 x10 x11 x12 x13 s).dgw ∗ owns c arg21 fullShare (stepOn (i 1).val (i 2).val x0 x1 x2 x3 x4 x5 x6 x7 x8 x9 x10 x11 x12 x13 s).dw) -∗ K ⟨⟩))
      ⊢ wp frame (wpE (defs₀ (F := F)) Variants.none c none) E (cc3__combine_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨hA, hB, hD, -⟩ := cond_nat _ (i 1).isLt _ (i 2).isLt
  have h5 := cond5_iff i
  have hc : ((i 1).val = 0 ∧ (i 2).val = 0) ∨ ((i 1).val ≠ 0 ∧ (i 2).val = 0) ∨ ((i 2).val ≠ 0 ∧ (i 2).val ≠ 7)
      ∨ ((i 1).val ≠ 3 ∧ (i 2).val = 7) ∨ ((i 1).val = 3 ∧ (i 2).val = 7) := by omega
  rcases hc with ⟨hj, hk⟩ | ⟨hj, hk⟩ | ⟨hk, hk'⟩ | ⟨hj, hk⟩ | ⟨hj, hk⟩
  all_goals
    simp (disch := omega) only [stepOn, accStep, dgwStep, dwStep, if_pos, if_neg]
    simp only [cc3__combine_kernel_eq_skeleton]; unfold cc3__combine_kernel_skel
    simp only [k3_part3_eq_skeleton]; unfold k3_part3_skel
    simp only [owns_eq_rep]
    iintro ⟨H3, H4, H5, H6, H7, H8, H9, H10, H11, H12, H13, H14, H15, H16, H17, H18, H19, H20, H21, Hk⟩
    sl_exec (disch := first
      | sl_exact hA.mpr (by omega) | sl_exact hA.not.mpr (by omega)
      | sl_exact hB.mpr (by omega) | sl_exact hB.not.mpr (by omega)
      | sl_exact hD.mpr (by omega) | sl_exact hD.not.mpr (by omega)
      | sl_exact h5.mpr (by omega) | sl_exact h5.not.mpr (by omega))
    sl_step
    ihave H17 := (held_read c arg17 _ _) $$ H17
    ihave H18 := (held_read c arg18 _ _) $$ H18
    ihave H19 := (held_read c arg19 _ _) $$ H19
    ihave H20 := (held_read c arg20 _ _) $$ H20
    ihave H21 := (held_read c arg21 _ _) $$ H21
    sl_unfold_run_names
    simp only [read_writes_cons_unit2, readAt_unit2, View.readCov_cons_toLoadRect, View.read_rep]
    iapply Hk
    iframe

end Body

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step (c : Dev nD) (t : Fin cfg3.N) (s : Scr F) : Scr F :=
  let a' := accStep (t.val % 8) (iblk V c 10 t) (iblk V c 0 t) (iblk V c 1 t) s.acc
  { acc := a'
    dgw := dgwStep (t.val / 8 % 4) (t.val % 8) (iblk V c 10 t) (iblk V c 9 t) (iblk V c 11 t) (iblk V c 12 t) (iblk V c 13 t)
      a' (iblk V c 2 t) (iblk V c 3 t) (iblk V c 4 t) s.dgw
    dw := dwStep (t.val / 8 % 4) (t.val % 8) (iblk V c 5 t) (iblk V c 6 t) (iblk V c 7 t) (iblk V c 8 t) (iblk V c 4 t) s.dw }

def scr (c : Dev nD) : ℕ → Scr F
  | 0 => ⟨k3_pay5 (F := F), k3_pay3 (F := F), k3_pay4 (F := F)⟩
  | n + 1 => if h : n < cfg3.N then step V c ⟨n, h⟩ (scr c n) else scr c n

theorem scr_succ (c : Dev nD) (t : Fin cfg3.N) : scr V c (t.val + 1) = step V c t (scr V c t.val) := by
  show (if h : t.val < cfg3.N then step V c ⟨t.val, h⟩ (scr V c t.val) else scr V c t.val) = _
  rw [dif_pos t.isLt]

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (scr V c (t.val + 1)).dgw
    | ⟨15, _⟩ => (scr V c (t.val + 1)).dw
    | ⟨_ + 16, h⟩ => absurd h (Nat.not_lt.2 (Nat.le_add_left _ _))
  Φ t := iprop(Pipeline.scopedRestBut (Ix := Unit) (Name := ℕ) (U := UR sig nD τ) (Lvl := ℕ) (Val := Elt F) spec3 c [cc3_scratch0, cc3_scratch1, cc3_scratch2]
    ∗ ∃ s : Scr F, ⌜t.val ≠ 0 → s = scr V c t.val⌝
      ∗ owns (c : Thread nD τ) (Memref.whole cc3_scratch0) fullShare s.acc
      ∗ owns (c : Thread nD τ) (Memref.whole cc3_scratch1) fullShare s.dgw
      ∗ owns (c : Thread nD τ) (Memref.whole cc3_scratch2) fullShare s.dw)
  q _ := fullShare
  owed _ := 0

theorem A_eq (c : Dev nD) (w : Fin cfg3.W) : (dat V c).A w = V c (Pipeline.arrRef spec3 w) := by
  dsimp only [dat]

theorem Φ_eq (c : Dev nD) (t : Fin (cfg3.N + 1)) : (dat V c).Φ t =
    iprop(Pipeline.scopedRestBut (Ix := Unit) (Name := ℕ) (U := UR sig nD τ) (Lvl := ℕ) (Val := Elt F) spec3 c [cc3_scratch0, cc3_scratch1, cc3_scratch2]
    ∗ ∃ s : Scr F, ⌜t.val ≠ 0 → s = scr V c t.val⌝
      ∗ owns (c : Thread nD τ) (Memref.whole cc3_scratch0) fullShare s.acc
      ∗ owns (c : Thread nD τ) (Memref.whole cc3_scratch1) fullShare s.dgw
      ∗ owns (c : Thread nD τ) (Memref.whole cc3_scratch2) fullShare s.dw) := by
  dsimp only [dat]

theorem after_14 (c : Dev nD) (t : Fin cfg3.N) : (dat V c).after 14 t = (scr V c (t.val + 1)).dgw := by dsimp only [dat]
theorem after_15 (c : Dev nD) (t : Fin cfg3.N) : (dat V c).after 15 t = (scr V c (t.val + 1)).dw := by dsimp only [dat]

theorem coord1 (t : Fin cfg3.N) : ((grid3.coords t) 1).val = t.val / 8 % 4 := rfl
theorem coord2 (t : Fin cfg3.N) : ((grid3.coords t) 2).val = t.val % 8 := by
  show t.val / 1 % 8 = _; rw [Nat.div_one]

theorem before_0 (c : Dev nD) (t : Fin cfg3.N) (d) : (dat V c).before 0 t d = (dat V c).after 0 t :=
  ((dat V c).before_in_eq_fetched _ rfl (fun _ => rfl) (fun _ _ _ => rfl) (fun _ => rfl) t d).trans rfl
theorem before_1 (c : Dev nD) (t : Fin cfg3.N) (d) : (dat V c).before 1 t d = (dat V c).after 1 t :=
  ((dat V c).before_in_eq_fetched _ rfl (fun _ => rfl) (fun _ _ _ => rfl) (fun _ => rfl) t d).trans rfl
theorem before_2 (c : Dev nD) (t : Fin cfg3.N) (d) : (dat V c).before 2 t d = (dat V c).after 2 t :=
  ((dat V c).before_in_eq_fetched _ rfl (fun _ => rfl) (fun _ _ _ => rfl) (fun _ => rfl) t d).trans rfl
theorem before_3 (c : Dev nD) (t : Fin cfg3.N) (d) : (dat V c).before 3 t d = (dat V c).after 3 t :=
  ((dat V c).before_in_eq_fetched _ rfl (fun _ => rfl) (fun _ _ _ => rfl) (fun _ => rfl) t d).trans rfl
theorem before_4 (c : Dev nD) (t : Fin cfg3.N) (d) : (dat V c).before 4 t d = (dat V c).after 4 t :=
  ((dat V c).before_in_eq_fetched _ rfl (fun _ => rfl) (fun _ _ _ => rfl) (fun _ => rfl) t d).trans rfl
theorem before_5 (c : Dev nD) (t : Fin cfg3.N) (d) : (dat V c).before 5 t d = (dat V c).after 5 t :=
  ((dat V c).before_in_eq_fetched _ rfl (fun _ => rfl) (fun _ _ _ => rfl) (fun _ => rfl) t d).trans rfl
theorem before_6 (c : Dev nD) (t : Fin cfg3.N) (d) : (dat V c).before 6 t d = (dat V c).after 6 t :=
  ((dat V c).before_in_eq_fetched _ rfl (fun _ => rfl) (fun _ _ _ => rfl) (fun _ => rfl) t d).trans rfl
theorem before_7 (c : Dev nD) (t : Fin cfg3.N) (d) : (dat V c).before 7 t d = (dat V c).after 7 t :=
  ((dat V c).before_in_eq_fetched _ rfl (fun _ => rfl) (fun _ _ _ => rfl) (fun _ => rfl) t d).trans rfl
theorem before_8 (c : Dev nD) (t : Fin cfg3.N) (d) : (dat V c).before 8 t d = (dat V c).after 8 t :=
  ((dat V c).before_in_eq_fetched _ rfl (fun _ => rfl) (fun _ _ _ => rfl) (fun _ => rfl) t d).trans rfl
theorem before_9 (c : Dev nD) (t : Fin cfg3.N) (d) : (dat V c).before 9 t d = (dat V c).after 9 t :=
  ((dat V c).before_in_eq_fetched _ rfl (fun _ => rfl) (fun _ _ _ => rfl) (fun _ => rfl) t d).trans rfl
theorem before_10 (c : Dev nD) (t : Fin cfg3.N) (d) : (dat V c).before 10 t d = (dat V c).after 10 t :=
  ((dat V c).before_in_eq_fetched _ rfl (fun _ => rfl) (fun _ _ _ => rfl) (fun _ => rfl) t d).trans rfl
theorem before_11 (c : Dev nD) (t : Fin cfg3.N) (d) : (dat V c).before 11 t d = (dat V c).after 11 t :=
  ((dat V c).before_in_eq_fetched _ rfl (fun _ => rfl) (fun _ _ _ => rfl) (fun _ => rfl) t d).trans rfl
theorem before_12 (c : Dev nD) (t : Fin cfg3.N) (d) : (dat V c).before 12 t d = (dat V c).after 12 t :=
  ((dat V c).before_in_eq_fetched _ rfl (fun _ => rfl) (fun _ _ _ => rfl) (fun _ => rfl) t d).trans rfl
theorem before_13 (c : Dev nD) (t : Fin cfg3.N) (d) : (dat V c).before 13 t d = (dat V c).after 13 t :=
  ((dat V c).before_in_eq_fetched _ rfl (fun _ => rfl) (fun _ _ _ => rfl) (fun _ => rfl) t d).trans rfl

theorem leaves_in (c : Dev nD) (t : Fin cfg3.N) : ∀ w : Fin cfg3.W, w.val < 14 →
    (dat V c).leavesExact w t = owns c ((cfg3.win w).stage (cfg3.slots t w)) fullShare ((dat V c).after w t) := by
  intro w; fin_cases w <;> first | exact fun h => absurd h (by decide) | exact fun _ => rfl

theorem hin (c : Dev nD) : (Pipeline.scopedRest (Ix := Unit) (Name := ℕ) (U := UR sig nD τ) (Lvl := ℕ) (Val := Elt F) spec3 c : sProp 𝕄) ⊢ (dat V c).Φ 0 := by
  rw [scopedRest3_split, Φ_eq]
  simp only [owns_whole]
  iintro ⟨⟨⟨%f0, H0⟩, ⟨%f1, H1⟩, ⟨%f2, H2⟩⟩, Hr⟩
  isplitl [Hr]; · iexact Hr
  iexists (⟨f0, f1, f2⟩ : Scr F)
  isplitr; · ipureintro; intro h; exact absurd rfl h
  isplitl [H0]; · iexact H0
  isplitl [H1]; · iexact H1
  iexact H2
theorem hout (c : Dev nD) : (dat V c).Φ (Fin.last cfg3.N) ⊢ (Pipeline.scopedRest (Ix := Unit) (Name := ℕ) (U := UR sig nD τ) (Lvl := ℕ) (Val := Elt F) spec3 c : sProp 𝕄) := by
  rw [scopedRest3_split, Φ_eq]
  simp only [owns_whole]
  iintro ⟨Hr, ⟨%s, -, H0, H1, H2⟩⟩
  isplitr [Hr]; swap; · iexact Hr
  isplitl [H0]; · iexists _; iexact H0
  isplitl [H1]; · iexists _; iexact H1
  iexists _; iexact H2

theorem idle_of (i : grid3.Coords) (h : ¬((i 1).val = 3 ∧ (i 2).val = 7)) : cfg3.idle 14 i = true ∧ cfg3.idle 15 i = true := by
  have e : (!(k3_cond5 i == 1#1)) = true := by
    rw [Bool.not_eq_true', beq_eq_false_iff_ne]; exact fun e => h ((cond5_iff i).mp e)
  exact ⟨e, e⟩

theorem live_of (i : grid3.Coords) (h : (i 1).val = 3 ∧ (i 2).val = 7) : cfg3.idle 14 i = false ∧ cfg3.idle 15 i = false := by
  have e : (!(k3_cond5 i == 1#1)) = false := by
    rw [Bool.not_eq_false', beq_iff_eq]; exact (cond5_iff i).mpr h
  exact ⟨e, e⟩

theorem step_eq (c : Dev nD) (t : Fin cfg3.N) (s : Scr F) :
    step V c t s = stepOn (t.val / 8 % 4) (t.val % 8) ((dat V c).after 0 t) ((dat V c).after 1 t) ((dat V c).after 2 t) ((dat V c).after 3 t) ((dat V c).after 4 t) ((dat V c).after 5 t) ((dat V c).after 6 t) ((dat V c).after 7 t) ((dat V c).after 8 t) ((dat V c).after 9 t) ((dat V c).after 10 t) ((dat V c).after 11 t) ((dat V c).after 12 t) ((dat V c).after 13 t) s := rfl
theorem step_scr (c : Dev nD) (t : Fin cfg3.N) (s : Scr F) (hs : t.val ≠ 0 → s = scr V c t.val) :
    stepOn (t.val / 8 % 4) (t.val % 8) ((dat V c).after 0 t) ((dat V c).after 1 t) ((dat V c).after 2 t) ((dat V c).after 3 t) ((dat V c).after 4 t) ((dat V c).after 5 t) ((dat V c).after 6 t) ((dat V c).after 7 t) ((dat V c).after 8 t) ((dat V c).after 9 t) ((dat V c).after 10 t) ((dat V c).after 11 t) ((dat V c).after 12 t) ((dat V c).after 13 t) s = scr V c (t.val + 1) := by
  rw [scr_succ, step_eq]
  by_cases h0 : t.val = 0
  · rw [h0]; exact stepOn_reset _ _ _ _ _ _ _ _ _ _ _ _ _ _ _ _
  · rw [hs h0]

set_option maxHeartbeats 2000000 in
theorem sound_body (c : Dev nD) (t : Fin cfg3.N) :
    iprop((dat V c).Φ t.castSucc ∗ (dat V c).owesAt () t.castSucc
    ∗ (∃ d, owns c (st3_0 t) fullShare ((dat V c).before 0 t d))
    ∗ (∃ d, owns c (st3_1 t) fullShare ((dat V c).before 1 t d))
    ∗ (∃ d, owns c (st3_2 t) fullShare ((dat V c).before 2 t d))
    ∗ (∃ d, owns c (st3_3 t) fullShare ((dat V c).before 3 t d))
    ∗ (∃ d, owns c (st3_4 t) fullShare ((dat V c).before 4 t d))
    ∗ (∃ d, owns c (st3_5 t) fullShare ((dat V c).before 5 t d))
    ∗ (∃ d, owns c (st3_6 t) fullShare ((dat V c).before 6 t d))
    ∗ (∃ d, owns c (st3_7 t) fullShare ((dat V c).before 7 t d))
    ∗ (∃ d, owns c (st3_8 t) fullShare ((dat V c).before 8 t d))
    ∗ (∃ d, owns c (st3_9 t) fullShare ((dat V c).before 9 t d))
    ∗ (∃ d, owns c (st3_10 t) fullShare ((dat V c).before 10 t d))
    ∗ (∃ d, owns c (st3_11 t) fullShare ((dat V c).before 11 t d))
    ∗ (∃ d, owns c (st3_12 t) fullShare ((dat V c).before 12 t d))
    ∗ (∃ d, owns c (st3_13 t) fullShare ((dat V c).before 13 t d))
    ∗ (∃ d, owns c (st3_14 t) fullShare ((dat V c).before 14 t d))
    ∗ (∃ d, owns c (st3_15 t) fullShare ((dat V c).before 15 t d)))
      ⊢ wp frame (wpE (defs₀ (F := F)) Variants.none c none) Set.univ (bodyAt3 t) (fun _ =>
    iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t
    ∗ (dat V c).leavesExact 6 t ∗ (dat V c).leavesExact 7 t ∗ (dat V c).leavesExact 8 t ∗ (dat V c).leavesExact 9 t ∗ (dat V c).leavesExact 10 t ∗ (dat V c).leavesExact 11 t
    ∗ (dat V c).leavesExact 12 t ∗ (dat V c).leavesExact 13 t ∗ (dat V c).leavesExact 14 t ∗ (dat V c).leavesExact 15 t)) := by
  unfold bodyAt3
  simp only [before_0, before_1, before_2, before_3, before_4, before_5, before_6, before_7, before_8, before_9, before_10, before_11, before_12, before_13]
  simp (disch := decide) only [leaves_in]
  rw [show (dat V c).owesAt () t.succ = (dat V c).owesAt () t.castSucc from rfl, Φ_eq, Φ_eq]
  have hN : t.val < 128 := lt_of_lt_of_eq t.isLt (show cfg3.N = 128 from N_3)
  have hc1 := coord1 t
  have hc2 := coord2 t
  iintro ⟨⟨HR, %s, %hs, HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [Fin.coe_castSucc] at hs
  iapply (sound_kernel c Set.univ (grid3.coords t) ((dat V c).after 0 t) ((dat V c).after 1 t) ((dat V c).after 2 t) ((dat V c).after 3 t) ((dat V c).after 4 t) ((dat V c).after 5 t) ((dat V c).after 6 t) ((dat V c).after 7 t) ((dat V c).after 8 t) ((dat V c).after 9 t) ((dat V c).after 10 t) ((dat V c).after 11 t) ((dat V c).after 12 t) ((dat V c).after 13 t)
    ((dat V c).before 14 t d14) ((dat V c).before 15 t d15) s _)
  iframe H0 H1 H2 H3 H4 H5 H6 H7 H8 H9 H10 H11 H12 H13 H14 H15 HS0 HS1 HS2
  rw [hc1, hc2, step_scr V c t s hs]
  iintro ⟨H0, H1, H2, H3, H4, H5, H6, H7, H8, H9, H10, H11, H12, H13, H14, H15, HS0, HS1, HS2⟩
  isplitl [HR HS0 HS1 HS2]
  · isplitl [HR]; · iexact HR
    iexists (scr V c (t.val + 1))
    isplitr; · ipureintro; intro _; rw [Fin.val_succ]
    iframe
  iframe Ho H0 H1 H2 H3 H4 H5 H6 H7 H8 H9 H10 H11 H12 H13
  by_cases h31 : t.val % 32 = 31
  · have h37 : t.val / 8 % 4 = 3 ∧ t.val % 8 = 7 := by omega
    have hl := live_of (grid3.coords t) (by rw [hc1, hc2]; exact h37)
    rw [if_pos h37, if_pos h37, show (dat V c).leavesExact 14 t = owns c (st3_14 t) fullShare ((dat V c).after 14 t) from by
        unfold Dat.leavesExact; rw [hl.1], show (dat V c).leavesExact 15 t = owns c (st3_15 t) fullShare ((dat V c).after 15 t) from by
        unfold Dat.leavesExact; rw [hl.2], after_14, after_15]
    iframe
  · have h37 : ¬(t.val / 8 % 4 = 3 ∧ t.val % 8 = 7) := by omega
    have hi := idle_of (grid3.coords t) (by rw [hc1, hc2]; exact h37)
    rw [if_neg h37, if_neg h37,
      Dat.leavesExact_idle (dat V c) 14 t hi.1 (Bool.eq_false_iff.mpr fun hf => h31 ((flush3_14 t).mp hf)),
      Dat.leavesExact_idle (dat V c) 15 t hi.2 (Bool.eq_false_iff.mpr fun hf => h31 ((flush3_15 t).mp hf))]
    isplitl [H14]; · iexists d14; iexact H14
    iexists d15; iexact H15

theorem body_obligation (c : Dev nD) : BodyObligation (dat (F := F) V c) (defs₀ (F := F)) Variants.none () Set.univ := fun t => by
  rw [bigSep_W3, bigSep_W3]
  exact sound_body V c t

end Cert.Kernel.Reg3

end
-- ==== Proof.BitsShared0.lean ====
import proofs.«403712_j45286135169680_3_alg».proof.Proof.Gen.Kernel.Launch
import Idealize.ShloMosaic.Lib.Pipeline.RegionsLoop
import Idealize.ShloMosaic.Lib.Pipeline.FrameSuffix

set_option maxRecDepth 16384

noncomputable section

namespace Cert.Kernel.Shared0

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (c : Dev nD) (dat : Dat τ (Elt F) Unit ℕ (UR sig nD τ) ℕ cfg0 c)
  (hq0 : dat.q 0 = fullShare.left) (hq1 : dat.q 1 = fullShare.right)
  (hq : ∀ w : Fin cfg0.W, w ≠ 0 → w ≠ 1 → dat.q w = fullShare)
  (V : (b : Ref sig .tc) → Buf (Elt F) ((c : Thread nD τ).loc b))

def arrL : List (Ref sig .tc) := [main_v0, main_v5, main_v6, main_v7, main_arg5, main_v8_0, main_v8_1, main_v8_2, main_v8_3]

theorem image_eq : Finset.univ.image (Pipeline.arrRef spec0) = arrL.toFinset := by decide

theorem arrL_nodup : arrL.Nodup := by decide

theorem split₀ : (unscopedBufs c V : sProp 𝕄) = iprop((Pipeline.arrBufs spec0 c V : sProp 𝕄) ∗ Pipeline.unscopedRest spec0 c V) :=
  Pipeline.PerCore.unscopedBufs_split₀ (P := Unit) (fun _ _ => cfg0) () c winFacts₀0.arr_unscoped V

include hq0 hq1 hq in
theorem arrays_eq (G : (w : Fin cfg0.W) → Buf (Elt F) ((cfg0.win w).arr.view.loc (c : Thread nD τ)))
    (hG : ∀ w, G w = V (Pipeline.arrRef spec0 w)) : (dat.arrays G : sProp 𝕄) = Pipeline.arrBufs spec0 c V := by
  have hw : ∀ (w : Fin cfg0.W) (b : Ref sig .tc) (q : PosShare TreeShare), Pipeline.arrRef spec0 w = b → dat.share w = q →
      ((cfg0.win w).arr.view.loc (c : Thread nD τ) ↦[(cfg0.win w).arr.view.set]{dat.share w} G w : sProp 𝕄)
        = ((c : Thread nD τ).loc b ↦{q} V b) :=
    fun w b q hb hs => by subst hb; rw [(arr_whole0 w).set_eq_univ, hG w, hs]
  have hr : ∀ w : Fin cfg0.W, w ≠ 0 → w ≠ 1 → dat.share w = fullShare :=
    fun w h0 h1 => by unfold Dat.share; rw [hq w h0 h1]; exact ite_self _
  have eq : ∀ {P Q : sProp 𝕄}, (P ⊣⊢ Q) → P = Q := fun h => equiv_iff.mp ⟨h.1, h.2⟩
  unfold Dat.arrays Pipeline.arrBufs
  rw [bigSep_W0, bigSep_eq_bigSepL_of_eq arrL image_eq arrL_nodup]
  exact (congrArg₂ BIBase.sep (hw 0 main_v0 fullShare.left rfl (by unfold Dat.share; rw [hq0]; rfl))
    (congrArg₂ BIBase.sep (hw 1 main_v0 fullShare.right rfl (by unfold Dat.share; rw [hq1]; rfl))
    (congrArg₂ BIBase.sep (hw 2 main_v5 _ rfl (hr 2 (by decide) (by decide)))
    (congrArg₂ BIBase.sep (hw 3 main_v6 _ rfl (hr 3 (by decide) (by decide)))
    (congrArg₂ BIBase.sep (hw 4 main_v7 _ rfl (hr 4 (by decide) (by decide)))
    (congrArg₂ BIBase.sep (hw 5 main_arg5 _ rfl (hr 5 (by decide) (by decide)))
    (congrArg₂ BIBase.sep (hw 6 main_v8_0 _ rfl (hr 6 (by decide) (by decide)))
    (congrArg₂ BIBase.sep (hw 7 main_v8_1 _ rfl (hr 7 (by decide) (by decide)))
    (congrArg₂ BIBase.sep (hw 8 main_v8_2 _ rfl (hr 8 (by decide) (by decide)))
      (hw 9 main_v8_3 _ rfl (hr 9 (by decide) (by decide)))))))))))).trans
    ((eq Laws.sep_assoc).symm.trans
      (congrArg (BIBase.sep · _) (eq (pointsTo_share (PosShare.mem_left_op_right fullShare))).symm))

include hq0 hq1 hq in
theorem entry (hA : ∀ w, dat.A w = V (Pipeline.arrRef spec0 w)) :
    (unscopedBufs c V : sProp 𝕄) ⊢ iprop(dat.arrays (dat.arrAt · 0) ∗ Pipeline.unscopedRest spec0 c V) := by
  rw [split₀ c V, arrays_eq c dat hq0 hq1 hq V (dat.arrAt · 0) hA]

include hq0 hq1 hq in
theorem exit (V' : (b : Ref sig .tc) → Buf (Elt F) ((c : Thread nD τ).loc b))
    (hF : ∀ w, dat.arrAt w cfg0.N = V' (Pipeline.arrRef spec0 w))
    (hrest : ∀ b, b ∉ Finset.univ.image (Pipeline.arrRef spec0) → V' b = V b) :
    iprop(dat.arrays (dat.arrAt · cfg0.N) ∗ Pipeline.unscopedRest spec0 c V) ⊢ (unscopedBufs c V' : sProp 𝕄) := by
  rw [split₀ c V', arrays_eq c dat hq0 hq1 hq V' (dat.arrAt · cfg0.N) hF]
  refine sep_mono .rfl (Entails.of_eq ?_)
  unfold Pipeline.unscopedRest
  exact bigSep_congr fun b hb => by rw [hrest b (Finset.mem_sdiff.mp hb).2]

end Cert.Kernel.Shared0
-- ==== Proof.BitsShared1.lean ====
import proofs.«403712_j45286135169680_3_alg».proof.Proof.Gen.Kernel.Launch
import Idealize.ShloMosaic.Lib.Pipeline.RegionsLoop
import Idealize.ShloMosaic.Lib.Pipeline.FrameSuffix

set_option maxRecDepth 16384

noncomputable section

namespace Cert.Kernel.Shared1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (c : Dev nD) (dat : Dat τ (Elt F) Unit ℕ (UR sig nD τ) ℕ cfg1 c)
  (hq0 : dat.q 0 = fullShare.left) (hq1 : dat.q 1 = fullShare.right)
  (hq : ∀ w : Fin cfg1.W, w ≠ 0 → w ≠ 1 → dat.q w = fullShare)
  (V : (b : Ref sig .tc) → Buf (Elt F) ((c : Thread nD τ).loc b))

def arrL : List (Ref sig .tc) := [main_v1, main_v12, main_v13, main_v14, main_arg6, main_v15_0, main_v15_1, main_v15_2, main_v15_3]

theorem image_eq : Finset.univ.image (Pipeline.arrRef spec1) = arrL.toFinset := by decide

theorem arrL_nodup : arrL.Nodup := by decide

theorem split₀ : (unscopedBufs c V : sProp 𝕄) = iprop((Pipeline.arrBufs spec1 c V : sProp 𝕄) ∗ Pipeline.unscopedRest spec1 c V) :=
  Pipeline.PerCore.unscopedBufs_split₀ (P := Unit) (fun _ _ => cfg1) () c winFacts₀1.arr_unscoped V

include hq0 hq1 hq in
theorem arrays_eq (G : (w : Fin cfg1.W) → Buf (Elt F) ((cfg1.win w).arr.view.loc (c : Thread nD τ)))
    (hG : ∀ w, G w = V (Pipeline.arrRef spec1 w)) : (dat.arrays G : sProp 𝕄) = Pipeline.arrBufs spec1 c V := by
  have hw : ∀ (w : Fin cfg1.W) (b : Ref sig .tc) (q : PosShare TreeShare), Pipeline.arrRef spec1 w = b → dat.share w = q →
      ((cfg1.win w).arr.view.loc (c : Thread nD τ) ↦[(cfg1.win w).arr.view.set]{dat.share w} G w : sProp 𝕄)
        = ((c : Thread nD τ).loc b ↦{q} V b) :=
    fun w b q hb hs => by subst hb; rw [(arr_whole1 w).set_eq_univ, hG w, hs]
  have hr : ∀ w : Fin cfg1.W, w ≠ 0 → w ≠ 1 → dat.share w = fullShare :=
    fun w h0 h1 => by unfold Dat.share; rw [hq w h0 h1]; exact ite_self _
  have eq : ∀ {P Q : sProp 𝕄}, (P ⊣⊢ Q) → P = Q := fun h => equiv_iff.mp ⟨h.1, h.2⟩
  unfold Dat.arrays Pipeline.arrBufs
  rw [bigSep_W1, bigSep_eq_bigSepL_of_eq arrL image_eq arrL_nodup]
  exact (congrArg₂ BIBase.sep (hw 0 main_v1 fullShare.left rfl (by unfold Dat.share; rw [hq0]; rfl))
    (congrArg₂ BIBase.sep (hw 1 main_v1 fullShare.right rfl (by unfold Dat.share; rw [hq1]; rfl))
    (congrArg₂ BIBase.sep (hw 2 main_v12 _ rfl (hr 2 (by decide) (by decide)))
    (congrArg₂ BIBase.sep (hw 3 main_v13 _ rfl (hr 3 (by decide) (by decide)))
    (congrArg₂ BIBase.sep (hw 4 main_v14 _ rfl (hr 4 (by decide) (by decide)))
    (congrArg₂ BIBase.sep (hw 5 main_arg6 _ rfl (hr 5 (by decide) (by decide)))
    (congrArg₂ BIBase.sep (hw 6 main_v15_0 _ rfl (hr 6 (by decide) (by decide)))
    (congrArg₂ BIBase.sep (hw 7 main_v15_1 _ rfl (hr 7 (by decide) (by decide)))
    (congrArg₂ BIBase.sep (hw 8 main_v15_2 _ rfl (hr 8 (by decide) (by decide)))
      (hw 9 main_v15_3 _ rfl (hr 9 (by decide) (by decide)))))))))))).trans
    ((eq Laws.sep_assoc).symm.trans
      (congrArg (BIBase.sep · _) (eq (pointsTo_share (PosShare.mem_left_op_right fullShare))).symm))

include hq0 hq1 hq in
theorem entry (hA : ∀ w, dat.A w = V (Pipeline.arrRef spec1 w)) :
    (unscopedBufs c V : sProp 𝕄) ⊢ iprop(dat.arrays (dat.arrAt · 0) ∗ Pipeline.unscopedRest spec1 c V) := by
  rw [split₀ c V, arrays_eq c dat hq0 hq1 hq V (dat.arrAt · 0) hA]

include hq0 hq1 hq in
theorem exit (V' : (b : Ref sig .tc) → Buf (Elt F) ((c : Thread nD τ).loc b))
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  rw [split₀ c V', arrays_eq c dat hq0 hq1 hq V' (dat.arrAt · cfg1.N) hF]
  refine sep_mono .rfl (Entails.of_eq ?_)
  unfold Pipeline.unscopedRest
  exact bigSep_congr fun b hb => by rw [hrest b (Finset.mem_sdiff.mp hb).2]

end Cert.Kernel.Shared1
-- ==== Proof.BitsRun.lean ====
import proofs.«403712_j45286135169680_3_alg».proof.Proof.Gen.Kernel.Regions
import proofs.«403712_j45286135169680_3_alg».proof.Proof.BitsRegion0
import proofs.«403712_j45286135169680_3_alg».proof.Proof.BitsRegion1
import proofs.«403712_j45286135169680_3_alg».proof.Proof.BitsRegion2
import proofs.«403712_j45286135169680_3_alg».proof.Proof.BitsRegion3
import proofs.«403712_j45286135169680_3_alg».proof.Proof.BitsShared0
import proofs.«403712_j45286135169680_3_alg».proof.Proof.BitsShared1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev atRef (W : Dev nD → Valuation τ sig (Elt F)) (c : Dev nD) (b : Ref sig .tc) : Buf (Elt F) ((c : Thread nD τ).loc b) := W c b
abbrev En3 := atRef (W3 m)
def out0 (c : Dev nD) (w : Fin cfg0.W) : Buf (Elt F) ((c : Thread nD τ).loc (Pipeline.arrRef spec0 w)) :=
  (Reg0.dat (En3 m) c).arrAt w cfg0.N
def W4 (c : Dev nD) : Valuation τ sig (Elt F) :=
  Function.update (Function.update (Function.update (Function.update (W3 m c) (Proc.devRef .tc (Pipeline.arrRef spec0 6)) (out0 m c 6)) (Proc.devRef .tc (Pipeline.arrRef spec0 7)) (out0 m c 7)) (Proc.devRef .tc (Pipeline.arrRef spec0 8)) (out0 m c 8)) (Proc.devRef .tc (Pipeline.arrRef spec0 9)) (out0 m c 9)
theorem W4_of_ne (c : Dev nD) (b : Ref sig .tc) (hb : b ∉ ([Pipeline.arrRef spec0 6, Pipeline.arrRef spec0 7, Pipeline.arrRef spec0 8, Pipeline.arrRef spec0 9] : List (Ref sig .tc))) :
    W4 m c (Proc.devRef .tc b) = W3 m c (Proc.devRef .tc b) := by
  unfold W4
  repeat rw [Function.update_of_ne (StableHlo.devRef_ne_of_ne (fun h => hb (by rw [h]; simp)))]
theorem W4_out6 (c : Dev nD) : W4 m c (Proc.devRef .tc (Pipeline.arrRef spec0 6)) = out0 m c 6 := by
  unfold W4
  repeat rw [Function.update_of_ne (StableHlo.devRef_ne_of_ne (by decide))]
  rw [Function.update_self]
theorem W4_out7 (c : Dev nD) : W4 m c (Proc.devRef .tc (Pipeline.arrRef spec0 7)) = out0 m c 7 := by
  unfold W4
  repeat rw [Function.update_of_ne (StableHlo.devRef_ne_of_ne (by decide))]
  rw [Function.update_self]
theorem W4_out8 (c : Dev nD) : W4 m c (Proc.devRef .tc (Pipeline.arrRef spec0 8)) = out0 m c 8 := by
  unfold W4
  repeat rw [Function.update_of_ne (StableHlo.devRef_ne_of_ne (by decide))]
  rw [Function.update_self]
theorem W4_out9 (c : Dev nD) : W4 m c (Proc.devRef .tc (Pipeline.arrRef spec0 9)) = out0 m c 9 :=
  Function.update_self ..
theorem hF0 (c : Dev nD) (w : Fin cfg0.W) : (Reg0.dat (En3 m) c).arrAt w cfg0.N = W4 m c (Pipeline.arrRef spec0 w) := by
  by_cases h : (cfg0.win w).isOut = false
  · exact (((Reg0.dat (En3 m) c).arrAt_in w h cfg0.N).trans (Reg0.A_eq (En3 m) c w)).trans (W4_of_ne m c _ (by revert w; decide)).symm
  rcases (by revert w; decide : w = 6 ∨ w = 7 ∨ w = 8 ∨ w = 9) with rfl | rfl | rfl | rfl
  exacts [(W4_out6 m c).symm, (W4_out7 m c).symm, (W4_out8 m c).symm, (W4_out9 m c).symm]

abbrev W5 : Dev nD → Valuation τ sig (Elt F) := fun c => StableHlo.after hostOps1 (W4 m c)
abbrev En5 := atRef (W5 m)
def out1 (c : Dev nD) (w : Fin cfg1.W) : Buf (Elt F) ((c : Thread nD τ).loc (Pipeline.arrRef spec1 w)) :=
  (Reg1.dat (En5 m) c).arrAt w cfg1.N
def W6 (c : Dev nD) : Valuation τ sig (Elt F) :=
  Function.update (Function.update (Function.update (Function.update (W5 m c) (Proc.devRef .tc (Pipeline.arrRef spec1 6)) (out1 m c 6)) (Proc.devRef .tc (Pipeline.arrRef spec1 7)) (out1 m c 7)) (Proc.devRef .tc (Pipeline.arrRef spec1 8)) (out1 m c 8)) (Proc.devRef .tc (Pipeline.arrRef spec1 9)) (out1 m c 9)
theorem W6_of_ne (c : Dev nD) (b : Ref sig .tc) (hb : b ∉ ([Pipeline.arrRef spec1 6, Pipeline.arrRef spec1 7, Pipeline.arrRef spec1 8, Pipeline.arrRef spec1 9] : List (Ref sig .tc))) :
    W6 m c (Proc.devRef .tc b) = W5 m c (Proc.devRef .tc b) := by
  unfold W6
  repeat rw [Function.update_of_ne (StableHlo.devRef_ne_of_ne (fun h => hb (by rw [h]; simp)))]
theorem W6_out6 (c : Dev nD) : W6 m c (Proc.devRef .tc (Pipeline.arrRef spec1 6)) = out1 m c 6 := by
  unfold W6
  repeat rw [Function.update_of_ne (StableHlo.devRef_ne_of_ne (by decide))]
  rw [Function.update_self]
theorem W6_out7 (c : Dev nD) : W6 m c (Proc.devRef .tc (Pipeline.arrRef spec1 7)) = out1 m c 7 := by
  unfold W6
  repeat rw [Function.update_of_ne (StableHlo.devRef_ne_of_ne (by decide))]
  rw [Function.update_self]
theorem W6_out8 (c : Dev nD) : W6 m c (Proc.devRef .tc (Pipeline.arrRef spec1 8)) = out1 m c 8 := by
  unfold W6
  repeat rw [Function.update_of_ne (StableHlo.devRef_ne_of_ne (by decide))]
  rw [Function.update_self]
theorem W6_out9 (c : Dev nD) : W6 m c (Proc.devRef .tc (Pipeline.arrRef spec1 9)) = out1 m c 9 :=
  Function.update_self ..
theorem hF1 (c : Dev nD) (w : Fin cfg1.W) : (Reg1.dat (En5 m) c).arrAt w cfg1.N = W6 m c (Pipeline.arrRef spec1 w) := by
  by_cases h : (cfg1.win w).isOut = false
  · exact (((Reg1.dat (En5 m) c).arrAt_in w h cfg1.N).trans (Reg1.A_eq (En5 m) c w)).trans (W6_of_ne m c _ (by revert w; decide)).symm
  rcases (by revert w; decide : w = 6 ∨ w = 7 ∨ w = 8 ∨ w = 9) with rfl | rfl | rfl | rfl
  exacts [(W6_out6 m c).symm, (W6_out7 m c).symm, (W6_out8 m c).symm, (W6_out9 m c).symm]

abbrev W7 : Dev nD → Valuation τ sig (Elt F) := fun c => StableHlo.after hostOps2 (W6 m c)
abbrev En7 := atRef (W7 m)
def out2 (c : Dev nD) (w : Fin cfg2.W) : Buf (Elt F) ((c : Thread nD τ).loc (Pipeline.arrRef spec2 w)) :=
  (Reg2.dat (En7 m) c).arrAt w cfg2.N
def W8 (c : Dev nD) : Valuation τ sig (Elt F) :=
  Function.update (W7 m c) (Proc.devRef .tc (Pipeline.arrRef spec2 3)) (out2 m c 3)
theorem W8_of_ne (c : Dev nD) (b : Ref sig .tc) (hb : b ∉ ([Pipeline.arrRef spec2 3] : List (Ref sig .tc))) :
    W8 m c (Proc.devRef .tc b) = W7 m c (Proc.devRef .tc b) := by
  unfold W8
  repeat rw [Function.update_of_ne (StableHlo.devRef_ne_of_ne (fun h => hb (by rw [h]; simp)))]
theorem W8_out3 (c : Dev nD) : W8 m c (Proc.devRef .tc (Pipeline.arrRef spec2 3)) = out2 m c 3 :=
  Function.update_self ..
theorem hF2 (c : Dev nD) (w : Fin cfg2.W) : (Reg2.dat (En7 m) c).arrAt w cfg2.N = W8 m c (Pipeline.arrRef spec2 w) := by
  by_cases h : (cfg2.win w).isOut = false
  · exact (((Reg2.dat (En7 m) c).arrAt_in w h cfg2.N).trans (Reg2.A_eq (En7 m) c w)).trans (W8_of_ne m c _ (by revert w; decide)).symm
  rcases (by revert w; decide : w = 3) with rfl
  exacts [(W8_out3 m c).symm]

abbrev W9 : Dev nD → Valuation τ sig (Elt F) := fun c => StableHlo.after hostOps3 (W8 m c)
abbrev En9 := atRef (W9 m)
def out3 (c : Dev nD) (w : Fin cfg3.W) : Buf (Elt F) ((c : Thread nD τ).loc (Pipeline.arrRef spec3 w)) :=
  (Reg3.dat (En9 m) c).arrAt w cfg3.N
def W10 (c : Dev nD) : Valuation τ sig (Elt F) :=
  Function.update (Function.update (W9 m c) (Proc.devRef .tc (Pipeline.arrRef spec3 14)) (out3 m c 14)) (Proc.devRef .tc (Pipeline.arrRef spec3 15)) (out3 m c 15)
theorem W10_of_ne (c : Dev nD) (b : Ref sig .tc) (hb : b ∉ ([Pipeline.arrRef spec3 14, Pipeline.arrRef spec3 15] : List (Ref sig .tc))) :
    W10 m c (Proc.devRef .tc b) = W9 m c (Proc.devRef .tc b) := by
  unfold W10
  repeat rw [Function.update_of_ne (StableHlo.devRef_ne_of_ne (fun h => hb (by rw [h]; simp)))]
theorem W10_out14 (c : Dev nD) : W10 m c (Proc.devRef .tc (Pipeline.arrRef spec3 14)) = out3 m c 14 := by
  unfold W10
  repeat rw [Function.update_of_ne (StableHlo.devRef_ne_of_ne (by decide))]
  rw [Function.update_self]
theorem W10_out15 (c : Dev nD) : W10 m c (Proc.devRef .tc (Pipeline.arrRef spec3 15)) = out3 m c 15 :=
  Function.update_self ..
theorem hF3 (c : Dev nD) (w : Fin cfg3.W) : (Reg3.dat (En9 m) c).arrAt w cfg3.N = W10 m c (Pipeline.arrRef spec3 w) := by
  by_cases h : (cfg3.win w).isOut = false
  · exact (((Reg3.dat (En9 m) c).arrAt_in w h cfg3.N).trans (Reg3.A_eq (En9 m) c w)).trans (W10_of_ne m c _ (by revert w; decide)).symm
  rcases (by revert w; decide : w = 14 ∨ w = 15) with rfl | rfl
  exacts [(W10_out14 m c).symm, (W10_out15 m c).symm]

abbrev W11 : Dev nD → Valuation τ sig (Elt F) := fun c => StableHlo.after hostOps4 (W10 m c)

/-- A reference outside the image of `f` is none of the `f w`. -/
theorem nmem_map {n : ℕ} {f : Fin n → Ref sig .tc} {b : Ref sig .tc} (hb : b ∉ Finset.univ.image f) (l : List (Fin n)) : b ∉ l.map f :=
  fun h => let ⟨w, _, e⟩ := List.mem_map.mp h; hb (e ▸ Finset.mem_image_of_mem f (Finset.mem_univ w))

def pdats : (p : Fin 4) → (c : Dev nD) → Dat τ (Elt F) Unit ℕ (UR sig nD τ) ℕ (Pipeline.pin (pcfgs (F := F)) adm p) c
  | ⟨0, _⟩ => Reg0.dat (En3 m)
  | ⟨1, _⟩ => Reg1.dat (En5 m)
  | ⟨2, _⟩ => Reg2.dat (En7 m)
  | ⟨3, _⟩ => Reg3.dat (En9 m)
abbrev 𝒱₀ : Variants := Variants.none
abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev cf (F : FTy → Type) [FloatOps F] (p : Fin 4) : Cfg sig Λ₀ := Pipeline.pin (pcfgs (F := F)) adm p

theorem owed0 (p : Fin 4) (c : Dev nD) (t) : (pdats m p c).owed t = 0 := by fin_cases p <;> rfl
theorem owesAt_in (p : Fin 4) (c : Dev nD) : R c ⊢ (pdats m p c).owesAt () 0 := by
  fin_cases p <;>
    (iintro ⟨%W, HO⟩; iexists W; isplitr; (· ipureintro; exact fun _ _ => Or.inl trivial); iexact HO)
theorem owesAt_out (p : Fin 4) (c : Dev nD) : (pdats m p c).owesAt () (Fin.last _) ⊢ R c := by
  fin_cases p <;> (iintro ⟨%W, -, HO⟩; iexists W; iexact HO)
theorem pref_emp (p : Fin 4) (c : Dev nD) : (Pipeline.prefHeld (pcfgs (F := F) p).pre c (fun _ => fullShare) (adm p).1 : sProp 𝕄) = BI.emp := by
  fin_cases p <;> (unfold Pipeline.prefHeld; rw [show (Finset.univ : Finset (Fin 0)) = ∅ from rfl, BI.bigSep_empty])

set_option backward.isDefEq.respectTransparency.types false

def regionSeg (p : Fin 4) (W W' : Dev nD → Valuation τ sig (Elt F)) (win : Pipeline.WinFacts₀ (pcfgs (F := F) p).spec)
    (block_pos : ∀ w : Fin (cf F p).W, 0 < ((cf F p).spec w).block.numel)
    (stage_whole : ∀ (w : Fin (cf F p).W) (s : Fin ((cf F p).spec w).nbuf), (((cf F p).spec w).stage s).IsWhole)
    (hbody : ∀ c, BodyObligation (pdats m p c) defs₀ 𝒱₀ () Set.univ)
    (hsplit : ∀ c, (unscopedBufs c (atRef W c) : sProp 𝕄)
      ⊢ iprop((pdats m p c).arrays ((pdats m p c).arrAt · 0) ∗ Pipeline.unscopedRest (cf F p).spec c (atRef W c)))
    (hjoin : ∀ c, iprop((pdats m p c).arrays ((pdats m p c).arrAt · (cf F p).N) ∗ Pipeline.unscopedRest (cf F p).spec c (atRef W c))
      ⊢ (unscopedBufs c (atRef W' c) : sProp 𝕄))
    (hI : ∀ c, (Pipeline.scopedRest (cf F p).spec c : sProp 𝕄) ⊢ (pdats m p c).Φ 0)
    (hO : ∀ c, (pdats m p c).Φ (Fin.last (cf F p).N) ⊢ (Pipeline.scopedRest (cf F p).spec c : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p (owed0 m p)
  pre c := iprop(StableHlo.held (c : Thread nD τ) (Pipeline.ucRefs τ sig) (W c) ∗ R c)
  post c := iprop(StableHlo.held (c : Thread nD τ) (Pipeline.ucRefs τ sig) (W' c) ∗ R c)
  X _ := BI.emp
  Y _ := BI.emp
  Z c := Pipeline.unscopedRest (cf F p).spec c (atRef W c)
  hentry c := by
    have hs := hsplit c
    rw [Pipeline.unscopedBufs_held] at hs
    rw [Pipeline.ownSems0_none, pref_emp]
    iintro ⟨⟨Hb, HO⟩, -, -⟩
    ihave H := hs $$ Hb
    icases H with ⟨Ha, Hz⟩
    ihave HO := owesAt_in m p c $$ HO
    imodintro
    iframe
    isplitr <;> iempintro
  hin c := by
    iintro ⟨-, -, H⟩
    iapply (hI c)
    iexact H
  hout c := by
    rw [Pipeline.ownSems0_none]
    exact (hO c).trans (emp_sep_intro.trans (sep_mono_r emp_sep_intro))
  hexit c := by
    have hj := hjoin c
    rw [Pipeline.unscopedBufs_held] at hj
    iintro ⟨Ha, HO, -, Hz⟩
    ihave HO := owesAt_out m p c $$ HO
    ihave Hb := hj $$ [Ha Hz]
    · iframe
    imodintro
    iframe

def reg0 := regionSeg m 0 (W3 m) (W4 m) winFacts₀0 block_pos0 stage_whole0 (Reg0.body_obligation (En3 m))
  (fun c => Shared0.entry c (Reg0.dat (En3 m) c) (Reg0.q_0 _ c) (Reg0.q_1 _ c) (Reg0.q_rest _ c) _ (Reg0.A_eq _ c))
  (fun c => Shared0.exit c (Reg0.dat (En3 m) c) (Reg0.q_0 _ c) (Reg0.q_1 _ c) (Reg0.q_rest _ c) _ _ (hF0 m c)
    fun b hb => W4_of_ne m c b (nmem_map hb [6, 7, 8, 9]))
  (Reg0.hin _) (Reg0.hout _)
def reg1 := regionSeg m 1 (W5 m) (W6 m) winFacts₀1 block_pos1 stage_whole1 (Reg1.body_obligation (En5 m))
  (fun c => Shared1.entry c (Reg1.dat (En5 m) c) (Reg1.q_0 _ c) (Reg1.q_1 _ c) (Reg1.q_rest _ c) _ (Reg1.A_eq _ c))
  (fun c => Shared1.exit c (Reg1.dat (En5 m) c) (Reg1.q_0 _ c) (Reg1.q_1 _ c) (Reg1.q_rest _ c) _ _ (hF1 m c)
    fun b hb => W6_of_ne m c b (nmem_map hb [6, 7, 8, 9]))
  (Reg1.hin _) (Reg1.hout _)
def reg2 := regionSeg m 2 (W7 m) (W8 m) launch2.win.to₀ launch2.block_pos launch2.stage_whole (Reg2.body_obligation (En7 m))
  (fun c => Pipeline.arrays_of_unscopedBufs (p := 2) (pcfgs (F := F)) adm (pdats m) launch2.win launch2.arr_whole c
    ((pdats m 2 c).share_full fun _ => rfl) _ fun _ => rfl)
  (fun c => Pipeline.unscopedBufs_of_arrays (p := 2) (pcfgs (F := F)) adm launch2.win launch2.arr_whole c (pdats m)
    ((pdats m 2 c).share_full fun _ => rfl) _ _ _ (hF2 m c) fun b hb => W8_of_ne m c b (nmem_map hb [3]))
  (Reg2.hin _) (Reg2.hout _)
def reg3 := regionSeg m 3 (W9 m) (W10 m) launch3.win.to₀ launch3.block_pos launch3.stage_whole (Reg3.body_obligation (En9 m))
  (fun c => Pipeline.arrays_of_unscopedBufs (p := 3) (pcfgs (F := F)) adm (pdats m) launch3.win launch3.arr_whole c
    ((pdats m 3 c).share_full fun _ => rfl) _ fun _ => rfl)
  (fun c => Pipeline.unscopedBufs_of_arrays (p := 3) (pcfgs (F := F)) adm launch3.win launch3.arr_whole c (pdats m)
    ((pdats m 3 c).share_full fun _ => rfl) _ _ _ (hF3 m c) fun b hb => W10_of_ne m c b (nmem_map hb [14, 15]))
  (Reg3.hin _) (Reg3.hout _)

abbrev u₀ := initOf (Pipeline.cells cfgs cellOf_inj) (Pipeline.launchToks cfgs cellOf_inj)
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

/-- Every fair run terminates, and ends with each of these buffers at `W11`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain]
      dsimp only [segs, List.map, Pipeline.Seg.prog, hseg, Pipeline.HostSeg.ofOps]
      exact .rfl)
    (fun c => by simp only [segs, Pipeline.Seg.pipes_host, Pipeline.Seg.pipes_region, Pipeline.Seg.pipes_nil]; decide)
    (O₀ := 0) (hL := fun _ _ => rfl) (G := fun _ => BI.emp)
    (u₀ := u₀)
    (hu₀ := by
      rw [BI.bigSep_emp_const]
      exact (show (ownU u₀ : sProp 𝕄) ⊢ iprop(BI.own (emb₁ u₀) ∗ BI.emp) from sep_emp_intro).trans fupd_intro)
    (T₀ := fun c => iprop(StableHlo.held (c : Thread nD τ) (Pipeline.ucRefs τ sig) (W0 m c) ∗ R c))
    (Tₙ := fun c => StableHlo.held (c : Thread nD τ) (Pipeline.ucRefs τ sig) (W11 m c))
    (hch := fun c => ⟨.rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -⟩, -⟩
      imodintro
      iframe Hh
      iexists ∅
      iexact HO)
    (QY := fun c s => ∀ b ∈ Pipeline.ucRefs τ sig, s.mem (((c : Thread nD τ)).1, b) = W11 m c b)
    (hfin := fun c s' => (pointsTo_read_all (Pipeline.ucRefs τ sig) (fun b => (((c : Thread nD τ)).1, b)) (W11 m c) s').trans fupd_intro)
    (hQ := fun s h c => h c)

end Cert.Kernel.Run

end
-- ==== Proof.BitsKeep.lean ====
import proofs.«403712_j45286135169680_3_alg».proof.Proof.BitsRun

set_option maxRecDepth 16384

noncomputable section

namespace Cert.Kernel.Run

open Cert.Kernel Cert.Kernel.Gen
open Idealize.ShloMosaic Idealize.ShloMosaic.TcCoe
open Idealize.SL.Sem

variable {F : FTy → Type} [FloatOps F]
variable (m : (ℓ : Loc nD τ sig) → Buf (Elt F) ℓ) (c : Dev nD) (r : Ref sig .tc)

theorem W1_of (h : r ∉ hostOps0_W) : W1 m c (Proc.devRef .tc r) = W0 m c (Proc.devRef .tc r) :=
  StableHlo.after_of_writes_sub hostOps0 _ hostOps0_writes h
theorem W2_of (h : r ∉ hostOps0_1_W) : W2 m c (Proc.devRef .tc r) = W1 m c (Proc.devRef .tc r) :=
  StableHlo.after_of_writes_sub hostOps0_1 _ hostOps0_1_writes h
theorem W3_of (h : r ∉ hostOps0_2_W) : W3 m c (Proc.devRef .tc r) = W2 m c (Proc.devRef .tc r) :=
  StableHlo.after_of_writes_sub hostOps0_2 _ hostOps0_2_writes h
theorem W5_of (h : r ∉ hostOps1_W) : W5 m c (Proc.devRef .tc r) = W4 m c (Proc.devRef .tc r) :=
  StableHlo.after_of_writes_sub hostOps1 _ hostOps1_writes h
theorem W7_of (h : r ∉ hostOps2_W) : W7 m c (Proc.devRef .tc r) = W6 m c (Proc.devRef .tc r) :=
  StableHlo.after_of_writes_sub hostOps2 _ hostOps2_writes h
theorem W9_of (h : r ∉ hostOps3_W) : W9 m c (Proc.devRef .tc r) = W8 m c (Proc.devRef .tc r) :=
  StableHlo.after_of_writes_sub hostOps3 _ hostOps3_writes h
theorem W11_of (h : r ∉ hostOps4_W) : W11 m c (Proc.devRef .tc r) = W10 m c (Proc.devRef .tc r) :=
  StableHlo.after_of_writes_sub hostOps4 _ hostOps4_writes h

-- A buffer no item writes ends the run as launched.
theorem W11_keep (h : r ∉ hostOps4_W ∧ r ∉ [Pipeline.arrRef spec3 14, Pipeline.arrRef spec3 15] ∧ r ∉ hostOps3_W
      ∧ r ∉ [Pipeline.arrRef spec2 3] ∧ r ∉ hostOps2_W
      ∧ r ∉ [Pipeline.arrRef spec1 6, Pipeline.arrRef spec1 7, Pipeline.arrRef spec1 8, Pipeline.arrRef spec1 9] ∧ r ∉ hostOps1_W
      ∧ r ∉ [Pipeline.arrRef spec0 6, Pipeline.arrRef spec0 7, Pipeline.arrRef spec0 8, Pipeline.arrRef spec0 9]
      ∧ r ∉ hostOps0_2_W ∧ r ∉ hostOps0_1_W ∧ r ∉ hostOps0_W) :
    W11 m c (Proc.devRef .tc r) = m ((c : Thread nD τ).loc r) := by
  obtain ⟨h11, h10, h9, h8, h7, h6, h5, h4, h3, h2, h1⟩ := h
  rw [W11_of m c r h11, W10_of_ne m c r h10, W9_of m c r h9, W8_of_ne m c r h8, W7_of m c r h7, W6_of_ne m c r h6,
    W5_of m c r h5, W4_of_ne m c r h4, W3_of m c r h3, W2_of m c r h2, W1_of m c r h1]

theorem W11_arg0 : W11 m c (Proc.devRef .tc main_arg0) = m ((c : Thread nD τ).loc main_arg0) := W11_keep m c _ (by decide)
theorem W11_arg1 : W11 m c (Proc.devRef .tc main_arg1) = m ((c : Thread nD τ).loc main_arg1) := W11_keep m c _ (by decide)
theorem W11_arg2 : W11 m c (Proc.devRef .tc main_arg2) = m ((c : Thread nD τ).loc main_arg2) := W11_keep m c _ (by decide)
theorem W11_arg3 : W11 m c (Proc.devRef .tc main_arg3) = m ((c : Thread nD τ).loc main_arg3) := W11_keep m c _ (by decide)
theorem W11_arg4 : W11 m c (Proc.devRef .tc main_arg4) = m ((c : Thread nD τ).loc main_arg4) := W11_keep m c _ (by decide)
theorem W11_arg5 : W11 m c (Proc.devRef .tc main_arg5) = m ((c : Thread nD τ).loc main_arg5) := W11_keep m c _ (by decide)
theorem W11_arg6 : W11 m c (Proc.devRef .tc main_arg6) = m ((c : Thread nD τ).loc main_arg6) := W11_keep m c _ (by decide)
theorem W11_arg7 : W11 m c (Proc.devRef .tc main_arg7) = m ((c : Thread nD τ).loc main_arg7) := W11_keep m c _ (by decide)
theorem W11_arg8 : W11 m c (Proc.devRef .tc main_arg8) = m ((c : Thread nD τ).loc main_arg8) := W11_keep m c _ (by decide)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (mem_uc main_arg0 (by decide))).trans (W11_arg0 m c),
     (h c _ (mem_uc main_arg1 (by decide))).trans (W11_arg1 m c),
     (h c _ (mem_uc main_arg2 (by decide))).trans (W11_arg2 m c),
     (h c _ (mem_uc main_arg3 (by decide))).trans (W11_arg3 m c),
     (h c _ (mem_uc main_arg4 (by decide))).trans (W11_arg4 m c),
     (h c _ (mem_uc main_arg5 (by decide))).trans (W11_arg5 m c),
     (h c _ (mem_uc main_arg6 (by decide))).trans (W11_arg6 m c),
     (h c _ (mem_uc main_arg7 (by decide))).trans (W11_arg7 m c),
     (h c _ (mem_uc main_arg8 (by decide))).trans (W11_arg8 m c)⟩) (run_all m ρ)

end Cert.Kernel.Run

end
-- ==== Proof.Body0.lean ====
import proofs.«403712_j45286135169680_3_alg».proof.Proof.Gen.KernelIdeal.Skeleton
import Idealize.ShloMosaic.Lib.Pipeline.Value
import Idealize.ShloMosaic.Lib.Pipeline.TableIdle

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h inb]

theorem load_whole {κ : Kind} {sp : Space} {sz : Fin 2 → ℕ} {e : EltTy} (v : View sig κ sp ⟨2, sz⟩ e) (inb) (x) :
    v.readAt (Elt F) (Rect.unit ![0, 0] sz inb).toLoadRect (v.rep x) = x :=
  ((View.readAt_eq_ld v _ _).trans (View.ld_unit_zero hz2 inb _)).trans (View.read_rep v x)

theorem cover_whole {κ : Kind} {sp : Space} {sz : Fin 2 → ℕ} {e : EltTy} (v : View sig κ sp ⟨2, sz⟩ e) (inb) (w) :
    v.readCov [(⟨Rect.unit ![0, 0] sz inb, w⟩ : View.Piece (Elt F) ⟨2, sz⟩ e)] (Rect.unit ![0, 0] sz inb).toLoadRect = w :=
  View.readCov_unit_zero v hz2 inb w

theorem stored (c : Thread nD τ) {sp : Space} {sz : Fin 2 → ℕ} {e : EltTy} (m : Memref sig c.2.kind sp ⟨2, sz⟩ e) (q) (f) (inb) (w) (L) :
    (m.view.loc c ↦[m.view.set]{q} m.view.writes (Elt F) f ((⟨Rect.unit ![0, 0] sz inb, w⟩ : View.Piece (Elt F) ⟨2, sz⟩ e) :: L))
      ⊢ (m.view.loc c ↦[m.view.set]{q} m.view.rep w : sProp 𝕄) := by
  rw [← owns_eq_rep]; unfold owns
  iintro H; iexists _; isplitr; swap; · iexact H
  ipureintro; exact read_writes_unit_zero m.view f hz2 inb w L

abbrev cond1 (i : grid0.Coords) : BitVec 1 :=
  Scalar.cmpi .ne (Scalar.extui (Scalar.cmpi .eq (BitVec.ofNat 32 (i 1).val) 0#32)) 0#32

abbrev Acc (F : FTy → Type) : Type := Vec F S1024x1 .f32 × Vec F S1024x1 .f32 × Vec F S1024x1 .f32

set_option maxHeartbeats 1000000 in
theorem run (c : Dev nD) (E : Set ℕ) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole)
    (x0 x1 : Vec F S1024x128 .f32) (x2 : Vec F S1024x1 .f32) (x3 x4 : Vec F S1x1024 .f32) (x5 v : Vec F S1024x1024 .f32) (s r : Acc F)
    (hv : v = k0_pay4 x0 x1 x2 x3) (hr : r = (k0_pay5 v s.1 x4, k0_pay7 v x5 s.2.1, k0_pay6 v s.2.2))
    (hs : cond1 i = 1#1 → s = (k0_pay1, k0_pay2, k0_pay3)) (h : ¬ (cond1 i = 1#1 ∧ k0_cond2 i = 1#1)) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (∃ a : Acc F, ⌜¬ cond1 i = 1#1 → a = s⌝ ∗ owns (c : Thread nD τ) arg12 fullShare a.1 ∗ owns (c : Thread nD τ) arg13 fullShare a.2.1 ∗ owns (c : Thread nD τ) arg14 fullShare a.2.2)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare v
            ∗ (∃ b : Acc F, ⌜k0_cond2 i = 1#1 → b = r⌝ ∗ owns (c : Thread nD τ) arg9 fullShare b.1 ∗ owns (c : Thread nD τ) arg10 fullShare b.2.1 ∗ owns (c : Thread nD τ) arg11 fullShare b.2.2)
            ∗ owns (c : Thread nD τ) arg12 fullShare r.1 ∗ owns (c : Thread nD τ) arg13 fullShare r.2.1 ∗ owns (c : Thread nD τ) arg14 fullShare r.2.2) -∗ K ⟨⟩))
      ⊢ wp frame (wpE (defs₀ (F := F)) Variants.none c none) E (cc0__self_cost_kernel i arg2 harg2 arg3 harg3 arg4 harg4 arg5 harg5 arg6 harg6 arg7 harg7 arg8 harg8 arg9 harg9 arg10 harg10 arg11 harg11 arg12 harg12 arg13 harg13 arg14 harg14) K := by
  subst hv hr
  simp only [cc0__self_cost_kernel_eq_skeleton]; unfold cc0__self_cost_kernel_skel
  simp only [k0_part1_eq_skeleton, k0_part2_eq_skeleton]; unfold k0_part1_skel k0_part2_skel
  simp only [owns_eq_rep]
  iintro ⟨H0, H1, H2, H3, H4, H5, ⟨%d6, H6⟩, ⟨%d7, H7⟩, ⟨%d8, H8⟩, ⟨%d9, H9⟩, ⟨%a, %ha, H12, H13, H14⟩, Hk⟩
  have hl := @load_whole F _
  have hc := @cover_whole F _
  by_cases h1 : cond1 i = 1#1
  on_goal 1 => obtain rfl := hs h1; have h2 : ¬ k0_cond2 i = 1#1 := fun h2 => h ⟨h1, h2⟩
  on_goal 2 => obtain rfl := ha h1; by_cases h2 : k0_cond2 i = 1#1
  all_goals
    sl_exec
    sl_step
    iapply Hk
    iframe H0 H1 H2 H3 H4 H5
    isplitl [H6]; · (iapply stored; iexact H6)
    isplitl [H7 H8 H9]
    · first
        | (iexists (d7, d8, d9); isplitr; · (ipureintro; exact fun e => absurd e h2)
           isplitl [H7]; · iexact H7
           isplitl [H8]; · iexact H8
           iexact H9)
        | (iexists _; isplitr; · (ipureintro; exact fun _ => rfl)
           isplitl [H7]; · (iapply stored; iexact H7)
           isplitl [H8]; · (iapply stored; iexact H8)
           iapply stored; iexact H9)
    isplitl [H12]; · (iapply stored; iexact H12)
    isplitl [H13]; · (iapply stored; iexact H13)
    iapply stored; iexact H14

end Cert.KernelIdeal.Reg0
-- ==== Proof.Region0.lean ====
import proofs.«403712_j45286135169680_3_alg».proof.Proof.Body0
import proofs.«403712_j45286135169680_3_alg».proof.Proof.Gen.KernelIdeal.Launch

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev Scr (F : FTy → Type) : Type := Vec F S1024x1 .f32 × Vec F S1024x1 .f32 × Vec F S1024x1 .f32

def scrInit : Scr F := (k0_pay1, k0_pay2, k0_pay3)

def cost (c : Dev nD) (t : Fin cfg0.N) : Vec F S1024x1024 .f32 :=
  k0_pay4 (iblk V c 0 t) (iblk V c 1 t) (iblk V c 2 t) (iblk V c 3 t)

def scrStep (c : Dev nD) (t : Fin cfg0.N) (s : Scr F) : Scr F :=
  (k0_pay5 (cost V c t) s.1 (iblk V c 4 t), k0_pay7 (cost V c t) (iblk V c 5 t) s.2.1, k0_pay6 (cost V c t) s.2.2)

def scr (c : Dev nD) : ℕ → Scr F
  | 0 => scrInit
  | n + 1 => if h : n < cfg0.N then scrStep V c ⟨n, h⟩ (if n % 4 = 0 then scrInit else scr c n) else scr c n

def scrIn (c : Dev nD) (t : Fin cfg0.N) : Scr F := if t.val % 4 = 0 then scrInit else scr V c t.val

def scrOut (c : Dev nD) (t : Fin cfg0.N) : Scr F := scrStep V c t (scrIn V c t)

theorem scr_succ (c : Dev nD) (t : Fin cfg0.N) : scr V c (t.val + 1) = scrOut V c t := by
  unfold scrOut scrIn; rw [scr, dif_pos t.isLt]

def scrHeld (c : Dev nD) (n : ℕ) : sProp 𝕄 :=
  iprop(∃ s : Scr F, ⌜n % 4 ≠ 0 → s = scr V c n⌝
    ∗ owns (c : Thread nD τ) (Memref.whole cc0_scratch0) fullShare s.1
    ∗ owns (c : Thread nD τ) (Memref.whole cc0_scratch1) fullShare s.2.1
    ∗ owns (c : Thread nD τ) (Memref.whole cc0_scratch2) fullShare s.2.2)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => cost V c t
    | ⟨7, _⟩ => (scrOut V c t).1
    | ⟨8, _⟩ => (scrOut V c t).2.1
    | ⟨9, _⟩ => (scrOut V c t).2.2
  Φ t := iprop(Pipeline.scopedRestBut (Ix := Unit) (Name := ℕ) (U := UR sig nD τ) (Lvl := ℕ) (Val := Elt F) spec0 c [cc0_scratch0, cc0_scratch1, cc0_scratch2]
    ∗ scrHeld V c t.val)
  q w := match w with
    | ⟨0, _⟩ => fullShare.left
    | ⟨1, _⟩ => fullShare.right
    | _ => fullShare
  owed _ := 0

theorem A_eq (c : Dev nD) (w : Fin cfg0.W) : (dat V c).A w = V c (Pipeline.arrRef spec0 w) := by
  dsimp only [dat]

theorem q_0 (c : Dev nD) : (dat V c).q 0 = fullShare.left := rfl
theorem q_1 (c : Dev nD) : (dat V c).q 1 = fullShare.right := rfl
theorem q_rest (c : Dev nD) (w : Fin cfg0.W) (h0 : w ≠ 0) (h1 : w ≠ 1) : (dat V c).q w = fullShare := by
  fin_cases w
  · exact absurd rfl h0
  · exact absurd rfl h1
  all_goals rfl

theorem cond1_iff : ∀ t : Fin cfg0.N, Reg0.cond1 (cfg0.grid.coords t) = 1#1 ↔ t.val % 4 = 0 :=
  (by decide +kernel : ∀ t : Fin grid0.N, Reg0.cond1 (grid0.coords t) = 1#1 ↔ t.val % 4 = 0)
theorem cond2_iff : ∀ t : Fin cfg0.N, k0_cond2 (cfg0.grid.coords t) = 1#1 ↔ t.val % 4 = 3 :=
  (by decide +kernel : ∀ t : Fin grid0.N, k0_cond2 (grid0.coords t) = 1#1 ↔ t.val % 4 = 3)

theorem sched : ∀ w : Fin cfg0.W, 7 ≤ w.val → (cfg0.win w).isOut = true ∧ ∀ t : Fin cfg0.N,
    (cfg0.win w).flush t = decide (t.val % 4 = 3) ∧ cfg0.idle w (cfg0.grid.coords t) = decide (t.val % 4 ≠ 3) :=
  (by decide +kernel : ∀ w : Fin 10, 7 ≤ w.val → (win0 w).isOut = true ∧ ∀ t : Fin grid0.N,
    (win0 w).flush t = decide (t.val % 4 = 3) ∧ idle0 w (grid0.coords t) = decide (t.val % 4 ≠ 3))

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl

theorem before_1 (c : Dev nD) (t : Fin cfg0.N) (d) : (dat V c).before 1 t d = iblk V c 1 t :=
  ((dat V c).before_in_eq_fetched 1 rfl (fun _ => rfl) (fun _ _ _ => rfl) (fun _ => rfl) t d).trans rfl

theorem before_2 (c : Dev nD) (t : Fin cfg0.N) (d) : (dat V c).before 2 t d = iblk V c 2 t :=
  ((dat V c).before_in_eq_fetched 2 rfl (fun _ => rfl) (fun _ _ _ => rfl) (fun _ => rfl) t d).trans rfl

theorem before_3 (c : Dev nD) (t : Fin cfg0.N) (d) : (dat V c).before 3 t d = iblk V c 3 t :=
  ((dat V c).before_in_eq_fetched 3 rfl (fun _ => rfl) (fun _ _ _ => rfl) (fun _ => rfl) t d).trans rfl

theorem before_4 (c : Dev nD) (t : Fin cfg0.N) (d) : (dat V c).before 4 t d = iblk V c 4 t :=
  ((dat V c).before_in_eq_fetched 4 rfl (fun _ => rfl) (fun _ _ _ => rfl) (fun _ => rfl) t d).trans rfl

theorem before_5 (c : Dev nD) (t : Fin cfg0.N) (d) : (dat V c).before 5 t d = iblk V c 5 t :=
  ((dat V c).before_in_eq_fetched 5 rfl (fun _ => rfl) (fun _ _ _ => rfl) (fun _ => rfl) t d).trans rfl

theorem before_out (c : Dev nD) (w : Fin cfg0.W) (hw : 7 ≤ w.val) (t : Fin cfg0.N) (d) : (dat V c).before w t d = d := by
  obtain ⟨ho, hs⟩ := sched w hw
  rw [(dat V c).before_idle_run w (fun t => (cfg0.win w).fetch_out ho t) d (t.val % 4) t (Nat.mod_le _ _) fun j h1 h2 => by
    rw [(hs j).2, (hs j).1]; exact ⟨decide_eq_true (by omega), decide_eq_false (by omega)⟩]
  exact (dat V c).before_out_reset w ho _ (by
    by_cases h0 : t.val - t.val % 4 = 0
    · exact .inl h0
    · exact .inr ⟨h0, by rw [(hs _).1]; exact decide_eq_true (by show (t.val - t.val % 4 - 1) % 4 = 3; omega)⟩) d

theorem Φ_eq (c : Dev nD) (t : Fin (cfg0.N + 1)) : (dat V c).Φ t
    = iprop(Pipeline.scopedRestBut (Ix := Unit) (Name := ℕ) (U := UR sig nD τ) (Lvl := ℕ) (Val := Elt F) spec0 c [cc0_scratch0, cc0_scratch1, cc0_scratch2]
        ∗ scrHeld V c t.val) := by dsimp only [dat]

theorem hin (c : Dev nD) : (Pipeline.scopedRest (Ix := Unit) (Name := ℕ) (U := UR sig nD τ) (Lvl := ℕ) (Val := Elt F) spec0 c : sProp 𝕄) ⊢ (dat V c).Φ 0 := by
  rw [scopedRest0_split, Φ_eq]
  unfold scrHeld
  iintro ⟨⟨⟨%f0, H0⟩, ⟨%f1, H1⟩, ⟨%f2, H2⟩⟩, HR⟩
  isplitl [HR]; · iexact HR
  iexists ((f0, f1, f2) : Scr F)
  isplitr; · ipureintro; intro h; exact absurd rfl h
  rw [owns_whole, owns_whole, owns_whole]
  isplitl [H0]; · iexact H0
  isplitl [H1]; · iexact H1
  iexact H2

theorem hout (c : Dev nD) : (dat V c).Φ (Fin.last cfg0.N) ⊢ (Pipeline.scopedRest (Ix := Unit) (Name := ℕ) (U := UR sig nD τ) (Lvl := ℕ) (Val := Elt F) spec0 c : sProp 𝕄) := by
  rw [scopedRest0_split, Φ_eq]
  unfold scrHeld
  iintro ⟨HR, ⟨%s, -, H0, H1, H2⟩⟩
  ihave H0 := (Entails.of_eq (owns_whole (c : Thread nD τ) cc0_scratch0 fullShare s.1)) $$ H0
  ihave H1 := (Entails.of_eq (owns_whole (c : Thread nD τ) cc0_scratch1 fullShare s.2.1)) $$ H1
  ihave H2 := (Entails.of_eq (owns_whole (c : Thread nD τ) cc0_scratch2 fullShare s.2.2)) $$ H2
  isplitr [HR]; swap; · iexact HR
  isplitl [H0]; · iexists _; iexact H0
  isplitl [H1]; · iexists _; iexact H1
  iexists _; iexact H2

theorem leaves (c : Dev nD) (w : Fin cfg0.W) (hw : 7 ≤ w.val) (t : Fin cfg0.N) (d) (h : t.val % 4 = 3 → d = (dat V c).after w t) :
    owns (c : Thread nD τ) ((cfg0.win w).stage (cfg0.slots t w)) fullShare d ⊢ (dat V c).leavesExact w t := by
  obtain ⟨hf, hi⟩ := (sched w hw).2 t
  by_cases h3 : t.val % 4 = 3
  · unfold Dat.leavesExact; rw [hi, decide_eq_false (not_not.mpr h3), h h3]
  · rw [Dat.leavesExact_idle _ w t (by rw [hi, decide_eq_true h3]) (by rw [hf, decide_eq_false h3])]
    iintro H; iexists d; rw [before_out V c w hw]; iexact H

set_option maxHeartbeats 1000000 in
theorem body_obligation (c : Dev nD) : BodyObligation (dat (F := F) V c) (defs₀ (F := F)) Variants.none () Set.univ := fun t => by
  rw [bigSep_W0, bigSep_W0]
  simp only [before_0, before_1, before_2, before_3, before_4, before_5]
  rw [show (dat V c).owesAt () t.succ = (dat V c).owesAt () t.castSucc from rfl, Φ_eq, Φ_eq]
  unfold scrHeld
  iintro ⟨⟨HR, %a, %ha, S0, S1, S2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Reg0.run c Set.univ (grid0.coords t) _ (stage_whole0 0 _) _ (stage_whole0 1 _) _ (stage_whole0 2 _) _ (stage_whole0 3 _) _ (stage_whole0 4 _) _ (stage_whole0 5 _) _ (stage_whole0 6 _) _ (stage_whole0 7 _) _ (stage_whole0 8 _) _ (stage_whole0 9 _) _ (Memref.isWhole_whole _) _ (Memref.isWhole_whole _) _ (Memref.isWhole_whole _)
    (iblk V c 0 t) (iblk V c 1 t) (iblk V c 2 t) (iblk V c 3 t) (iblk V c 4 t) (iblk V c 5 t) (cost V c t) (scrIn V c t) (scrOut V c t) rfl rfl
    (fun h1 => if_pos ((cond1_iff t).mp h1)) (fun h => by have := (cond1_iff t).mp h.1; have := (cond2_iff t).mp h.2; omega) _)
  iframe H0 H1 H2 H3 H4 H5
  isplitl [H6]; · (iexists _; iexact H6)
  isplitl [H7]; · (iexists _; iexact H7)
  isplitl [H8]; · (iexists _; iexact H8)
  isplitl [H9]; · (iexists _; iexact H9)
  isplitl [S0 S1 S2]
  · iexists a; iframe S0 S1 S2; ipureintro
    exact fun h1 => (ha (mt (cond1_iff t).mpr h1)).trans (if_neg (mt (cond1_iff t).mpr h1)).symm
  iintro ⟨H0, H1, H2, H3, H4, H5, H6, ⟨%b, %hb, H7, H8, H9⟩, S0, S1, S2⟩
  iframe HR Ho
  isplitl [S0 S1 S2]
  · iexists (scrOut V c t); iframe S0 S1 S2; ipureintro; exact fun _ => (scr_succ V c t).symm
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · (iapply (leaves V c 7 (by decide) t b.1 fun h3 => by rw [hb ((cond2_iff t).mpr h3)]; rfl); iexact H7)
  isplitl [H8]; · (iapply (leaves V c 8 (by decide) t b.2.1 fun h3 => by rw [hb ((cond2_iff t).mpr h3)]; rfl); iexact H8)
  iapply (leaves V c 9 (by decide) t b.2.2 fun h3 => by rw [hb ((cond2_iff t).mpr h3)]; rfl); iexact H9

end Cert.KernelIdeal.Reg0
-- ==== Proof.Region1.lean ====
import proofs.«403712_j45286135169680_3_alg».proof.Proof.Body0
import proofs.«403712_j45286135169680_3_alg».proof.Proof.Gen.KernelIdeal.Launch

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Scr (F : FTy → Type) : Type := Vec F S1024x1 .f32 × Vec F S1024x1 .f32 × Vec F S1024x1 .f32

def scrInit : Scr F := (k1_pay1, k1_pay2, k1_pay3)

def cost (c : Dev nD) (t : Fin cfg1.N) : Vec F S1024x1024 .f32 :=
  k1_pay4 (iblk V c 0 t) (iblk V c 1 t) (iblk V c 2 t) (iblk V c 3 t)

def scrStep (c : Dev nD) (t : Fin cfg1.N) (s : Scr F) : Scr F :=
  (k1_pay5 (cost V c t) s.1 (iblk V c 4 t), k1_pay7 (cost V c t) (iblk V c 5 t) s.2.1, k1_pay6 (cost V c t) s.2.2)

def scr (c : Dev nD) : ℕ → Scr F
  | 0 => scrInit
  | n + 1 => if h : n < cfg1.N then scrStep V c ⟨n, h⟩ (if n % 4 = 0 then scrInit else scr c n) else scr c n

def scrIn (c : Dev nD) (t : Fin cfg1.N) : Scr F := if t.val % 4 = 0 then scrInit else scr V c t.val

def scrOut (c : Dev nD) (t : Fin cfg1.N) : Scr F := scrStep V c t (scrIn V c t)

theorem scr_succ (c : Dev nD) (t : Fin cfg1.N) : scr V c (t.val + 1) = scrOut V c t := by
  unfold scrOut scrIn; rw [scr, dif_pos t.isLt]

def scrHeld (c : Dev nD) (n : ℕ) : sProp 𝕄 :=
  iprop(∃ s : Scr F, ⌜n % 4 ≠ 0 → s = scr V c n⌝
    ∗ owns (c : Thread nD τ) (Memref.whole cc1_scratch0) fullShare s.1
    ∗ owns (c : Thread nD τ) (Memref.whole cc1_scratch1) fullShare s.2.1
    ∗ owns (c : Thread nD τ) (Memref.whole cc1_scratch2) fullShare s.2.2)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => cost V c t
    | ⟨7, _⟩ => (scrOut V c t).1
    | ⟨8, _⟩ => (scrOut V c t).2.1
    | ⟨9, _⟩ => (scrOut V c t).2.2
  Φ t := iprop(Pipeline.scopedRestBut (Ix := Unit) (Name := ℕ) (U := UR sig nD τ) (Lvl := ℕ) (Val := Elt F) spec1 c [cc1_scratch0, cc1_scratch1, cc1_scratch2]
    ∗ scrHeld V c t.val)
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem q_0 (c : Dev nD) : (dat V c).q 0 = fullShare.left := rfl
theorem q_1 (c : Dev nD) : (dat V c).q 1 = fullShare.right := rfl
theorem q_rest (c : Dev nD) (w : Fin cfg1.W) (h0 : w ≠ 0) (h1 : w ≠ 1) : (dat V c).q w = fullShare := by
  fin_cases w
  · exact absurd rfl h0
  · exact absurd rfl h1
  all_goals rfl

theorem cond1_iff : ∀ t : Fin cfg1.N, Reg0.cond1 (cfg1.grid.coords t) = 1#1 ↔ t.val % 4 = 0 :=
  (by decide +kernel : ∀ t : Fin grid1.N, Reg0.cond1 (grid1.coords t) = 1#1 ↔ t.val % 4 = 0)
theorem cond2_iff : ∀ t : Fin cfg1.N, k1_cond2 (cfg1.grid.coords t) = 1#1 ↔ t.val % 4 = 3 :=
  (by decide +kernel : ∀ t : Fin grid1.N, k1_cond2 (grid1.coords t) = 1#1 ↔ t.val % 4 = 3)

theorem sched : ∀ w : Fin cfg1.W, 7 ≤ w.val → (cfg1.win w).isOut = true ∧ ∀ t : Fin cfg1.N,
    (cfg1.win w).flush t = decide (t.val % 4 = 3) ∧ cfg1.idle w (cfg1.grid.coords t) = decide (t.val % 4 ≠ 3) :=
  (by decide +kernel : ∀ w : Fin 10, 7 ≤ w.val → (win1 w).isOut = true ∧ ∀ t : Fin grid1.N,
    (win1 w).flush t = decide (t.val % 4 = 3) ∧ idle1 w (grid1.coords t) = decide (t.val % 4 ≠ 3))

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl

theorem before_1 (c : Dev nD) (t : Fin cfg1.N) (d) : (dat V c).before 1 t d = iblk V c 1 t :=
  ((dat V c).before_in_eq_fetched 1 rfl (fun _ => rfl) (fun _ _ _ => rfl) (fun _ => rfl) t d).trans rfl

theorem before_2 (c : Dev nD) (t : Fin cfg1.N) (d) : (dat V c).before 2 t d = iblk V c 2 t :=
  ((dat V c).before_in_eq_fetched 2 rfl (fun _ => rfl) (fun _ _ _ => rfl) (fun _ => rfl) t d).trans rfl

theorem before_3 (c : Dev nD) (t : Fin cfg1.N) (d) : (dat V c).before 3 t d = iblk V c 3 t :=
  ((dat V c).before_in_eq_fetched 3 rfl (fun _ => rfl) (fun _ _ _ => rfl) (fun _ => rfl) t d).trans rfl

theorem before_4 (c : Dev nD) (t : Fin cfg1.N) (d) : (dat V c).before 4 t d = iblk V c 4 t :=
  ((dat V c).before_in_eq_fetched 4 rfl (fun _ => rfl) (fun _ _ _ => rfl) (fun _ => rfl) t d).trans rfl

theorem before_5 (c : Dev nD) (t : Fin cfg1.N) (d) : (dat V c).before 5 t d = iblk V c 5 t :=
  ((dat V c).before_in_eq_fetched 5 rfl (fun _ => rfl) (fun _ _ _ => rfl) (fun _ => rfl) t d).trans rfl

theorem before_out (c : Dev nD) (w : Fin cfg1.W) (hw : 7 ≤ w.val) (t : Fin cfg1.N) (d) : (dat V c).before w t d = d := by
  obtain ⟨ho, hs⟩ := sched w hw
  rw [(dat V c).before_idle_run w (fun t => (cfg1.win w).fetch_out ho t) d (t.val % 4) t (Nat.mod_le _ _) fun j h1 h2 => by
    rw [(hs j).2, (hs j).1]; exact ⟨decide_eq_true (by omega), decide_eq_false (by omega)⟩]
  exact (dat V c).before_out_reset w ho _ (by
    by_cases h0 : t.val - t.val % 4 = 0
    · exact .inl h0
    · exact .inr ⟨h0, by rw [(hs _).1]; exact decide_eq_true (by show (t.val - t.val % 4 - 1) % 4 = 3; omega)⟩) d

theorem Φ_eq (c : Dev nD) (t : Fin (cfg1.N + 1)) : (dat V c).Φ t
    = iprop(Pipeline.scopedRestBut (Ix := Unit) (Name := ℕ) (U := UR sig nD τ) (Lvl := ℕ) (Val := Elt F) spec1 c [cc1_scratch0, cc1_scratch1, cc1_scratch2]
        ∗ scrHeld V c t.val) := by dsimp only [dat]

theorem hin (c : Dev nD) : (Pipeline.scopedRest (Ix := Unit) (Name := ℕ) (U := UR sig nD τ) (Lvl := ℕ) (Val := Elt F) spec1 c : sProp 𝕄) ⊢ (dat V c).Φ 0 := by
  rw [scopedRest1_split, Φ_eq]
  unfold scrHeld
  iintro ⟨⟨⟨%f0, H0⟩, ⟨%f1, H1⟩, ⟨%f2, H2⟩⟩, HR⟩
  isplitl [HR]; · iexact HR
  iexists ((f0, f1, f2) : Scr F)
  isplitr; · ipureintro; intro h; exact absurd rfl h
  rw [owns_whole, owns_whole, owns_whole]
  isplitl [H0]; · iexact H0
  isplitl [H1]; · iexact H1
  iexact H2

theorem hout (c : Dev nD) : (dat V c).Φ (Fin.last cfg1.N) ⊢ (Pipeline.scopedRest (Ix := Unit) (Name := ℕ) (U := UR sig nD τ) (Lvl := ℕ) (Val := Elt F) spec1 c : sProp 𝕄) := by
  rw [scopedRest1_split, Φ_eq]
  unfold scrHeld
  iintro ⟨HR, ⟨%s, -, H0, H1, H2⟩⟩
  ihave H0 := (Entails.of_eq (owns_whole (c : Thread nD τ) cc1_scratch0 fullShare s.1)) $$ H0
  ihave H1 := (Entails.of_eq (owns_whole (c : Thread nD τ) cc1_scratch1 fullShare s.2.1)) $$ H1
  ihave H2 := (Entails.of_eq (owns_whole (c : Thread nD τ) cc1_scratch2 fullShare s.2.2)) $$ H2
  isplitr [HR]; swap; · iexact HR
  isplitl [H0]; · iexists _; iexact H0
  isplitl [H1]; · iexists _; iexact H1
  iexists _; iexact H2

theorem leaves (c : Dev nD) (w : Fin cfg1.W) (hw : 7 ≤ w.val) (t : Fin cfg1.N) (d) (h : t.val % 4 = 3 → d = (dat V c).after w t) :
    owns (c : Thread nD τ) ((cfg1.win w).stage (cfg1.slots t w)) fullShare d ⊢ (dat V c).leavesExact w t := by
  obtain ⟨hf, hi⟩ := (sched w hw).2 t
  by_cases h3 : t.val % 4 = 3
  · unfold Dat.leavesExact; rw [hi, decide_eq_false (not_not.mpr h3), h h3]
  · rw [Dat.leavesExact_idle _ w t (by rw [hi, decide_eq_true h3]) (by rw [hf, decide_eq_false h3])]
    iintro H; iexists d; rw [before_out V c w hw]; iexact H

set_option maxHeartbeats 1000000 in
theorem body_obligation (c : Dev nD) : BodyObligation (dat (F := F) V c) (defs₀ (F := F)) Variants.none () Set.univ := fun t => by
  rw [bigSep_W1, bigSep_W1]
  simp only [before_0, before_1, before_2, before_3, before_4, before_5]
  rw [show (dat V c).owesAt () t.succ = (dat V c).owesAt () t.castSucc from rfl, Φ_eq, Φ_eq]
  unfold scrHeld
  iintro ⟨⟨HR, %a, %ha, S0, S1, S2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (Reg0.run c Set.univ (grid1.coords t) _ (stage_whole1 0 _) _ (stage_whole1 1 _) _ (stage_whole1 2 _) _ (stage_whole1 3 _) _ (stage_whole1 4 _) _ (stage_whole1 5 _) _ (stage_whole1 6 _) _ (stage_whole1 7 _) _ (stage_whole1 8 _) _ (stage_whole1 9 _) _ (Memref.isWhole_whole _) _ (Memref.isWhole_whole _) _ (Memref.isWhole_whole _)
    (iblk V c 0 t) (iblk V c 1 t) (iblk V c 2 t) (iblk V c 3 t) (iblk V c 4 t) (iblk V c 5 t) (cost V c t) (scrIn V c t) (scrOut V c t) rfl rfl
    (fun h1 => if_pos ((cond1_iff t).mp h1)) (fun h => by have := (cond1_iff t).mp h.1; have := (cond2_iff t).mp h.2; omega) _)
  iframe H0 H1 H2 H3 H4 H5
  isplitl [H6]; · (iexists _; iexact H6)
  isplitl [H7]; · (iexists _; iexact H7)
  isplitl [H8]; · (iexists _; iexact H8)
  isplitl [H9]; · (iexists _; iexact H9)
  isplitl [S0 S1 S2]
  · iexists a; iframe S0 S1 S2; ipureintro
    exact fun h1 => (ha (mt (cond1_iff t).mpr h1)).trans (if_neg (mt (cond1_iff t).mpr h1)).symm
  iintro ⟨H0, H1, H2, H3, H4, H5, H6, ⟨%b, %hb, H7, H8, H9⟩, S0, S1, S2⟩
  iframe HR Ho
  isplitl [S0 S1 S2]
  · iexists (scrOut V c t); iframe S0 S1 S2; ipureintro; exact fun _ => (scr_succ V c t).symm
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · (iapply (leaves V c 7 (by decide) t b.1 fun h3 => by rw [hb ((cond2_iff t).mpr h3)]; rfl); iexact H7)
  isplitl [H8]; · (iapply (leaves V c 8 (by decide) t b.2.1 fun h3 => by rw [hb ((cond2_iff t).mpr h3)]; rfl); iexact H8)
  iapply (leaves V c 9 (by decide) t b.2.2 fun h3 => by rw [hb ((cond2_iff t).mpr h3)]; rfl); iexact H9

end Cert.KernelIdeal.Reg1
-- ==== Proof.Region2.lean ====
import proofs.«403712_j45286135169680_3_alg».proof.Proof.Gen.KernelIdeal.Launch
import proofs.«403712_j45286135169680_3_alg».proof.Proof.Gen.KernelIdeal.Skeleton
import proofs.«403712_j45286135169680_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1 (i : grid2.Coords) : Prop :=
  (Scalar.cmpi .ne (Scalar.extui (Scalar.cmpi .eq (BitVec.ofNat 32 (i 2).val) 0#32)) 0#32) = 1#1
theorem hcond1 : ∀ t : Fin cfg2.N, cond1 (grid2.coords t) ↔ t.val % 8 = 0 :=
  (by decide +kernel : ∀ t : Fin grid2.N, cond1 (grid2.coords t) ↔ t.val % 8 = 0)

abbrev cond2 (i : grid2.Coords) : Prop := k2_cond2 i = 1#1
theorem hcond2 : ∀ t : Fin cfg2.N, cond2 (grid2.coords t) ↔ t.val % 8 = 7 :=
  (by decide +kernel : ∀ t : Fin grid2.N, cond2 (grid2.coords t) ↔ t.val % 8 = 7)

theorem hz2 : (![0, 0] : Fin 2 → ℕ) = fun _ => 0 := by
  funext a; fin_cases a <;> rfl

set_option maxHeartbeats 1000000 in
-- One run of the kernel: the accumulator restarts from zero where k = 0, the output takes it where k = 7.
theorem run (c : Dev nD) (i : grid2.Coords)
    (a3 : Memref sig .tc .vmem S1024x512 .f32) (h3 : a3.IsWhole) (a4 : Memref sig .tc .vmem S512x1024 .f32) (h4 : a4.IsWhole)
    (a5 : Memref sig .tc .vmem S1x1 .f32) (h5 : a5.IsWhole) (a6 : Memref sig .tc .vmem S1024x1024 .f32) (h6 : a6.IsWhole)
    (a7 : Memref sig .tc .vmem S1024x1024 .f32) (h7 : a7.IsWhole)
    (hx : cond1 i → ¬cond2 i)
    (x0 : Vec F S1024x512 .f32) (x1 : Vec F S512x1024 .f32) (x2 : Vec F S1x1 .f32) (o s : Vec F S1024x1024 .f32)
    (E : Set ℕ) (K : PUnit → sProp 𝕄) :
    iprop(ownsTc c a3 fullShare x0 ∗ ownsTc c a4 fullShare x1 ∗ ownsTc c a5 fullShare x2 ∗ ownsTc c a6 fullShare o ∗ ownsTc c a7 fullShare s
        ∗ (iprop(ownsTc c a3 fullShare x0 ∗ ownsTc c a4 fullShare x1 ∗ ownsTc c a5 fullShare x2
            ∗ ownsTc c a6 fullShare (if cond2 i then k2_pay2 x2 x0 x1 (if cond1 i then k2_pay1 else s) else o)
            ∗ ownsTc c a7 fullShare (k2_pay2 x2 x0 x1 (if cond1 i then k2_pay1 else s))) -∗ K ⟨⟩))
      ⊢ wp frame (wpE (defs₀ (F := F)) Variants.none c none) E (cc2__matmul_kernel i a3 h3 a4 h4 a5 h5 a6 h6 a7 h7) K := by
  simp only [cc2__matmul_kernel_eq_skeleton]; unfold cc2__matmul_kernel_skel ownsTc owns
  by_cases hc1 : cond1 i <;> by_cases hc2 : cond2 i <;> first | exact absurd hc2 (hx hc1) | skip
  all_goals
    first | rw [if_pos hc1] | rw [if_neg hc1]
    first | rw [if_pos hc2] | rw [if_neg hc2]
    iintro ⟨⟨%f0, %e0, H0⟩, ⟨%f1, %e1, H1⟩, ⟨%f2, %e2, H2⟩, ⟨%f3, %e3, H3⟩, ⟨%f7, %e7, H7⟩, Hk⟩
    subst e0 e1 e2 e3 e7
    sl_exec (disch := first | sl_exact hc1 | sl_exact hc2)
    sl_step
    iapply Hk
    isplitl [H0]; · iexists _; iframe H0; ipureintro; rfl
    isplitl [H1]; · iexists _; iframe H1; ipureintro; rfl
    isplitl [H2]; · iexists _; iframe H2; ipureintro; rfl
    isplitl [H3] <;> iexists _ <;> first | iframe H3 | iframe H7
    all_goals
      ipureintro
      first
      | with_reducible rfl
      | sl_unfold_run_names
        rw [View.read_writes_eq_canon _ _ _ (fun y => ⟨_, List.mem_cons_self, View.mem_set_unit_zero hz2 inb_S1024x1024_S1024x1024_0_0 y⟩),
          View.canon_cons_unit_zero hz2]
        simp only [View.readAt_eq_ld, View.ld_unit_zero (S := S1x1) hz2, View.ld_unit_zero (S := S1024x512) hz2,
          View.ld_unit_zero (S := S512x1024) hz2, View.ld_unit_zero (S := S1024x1024) hz2,
          View.readCov_unit_zero (S := S1024x1024) _ hz2]

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def scr (c : Dev nD) : (n : ℕ) → n < cfg2.N → Vec F S1024x1024 .f32
  | 0, hn => k2_pay2 (iblk V c 2 ⟨0, hn⟩) (iblk V c 0 ⟨0, hn⟩) (iblk V c 1 ⟨0, hn⟩) (k2_pay1 (F := F))
  | n + 1, hn => k2_pay2 (iblk V c 2 ⟨n + 1, hn⟩) (iblk V c 0 ⟨n + 1, hn⟩) (iblk V c 1 ⟨n + 1, hn⟩)
      (if (n + 1) % 8 = 0 then (k2_pay1 (F := F)) else scr c n (Nat.lt_of_succ_lt hn))

-- The body's step on the accumulator is the recursion of scr.
theorem scr_eq (c : Dev nD) (t : Fin cfg2.N) (s : Vec F S1024x1024 .f32)
    (hs : ∀ h : t.val ≠ 0, s = scr V c (t.val - 1) (by omega)) :
    k2_pay2 (iblk V c 2 t) (iblk V c 0 t) (iblk V c 1 t) (if cond1 (grid2.coords t) then k2_pay1 else s) = scr V c t.val t.isLt := by
  obtain ⟨n, hn⟩ := t
  cases n with
  | zero => rw [if_pos ((hcond1 _).mpr rfl)]; rfl
  | succ n => rw [hs (Nat.succ_ne_zero n), if_congr (hcond1 ⟨n + 1, hn⟩) rfl rfl]; rfl

abbrev scM : Memref sig .tc .vmem S1024x1024 .f32 := Memref.whole cc2_scratch0

-- Before position n the accumulator holds what point n - 1 left (anything before the first point).
def Phi (c : Dev nD) (n : ℕ) (hn : n ≤ cfg2.N) : sProp 𝕄 :=
  iprop(∃ s, ⌜∀ h : n ≠ 0, s = scr V c (n - 1) (by omega)⌝ ∗ ownsTc c scM fullShare s
    ∗ Pipeline.scopedRestBut spec2 c [cc2_scratch0])

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => scr V c t.val t.isLt
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]

theorem after_3 (c : Dev nD) (t : Fin cfg2.N) : (dat V c).after 3 t = scr V c t.val t.isLt := by dsimp only [dat]

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d

-- Away from k = 7 the body leaves the output block as found; at k = 7 it is the accumulator.
theorem leaves3 (c : Dev nD) (t : Fin cfg2.N) (d) (Y : Vec F S1024x1024 .f32) (hY : Y = scr V c t.val t.isLt) :
    ownsTc c (st2_3 t) fullShare (if cond2 (grid2.coords t) then Y else (dat V c).before 3 t d) ⊢ (dat V c).leavesExact 3 t := by
  have e : cfg2.idle 3 (grid2.coords t) = !decide (cond2 (grid2.coords t)) := rfl
  by_cases h : cond2 (grid2.coords t)
  · unfold Dat.leavesExact; rw [if_pos h, hY, e, decide_eq_true h, after_3]; exact .rfl
  · rw [if_neg h, Dat.leavesExact_idle (dat V c) 3 t (by rw [e, decide_eq_false h]; rfl)
      (Bool.eq_false_iff.mpr fun hf => h ((hcond2 t).mpr ((flush2_3 t).mp hf)))]
    iintro H; iexists d; iexact H

theorem scoped_eq (c : Dev nD) :
    (Pipeline.scopedRest spec2 c : sProp 𝕄)
      = iprop((∃ d, ownsTc c scM fullShare d) ∗ Pipeline.scopedRestBut spec2 c [cc2_scratch0]) := by
  rw [scopedRest2_split]; simp only [scM, owns_whole]; try rfl

set_option maxHeartbeats 2000000 in
theorem sound_body (c : Dev nD) (t : Fin cfg2.N) :
    iprop(Phi V c t.val (Nat.le_of_lt t.isLt) ∗ (dat V c).owesAt () t.castSucc
      ∗ (∃ d, ownsTc c (st2_0 t) fullShare ((dat V c).before 0 t d)) ∗ (∃ d, ownsTc c (st2_1 t) fullShare ((dat V c).before 1 t d))
      ∗ (∃ d, ownsTc c (st2_2 t) fullShare ((dat V c).before 2 t d)) ∗ (∃ d, ownsTc c (st2_3 t) fullShare ((dat V c).before 3 t d)))
    ⊢ wp frame (wpE (defs₀ (F := F)) Variants.none c none) Set.univ (bodyAt2 t) fun _ =>
      iprop(Phi V c (t.val + 1) t.isLt ∗ (dat V c).owesAt () t.castSucc
        ∗ ownsTc c (st2_0 t) fullShare (iblk V c 0 t) ∗ ownsTc c (st2_1 t) fullShare (iblk V c 1 t)
        ∗ ownsTc c (st2_2 t) fullShare (iblk V c 2 t) ∗ (dat V c).leavesExact 3 t) := by
  simp only [before_0, before_1, before_2]
  unfold Phi
  iintro ⟨⟨%s, %hs, HS, HR⟩, Ho, ⟨%d0, H0⟩, ⟨%d1, H1⟩, ⟨%d2, H2⟩, ⟨%d3, H3⟩⟩
  iapply (run c (grid2.coords t) _ _ _ _ _ _ _ _ _ _ (fun h1 h2 => by have := (hcond1 t).mp h1; have := (hcond2 t).mp h2; omega) (iblk V c 0 t) (iblk V c 1 t) (iblk V c 2 t) _ s Set.univ _)
  iframe H0 H1 H2 H3 HS
  iintro ⟨H0, H1, H2, H3, HS⟩
  isplitl [HS HR]
  · iexists _; iframe HS HR; ipureintro; exact fun _ => scr_eq V c t s hs
  iframe Ho H0 H1 H2
  iapply (leaves3 V c t d3 _ (scr_eq V c t s hs))
  iexact H3

theorem body_obligation (c : Dev nD) : BodyObligation (dat (F := F) V c) (defs₀ (F := F)) Variants.none () Set.univ := fun t => by
  rw [bigSep_W2, bigSep_W2]
  exact sound_body V c t

theorem hin (c : Dev nD) : (Pipeline.scopedRest (Ix := Unit) (Name := ℕ) (U := UR sig nD τ) (Lvl := ℕ) (Val := Elt F) spec2 c : sProp 𝕄) ⊢ (dat V c).Φ 0 := by
  rw [scoped_eq, show (dat V c).Φ 0 = Phi V c 0 (Nat.zero_le _) from rfl]; unfold Phi
  iintro ⟨⟨%d, HS⟩, HR⟩
  iexists d; iframe HS HR; ipureintro; exact fun h => absurd rfl h

theorem hout (c : Dev nD) : (dat V c).Φ (Fin.last cfg2.N) ⊢ (Pipeline.scopedRest (Ix := Unit) (Name := ℕ) (U := UR sig nD τ) (Lvl := ℕ) (Val := Elt F) spec2 c : sProp 𝕄) := by
  rw [scoped_eq, show (dat V c).Φ (Fin.last cfg2.N) = Phi V c cfg2.N (Nat.le_refl _) from rfl]; unfold Phi
  iintro ⟨%s, -, HS, HR⟩
  iframe HR; iexists s; iexact HS

end Cert.KernelIdeal.Reg2

end
-- ==== Proof.Region3.lean ====
import proofs.«403712_j45286135169680_3_alg».proof.Proof.Gen.KernelIdeal.Launch
import proofs.«403712_j45286135169680_3_alg».proof.Proof.Gen.KernelIdeal.Skeleton
import proofs.«403712_j45286135169680_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
import Idealize.ShloMosaic.Lib.Pipeline.TableIdle

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Scr (F : FTy → Type) where
  acc : Vec F S1024x1024 .f32
  dgw : Vec F S1024x1 .f32
  dw : Vec F S1024x1 .f32

def accStep (k : ℕ) (x10 : Vec F S1x1 .f32) (x0 x1 : Vec F S1024x512 .f32) (a : Vec F S1024x1024 .f32) :
    Vec F S1024x1024 .f32 :=
  k3_pay7 x10 x0 x1 (if k = 0 then k3_pay5 (F := F) else a)

def dwStep (j k : ℕ) (x5 x6 : Vec F S1024x128 .f32) (x7 : Vec F S1024x1 .f32) (x8 : Vec F S1x1024 .f32)
    (x4 : Vec F S1024x1024 .f32) (w : Vec F S1024x1 .f32) : Vec F S1024x1 .f32 :=
  if k = 0 then k3_pay8 (if j = 0 then k3_pay4 (F := F) else w) (k3_pay1 x5 x6 x7 x8 x4) else w

def dgwStep (j k : ℕ) (x10 x9 x11 : Vec F S1x1 .f32) (x12 : Vec F S1x1024 .f32) (x13 : Vec F S1024x1 .f32)
    (a' : Vec F S1024x1024 .f32) (x2 : Vec F S1024x1 .f32) (x3 : Vec F S1x1024 .f32) (x4 : Vec F S1024x1024 .f32)
    (g : Vec F S1024x1 .f32) : Vec F S1024x1 .f32 :=
  if k = 7 then k3_pay9 (k3_pay2 (k3_pay6 x10) x9 x11 x12 x13 a' x2 x3 g x4)
  else if j = 0 ∧ k = 0 then k3_pay3 (F := F) else g

theorem cond_nat : ∀ j < 4, ∀ k < 8,
    ((Scalar.cmpi .ne (Scalar.extui (Scalar.andi (Scalar.cmpi .eq (BitVec.ofNat 32 j) 0#32) (Scalar.cmpi .eq (BitVec.ofNat 32 k) 0#32)) : BitVec 32) 0#32 = 1#1) ↔ (j = 0 ∧ k = 0))
    ∧ ((Scalar.cmpi .ne (Scalar.extui (Scalar.cmpi .eq (BitVec.ofNat 32 k) 0#32) : BitVec 32) 0#32 = 1#1) ↔ k = 0)
    ∧ ((Scalar.cmpi .ne (Scalar.extui (Scalar.cmpi .eq (BitVec.ofNat 32 k) 7#32) : BitVec 32) 0#32 = 1#1) ↔ k = 7)
    ∧ ((Scalar.cmpi .ne (Scalar.extui (Scalar.andi (Scalar.cmpi .eq (BitVec.ofNat 32 j) 3#32) (Scalar.cmpi .eq (BitVec.ofNat 32 k) 7#32)) : BitVec 32) 0#32 = 1#1) ↔ (j = 3 ∧ k = 7)) := by
  decide

theorem cond5_iff (i : grid3.Coords) : k3_cond5 i = 1#1 ↔ ((i 1).val = 3 ∧ (i 2).val = 7) :=
  (cond_nat _ (i 1).isLt _ (i 2).isLt).2.2.2

theorem zz : (![0, 0] : Fin 2 → ℕ) = fun _ => 0 := funext fun a => by fin_cases a <;> rfl

theorem readAt_unit2 {sg : RefSig} {κ : Kind} {sp : Space} {n m : ℕ} {e : EltTy} (v : View sg κ sp ⟨2, ![n, m]⟩ e) (f : v.ty.Contents (Elt F))
    (inb : ∀ a, (![0, 0] : Fin 2 → ℕ) a + (![n, m] : Fin 2 → ℕ) a ≤ (![n, m] : Fin 2 → ℕ) a) :
    v.readAt (Elt F) (Rect.unit (s := ⟨2, ![n, m]⟩) ![0, 0] ![n, m] inb).toLoadRect f = v.read (Elt F) f := by
  rw [View.readAt_eq_ld]; exact View.ld_unit_zero zz inb _

theorem read_writes_cons_unit {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

theorem read_writes_cons_unit2 {sg : RefSig} {κ : Kind} {sp : Space} {n m : ℕ} {e : EltTy} (v : View sg κ sp ⟨2, ![n, m]⟩ e) (f : v.ty.Contents (Elt F))
    (inb : ∀ a, (![0, 0] : Fin 2 → ℕ) a + (![n, m] : Fin 2 → ℕ) a ≤ (![n, m] : Fin 2 → ℕ) a) (w : Shape.Idx ⟨2, ![n, m]⟩ → Elt F e)
    (L : List (View.Piece (Elt F) ⟨2, ![n, m]⟩ e)) :
    v.read (Elt F) (v.writes (Elt F) f (⟨Rect.unit (s := ⟨2, ![n, m]⟩) ![0, 0] ![n, m] inb, w⟩ :: L)) = w :=
  read_writes_cons_unit v f zz inb w L

-- On a view's own elements, contents are determined by what the view reads of them.
theorem held_read (c : Thread nD τ) {sp : Space} {sh : Shape} {e : EltTy} (m : Memref sig c.2.kind sp sh e) (q : PosShare TreeShare)
    (f : m.view.ty.Contents (Elt F)) :
    (m.view.loc c ↦[m.view.set]{q} f : sProp 𝕄) ⊢ (m.view.loc c ↦[m.view.set]{q} m.view.rep (m.view.read (Elt F) f)) :=
  (owns_intro c m q f).trans (Entails.of_eq (owns_eq_rep c m q _))

section Body

variable (c : Dev nD) (E : Set ℕ) (i : grid3.Coords)
    {arg3 arg4 : Memref sig .tc .vmem S1024x512 .f32} {arg5 arg10 arg16 arg17 arg18 arg20 arg21 : Memref sig .tc .vmem S1024x1 .f32} {arg6 arg11 arg15 : Memref sig .tc .vmem S1x1024 .f32} {arg7 arg19 : Memref sig .tc .vmem S1024x1024 .f32} {arg8 arg9 : Memref sig .tc .vmem S1024x128 .f32} {arg12 arg13 arg14 : Memref sig .tc .vmem S1x1 .f32}
    {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole}
    (j k : ℕ) (x0 x1 : Vec F S1024x512 .f32) (x2 : Vec F S1024x1 .f32) (x3 : Vec F S1x1024 .f32) (x4 : Vec F S1024x1024 .f32)
    (x5 x6 : Vec F S1024x128 .f32) (x7 : Vec F S1024x1 .f32) (x8 : Vec F S1x1024 .f32) (x9 x10 x11 : Vec F S1x1 .f32)
    (x12 : Vec F S1x1024 .f32) (x13 : Vec F S1024x1 .f32)

def stepOn (s : Scr F) : Scr F :=
  { acc := accStep k x10 x0 x1 s.acc
    dgw := dgwStep j k x10 x9 x11 x12 x13 (accStep k x10 x0 x1 s.acc) x2 x3 x4 s.dgw
    dw := dwStep j k x5 x6 x7 x8 x4 s.dw }

theorem stepOn_reset (s s' : Scr F) : stepOn 0 0 x0 x1 x2 x3 x4 x5 x6 x7 x8 x9 x10 x11 x12 x13 s = stepOn 0 0 x0 x1 x2 x3 x4 x5 x6 x7 x8 x9 x10 x11 x12 x13 s' := by
  unfold stepOn accStep dgwStep dwStep
  simp only [if_pos, if_neg, and_self, OfNat.zero_ne_ofNat, ↓reduceIte]

set_option maxHeartbeats 2000000 in
-- By cases on which of the four tests on the coordinates `j`, `k` hold.
theorem sound_kernel (o14 o15 : Vec F S1024x1 .f32) (s : Scr F) (K : PUnit → sProp 𝕄) :
    iprop(owns c arg3 fullShare x0 ∗ owns c arg4 fullShare x1 ∗ owns c arg5 fullShare x2 ∗ owns c arg6 fullShare x3 ∗ owns c arg7 fullShare x4
        ∗ owns c arg8 fullShare x5 ∗ owns c arg9 fullShare x6 ∗ owns c arg10 fullShare x7 ∗ owns c arg11 fullShare x8 ∗ owns c arg12 fullShare x9
        ∗ owns c arg13 fullShare x10 ∗ owns c arg14 fullShare x11 ∗ owns c arg15 fullShare x12 ∗ owns c arg16 fullShare x13
        ∗ owns c arg17 fullShare o14 ∗ owns c arg18 fullShare o15 ∗ owns c arg19 fullShare s.acc ∗ owns c arg20 fullShare s.dgw ∗ owns c arg21 fullShare s.dw
        ∗ (iprop(owns c arg3 fullShare x0 ∗ owns c arg4 fullShare x1 ∗ owns c arg5 fullShare x2 ∗ owns c arg6 fullShare x3 ∗ owns c arg7 fullShare x4
        ∗ owns c arg8 fullShare x5 ∗ owns c arg9 fullShare x6 ∗ owns c arg10 fullShare x7 ∗ owns c arg11 fullShare x8 ∗ owns c arg12 fullShare x9
        ∗ owns c arg13 fullShare x10 ∗ owns c arg14 fullShare x11 ∗ owns c arg15 fullShare x12 ∗ owns c arg16 fullShare x13
        ∗ owns c arg17 fullShare (if (i 1).val = 3 ∧ (i 2).val = 7 then (stepOn (i 1).val (i 2).val x0 x1 x2 x3 x4 x5 x6 x7 x8 x9 x10 x11 x12 x13 s).dgw else o14)
        ∗ owns c arg18 fullShare (if (i 1).val = 3 ∧ (i 2).val = 7 then (stepOn (i 1).val (i 2).val x0 x1 x2 x3 x4 x5 x6 x7 x8 x9 x10 x11 x12 x13 s).dw else o15)
        ∗ owns c arg19 fullShare (stepOn (i 1).val (i 2).val x0 x1 x2 x3 x4 x5 x6 x7 x8 x9 x10 x11 x12 x13 s).acc ∗ owns c arg20 fullShare (stepOn (i 1).val (i 2).val x0 x1 x2 x3 x4 x5 x6 x7 x8 x9 x10 x11 x12 x13 s).dgw ∗ owns c arg21 fullShare (stepOn (i 1).val (i 2).val x0 x1 x2 x3 x4 x5 x6 x7 x8 x9 x10 x11 x12 x13 s).dw) -∗ K ⟨⟩))
      ⊢ wp frame (wpE (defs₀ (F := F)) Variants.none c none) E (cc3__combine_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨hA, hB, hD, -⟩ := cond_nat _ (i 1).isLt _ (i 2).isLt
  have h5 := cond5_iff i
  have hc : ((i 1).val = 0 ∧ (i 2).val = 0) ∨ ((i 1).val ≠ 0 ∧ (i 2).val = 0) ∨ ((i 2).val ≠ 0 ∧ (i 2).val ≠ 7)
      ∨ ((i 1).val ≠ 3 ∧ (i 2).val = 7) ∨ ((i 1).val = 3 ∧ (i 2).val = 7) := by omega
  rcases hc with ⟨hj, hk⟩ | ⟨hj, hk⟩ | ⟨hk, hk'⟩ | ⟨hj, hk⟩ | ⟨hj, hk⟩
  all_goals
    simp (disch := omega) only [stepOn, accStep, dgwStep, dwStep, if_pos, if_neg]
    simp only [cc3__combine_kernel_eq_skeleton]; unfold cc3__combine_kernel_skel
    simp only [k3_part3_eq_skeleton]; unfold k3_part3_skel
    simp only [owns_eq_rep]
    iintro ⟨H3, H4, H5, H6, H7, H8, H9, H10, H11, H12, H13, H14, H15, H16, H17, H18, H19, H20, H21, Hk⟩
    sl_exec (disch := first
      | sl_exact hA.mpr (by omega) | sl_exact hA.not.mpr (by omega)
      | sl_exact hB.mpr (by omega) | sl_exact hB.not.mpr (by omega)
      | sl_exact hD.mpr (by omega) | sl_exact hD.not.mpr (by omega)
      | sl_exact h5.mpr (by omega) | sl_exact h5.not.mpr (by omega))
    sl_step
    ihave H17 := (held_read c arg17 _ _) $$ H17
    ihave H18 := (held_read c arg18 _ _) $$ H18
    ihave H19 := (held_read c arg19 _ _) $$ H19
    ihave H20 := (held_read c arg20 _ _) $$ H20
    ihave H21 := (held_read c arg21 _ _) $$ H21
    sl_unfold_run_names
    simp only [read_writes_cons_unit2, readAt_unit2, View.readCov_cons_toLoadRect, View.read_rep]
    iapply Hk
    iframe

end Body

variable (V : (c : Dev nD) → (b : Ref sig .tc) → Buf (Elt F) ((c : Thread nD τ).loc b))

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def step (c : Dev nD) (t : Fin cfg3.N) (s : Scr F) : Scr F :=
  let a' := accStep (t.val % 8) (iblk V c 10 t) (iblk V c 0 t) (iblk V c 1 t) s.acc
  { acc := a'
    dgw := dgwStep (t.val / 8 % 4) (t.val % 8) (iblk V c 10 t) (iblk V c 9 t) (iblk V c 11 t) (iblk V c 12 t) (iblk V c 13 t)
      a' (iblk V c 2 t) (iblk V c 3 t) (iblk V c 4 t) s.dgw
    dw := dwStep (t.val / 8 % 4) (t.val % 8) (iblk V c 5 t) (iblk V c 6 t) (iblk V c 7 t) (iblk V c 8 t) (iblk V c 4 t) s.dw }

def scr (c : Dev nD) : ℕ → Scr F
  | 0 => ⟨k3_pay5 (F := F), k3_pay3 (F := F), k3_pay4 (F := F)⟩
  | n + 1 => if h : n < cfg3.N then step V c ⟨n, h⟩ (scr c n) else scr c n

theorem scr_succ (c : Dev nD) (t : Fin cfg3.N) : scr V c (t.val + 1) = step V c t (scr V c t.val) := by
  show (if h : t.val < cfg3.N then step V c ⟨t.val, h⟩ (scr V c t.val) else scr V c t.val) = _
  rw [dif_pos t.isLt]

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (scr V c (t.val + 1)).dgw
    | ⟨15, _⟩ => (scr V c (t.val + 1)).dw
    | ⟨_ + 16, h⟩ => absurd h (Nat.not_lt.2 (Nat.le_add_left _ _))
  Φ t := iprop(Pipeline.scopedRestBut (Ix := Unit) (Name := ℕ) (U := UR sig nD τ) (Lvl := ℕ) (Val := Elt F) spec3 c [cc3_scratch0, cc3_scratch1, cc3_scratch2]
    ∗ ∃ s : Scr F, ⌜t.val ≠ 0 → s = scr V c t.val⌝
      ∗ owns (c : Thread nD τ) (Memref.whole cc3_scratch0) fullShare s.acc
      ∗ owns (c : Thread nD τ) (Memref.whole cc3_scratch1) fullShare s.dgw
      ∗ owns (c : Thread nD τ) (Memref.whole cc3_scratch2) fullShare s.dw)
  q _ := fullShare
  owed _ := 0

theorem A_eq (c : Dev nD) (w : Fin cfg3.W) : (dat V c).A w = V c (Pipeline.arrRef spec3 w) := by
  dsimp only [dat]

theorem Φ_eq (c : Dev nD) (t : Fin (cfg3.N + 1)) : (dat V c).Φ t =
    iprop(Pipeline.scopedRestBut (Ix := Unit) (Name := ℕ) (U := UR sig nD τ) (Lvl := ℕ) (Val := Elt F) spec3 c [cc3_scratch0, cc3_scratch1, cc3_scratch2]
    ∗ ∃ s : Scr F, ⌜t.val ≠ 0 → s = scr V c t.val⌝
      ∗ owns (c : Thread nD τ) (Memref.whole cc3_scratch0) fullShare s.acc
      ∗ owns (c : Thread nD τ) (Memref.whole cc3_scratch1) fullShare s.dgw
      ∗ owns (c : Thread nD τ) (Memref.whole cc3_scratch2) fullShare s.dw) := by
  dsimp only [dat]

theorem after_14 (c : Dev nD) (t : Fin cfg3.N) : (dat V c).after 14 t = (scr V c (t.val + 1)).dgw := by dsimp only [dat]
theorem after_15 (c : Dev nD) (t : Fin cfg3.N) : (dat V c).after 15 t = (scr V c (t.val + 1)).dw := by dsimp only [dat]

theorem coord1 (t : Fin cfg3.N) : ((grid3.coords t) 1).val = t.val / 8 % 4 := rfl
theorem coord2 (t : Fin cfg3.N) : ((grid3.coords t) 2).val = t.val % 8 := by
  show t.val / 1 % 8 = _; rw [Nat.div_one]

theorem before_0 (c : Dev nD) (t : Fin cfg3.N) (d) : (dat V c).before 0 t d = (dat V c).after 0 t :=
  ((dat V c).before_in_eq_fetched _ rfl (fun _ => rfl) (fun _ _ _ => rfl) (fun _ => rfl) t d).trans rfl
theorem before_1 (c : Dev nD) (t : Fin cfg3.N) (d) : (dat V c).before 1 t d = (dat V c).after 1 t :=
  ((dat V c).before_in_eq_fetched _ rfl (fun _ => rfl) (fun _ _ _ => rfl) (fun _ => rfl) t d).trans rfl
theorem before_2 (c : Dev nD) (t : Fin cfg3.N) (d) : (dat V c).before 2 t d = (dat V c).after 2 t :=
  ((dat V c).before_in_eq_fetched _ rfl (fun _ => rfl) (fun _ _ _ => rfl) (fun _ => rfl) t d).trans rfl
theorem before_3 (c : Dev nD) (t : Fin cfg3.N) (d) : (dat V c).before 3 t d = (dat V c).after 3 t :=
  ((dat V c).before_in_eq_fetched _ rfl (fun _ => rfl) (fun _ _ _ => rfl) (fun _ => rfl) t d).trans rfl
theorem before_4 (c : Dev nD) (t : Fin cfg3.N) (d) : (dat V c).before 4 t d = (dat V c).after 4 t :=
  ((dat V c).before_in_eq_fetched _ rfl (fun _ => rfl) (fun _ _ _ => rfl) (fun _ => rfl) t d).trans rfl
theorem before_5 (c : Dev nD) (t : Fin cfg3.N) (d) : (dat V c).before 5 t d = (dat V c).after 5 t :=
  ((dat V c).before_in_eq_fetched _ rfl (fun _ => rfl) (fun _ _ _ => rfl) (fun _ => rfl) t d).trans rfl
theorem before_6 (c : Dev nD) (t : Fin cfg3.N) (d) : (dat V c).before 6 t d = (dat V c).after 6 t :=
  ((dat V c).before_in_eq_fetched _ rfl (fun _ => rfl) (fun _ _ _ => rfl) (fun _ => rfl) t d).trans rfl
theorem before_7 (c : Dev nD) (t : Fin cfg3.N) (d) : (dat V c).before 7 t d = (dat V c).after 7 t :=
  ((dat V c).before_in_eq_fetched _ rfl (fun _ => rfl) (fun _ _ _ => rfl) (fun _ => rfl) t d).trans rfl
theorem before_8 (c : Dev nD) (t : Fin cfg3.N) (d) : (dat V c).before 8 t d = (dat V c).after 8 t :=
  ((dat V c).before_in_eq_fetched _ rfl (fun _ => rfl) (fun _ _ _ => rfl) (fun _ => rfl) t d).trans rfl
theorem before_9 (c : Dev nD) (t : Fin cfg3.N) (d) : (dat V c).before 9 t d = (dat V c).after 9 t :=
  ((dat V c).before_in_eq_fetched _ rfl (fun _ => rfl) (fun _ _ _ => rfl) (fun _ => rfl) t d).trans rfl
theorem before_10 (c : Dev nD) (t : Fin cfg3.N) (d) : (dat V c).before 10 t d = (dat V c).after 10 t :=
  ((dat V c).before_in_eq_fetched _ rfl (fun _ => rfl) (fun _ _ _ => rfl) (fun _ => rfl) t d).trans rfl
theorem before_11 (c : Dev nD) (t : Fin cfg3.N) (d) : (dat V c).before 11 t d = (dat V c).after 11 t :=
  ((dat V c).before_in_eq_fetched _ rfl (fun _ => rfl) (fun _ _ _ => rfl) (fun _ => rfl) t d).trans rfl
theorem before_12 (c : Dev nD) (t : Fin cfg3.N) (d) : (dat V c).before 12 t d = (dat V c).after 12 t :=
  ((dat V c).before_in_eq_fetched _ rfl (fun _ => rfl) (fun _ _ _ => rfl) (fun _ => rfl) t d).trans rfl
theorem before_13 (c : Dev nD) (t : Fin cfg3.N) (d) : (dat V c).before 13 t d = (dat V c).after 13 t :=
  ((dat V c).before_in_eq_fetched _ rfl (fun _ => rfl) (fun _ _ _ => rfl) (fun _ => rfl) t d).trans rfl

theorem leaves_in (c : Dev nD) (t : Fin cfg3.N) : ∀ w : Fin cfg3.W, w.val < 14 →
    (dat V c).leavesExact w t = owns c ((cfg3.win w).stage (cfg3.slots t w)) fullShare ((dat V c).after w t) := by
  intro w; fin_cases w <;> first | exact fun h => absurd h (by decide) | exact fun _ => rfl

theorem hin (c : Dev nD) : (Pipeline.scopedRest (Ix := Unit) (Name := ℕ) (U := UR sig nD τ) (Lvl := ℕ) (Val := Elt F) spec3 c : sProp 𝕄) ⊢ (dat V c).Φ 0 := by
  rw [scopedRest3_split, Φ_eq]
  simp only [owns_whole]
  iintro ⟨⟨⟨%f0, H0⟩, ⟨%f1, H1⟩, ⟨%f2, H2⟩⟩, Hr⟩
  isplitl [Hr]; · iexact Hr
  iexists (⟨f0, f1, f2⟩ : Scr F)
  isplitr; · ipureintro; intro h; exact absurd rfl h
  isplitl [H0]; · iexact H0
  isplitl [H1]; · iexact H1
  iexact H2
theorem hout (c : Dev nD) : (dat V c).Φ (Fin.last cfg3.N) ⊢ (Pipeline.scopedRest (Ix := Unit) (Name := ℕ) (U := UR sig nD τ) (Lvl := ℕ) (Val := Elt F) spec3 c : sProp 𝕄) := by
  rw [scopedRest3_split, Φ_eq]
  simp only [owns_whole]
  iintro ⟨Hr, ⟨%s, -, H0, H1, H2⟩⟩
  isplitr [Hr]; swap; · iexact Hr
  isplitl [H0]; · iexists _; iexact H0
  isplitl [H1]; · iexists _; iexact H1
  iexists _; iexact H2

theorem idle_of (i : grid3.Coords) (h : ¬((i 1).val = 3 ∧ (i 2).val = 7)) : cfg3.idle 14 i = true ∧ cfg3.idle 15 i = true := by
  have e : (!(k3_cond5 i == 1#1)) = true := by
    rw [Bool.not_eq_true', beq_eq_false_iff_ne]; exact fun e => h ((cond5_iff i).mp e)
  exact ⟨e, e⟩

theorem live_of (i : grid3.Coords) (h : (i 1).val = 3 ∧ (i 2).val = 7) : cfg3.idle 14 i = false ∧ cfg3.idle 15 i = false := by
  have e : (!(k3_cond5 i == 1#1)) = false := by
    rw [Bool.not_eq_false', beq_iff_eq]; exact (cond5_iff i).mpr h
  exact ⟨e, e⟩

theorem step_eq (c : Dev nD) (t : Fin cfg3.N) (s : Scr F) :
    step V c t s = stepOn (t.val / 8 % 4) (t.val % 8) ((dat V c).after 0 t) ((dat V c).after 1 t) ((dat V c).after 2 t) ((dat V c).after 3 t) ((dat V c).after 4 t) ((dat V c).after 5 t) ((dat V c).after 6 t) ((dat V c).after 7 t) ((dat V c).after 8 t) ((dat V c).after 9 t) ((dat V c).after 10 t) ((dat V c).after 11 t) ((dat V c).after 12 t) ((dat V c).after 13 t) s := rfl
theorem step_scr (c : Dev nD) (t : Fin cfg3.N) (s : Scr F) (hs : t.val ≠ 0 → s = scr V c t.val) :
    stepOn (t.val / 8 % 4) (t.val % 8) ((dat V c).after 0 t) ((dat V c).after 1 t) ((dat V c).after 2 t) ((dat V c).after 3 t) ((dat V c).after 4 t) ((dat V c).after 5 t) ((dat V c).after 6 t) ((dat V c).after 7 t) ((dat V c).after 8 t) ((dat V c).after 9 t) ((dat V c).after 10 t) ((dat V c).after 11 t) ((dat V c).after 12 t) ((dat V c).after 13 t) s = scr V c (t.val + 1) := by
  rw [scr_succ, step_eq]
  by_cases h0 : t.val = 0
  · rw [h0]; exact stepOn_reset _ _ _ _ _ _ _ _ _ _ _ _ _ _ _ _
  · rw [hs h0]

set_option maxHeartbeats 2000000 in
theorem sound_body (c : Dev nD) (t : Fin cfg3.N) :
    iprop((dat V c).Φ t.castSucc ∗ (dat V c).owesAt () t.castSucc
    ∗ (∃ d, owns c (st3_0 t) fullShare ((dat V c).before 0 t d))
    ∗ (∃ d, owns c (st3_1 t) fullShare ((dat V c).before 1 t d))
    ∗ (∃ d, owns c (st3_2 t) fullShare ((dat V c).before 2 t d))
    ∗ (∃ d, owns c (st3_3 t) fullShare ((dat V c).before 3 t d))
    ∗ (∃ d, owns c (st3_4 t) fullShare ((dat V c).before 4 t d))
    ∗ (∃ d, owns c (st3_5 t) fullShare ((dat V c).before 5 t d))
    ∗ (∃ d, owns c (st3_6 t) fullShare ((dat V c).before 6 t d))
    ∗ (∃ d, owns c (st3_7 t) fullShare ((dat V c).before 7 t d))
    ∗ (∃ d, owns c (st3_8 t) fullShare ((dat V c).before 8 t d))
    ∗ (∃ d, owns c (st3_9 t) fullShare ((dat V c).before 9 t d))
    ∗ (∃ d, owns c (st3_10 t) fullShare ((dat V c).before 10 t d))
    ∗ (∃ d, owns c (st3_11 t) fullShare ((dat V c).before 11 t d))
    ∗ (∃ d, owns c (st3_12 t) fullShare ((dat V c).before 12 t d))
    ∗ (∃ d, owns c (st3_13 t) fullShare ((dat V c).before 13 t d))
    ∗ (∃ d, owns c (st3_14 t) fullShare ((dat V c).before 14 t d))
    ∗ (∃ d, owns c (st3_15 t) fullShare ((dat V c).before 15 t d)))
      ⊢ wp frame (wpE (defs₀ (F := F)) Variants.none c none) Set.univ (bodyAt3 t) (fun _ =>
    iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t ∗ (dat V c).leavesExact 5 t
    ∗ (dat V c).leavesExact 6 t ∗ (dat V c).leavesExact 7 t ∗ (dat V c).leavesExact 8 t ∗ (dat V c).leavesExact 9 t ∗ (dat V c).leavesExact 10 t ∗ (dat V c).leavesExact 11 t
    ∗ (dat V c).leavesExact 12 t ∗ (dat V c).leavesExact 13 t ∗ (dat V c).leavesExact 14 t ∗ (dat V c).leavesExact 15 t)) := by
  unfold bodyAt3
  simp only [before_0, before_1, before_2, before_3, before_4, before_5, before_6, before_7, before_8, before_9, before_10, before_11, before_12, before_13]
  simp (disch := decide) only [leaves_in]
  rw [show (dat V c).owesAt () t.succ = (dat V c).owesAt () t.castSucc from rfl, Φ_eq, Φ_eq]
  have hN : t.val < 128 := lt_of_lt_of_eq t.isLt (show cfg3.N = 128 from N_3)
  have hc1 := coord1 t
  have hc2 := coord2 t
  iintro ⟨⟨HR, %s, %hs, HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [Fin.coe_castSucc] at hs
  iapply (sound_kernel c Set.univ (grid3.coords t) ((dat V c).after 0 t) ((dat V c).after 1 t) ((dat V c).after 2 t) ((dat V c).after 3 t) ((dat V c).after 4 t) ((dat V c).after 5 t) ((dat V c).after 6 t) ((dat V c).after 7 t) ((dat V c).after 8 t) ((dat V c).after 9 t) ((dat V c).after 10 t) ((dat V c).after 11 t) ((dat V c).after 12 t) ((dat V c).after 13 t)
    ((dat V c).before 14 t d14) ((dat V c).before 15 t d15) s _)
  iframe H0 H1 H2 H3 H4 H5 H6 H7 H8 H9 H10 H11 H12 H13 H14 H15 HS0 HS1 HS2
  rw [hc1, hc2, step_scr V c t s hs]
  iintro ⟨H0, H1, H2, H3, H4, H5, H6, H7, H8, H9, H10, H11, H12, H13, H14, H15, HS0, HS1, HS2⟩
  isplitl [HR HS0 HS1 HS2]
  · isplitl [HR]; · iexact HR
    iexists (scr V c (t.val + 1))
    isplitr; · ipureintro; intro _; rw [Fin.val_succ]
    iframe
  iframe Ho H0 H1 H2 H3 H4 H5 H6 H7 H8 H9 H10 H11 H12 H13
  by_cases h31 : t.val % 32 = 31
  · have h37 : t.val / 8 % 4 = 3 ∧ t.val % 8 = 7 := by omega
    have hl := live_of (grid3.coords t) (by rw [hc1, hc2]; exact h37)
    rw [if_pos h37, if_pos h37, show (dat V c).leavesExact 14 t = owns c (st3_14 t) fullShare ((dat V c).after 14 t) from by
        unfold Dat.leavesExact; rw [hl.1], show (dat V c).leavesExact 15 t = owns c (st3_15 t) fullShare ((dat V c).after 15 t) from by
        unfold Dat.leavesExact; rw [hl.2], after_14, after_15]
    iframe
  · have h37 : ¬(t.val / 8 % 4 = 3 ∧ t.val % 8 = 7) := by omega
    have hi := idle_of (grid3.coords t) (by rw [hc1, hc2]; exact h37)
    rw [if_neg h37, if_neg h37,
      Dat.leavesExact_idle (dat V c) 14 t hi.1 (Bool.eq_false_iff.mpr fun hf => h31 ((flush3_14 t).mp hf)),
      Dat.leavesExact_idle (dat V c) 15 t hi.2 (Bool.eq_false_iff.mpr fun hf => h31 ((flush3_15 t).mp hf))]
    isplitl [H14]; · iexists d14; iexact H14
    iexists d15; iexact H15

theorem body_obligation (c : Dev nD) : BodyObligation (dat (F := F) V c) (defs₀ (F := F)) Variants.none () Set.univ := fun t => by
  rw [bigSep_W3, bigSep_W3]
  exact sound_body V c t

end Cert.KernelIdeal.Reg3

end
-- ==== Proof.Shared0.lean ====
import proofs.«403712_j45286135169680_3_alg».proof.Proof.Gen.KernelIdeal.Launch
import Idealize.ShloMosaic.Lib.Pipeline.RegionsLoop
import Idealize.ShloMosaic.Lib.Pipeline.FrameSuffix

set_option maxRecDepth 16384

noncomputable section

namespace Cert.KernelIdeal.Shared0

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (c : Dev nD) (dat : Dat τ (Elt F) Unit ℕ (UR sig nD τ) ℕ cfg0 c)
  (hq0 : dat.q 0 = fullShare.left) (hq1 : dat.q 1 = fullShare.right)
  (hq : ∀ w : Fin cfg0.W, w ≠ 0 → w ≠ 1 → dat.q w = fullShare)
  (V : (b : Ref sig .tc) → Buf (Elt F) ((c : Thread nD τ).loc b))

def arrL : List (Ref sig .tc) := [main_v0, main_v5, main_v6, main_v7, main_arg5, main_v8_0, main_v8_1, main_v8_2, main_v8_3]

theorem image_eq : Finset.univ.image (Pipeline.arrRef spec0) = arrL.toFinset := by decide

theorem arrL_nodup : arrL.Nodup := by decide

theorem split₀ : (unscopedBufs c V : sProp 𝕄) = iprop((Pipeline.arrBufs spec0 c V : sProp 𝕄) ∗ Pipeline.unscopedRest spec0 c V) :=
  Pipeline.PerCore.unscopedBufs_split₀ (P := Unit) (fun _ _ => cfg0) () c winFacts₀0.arr_unscoped V

include hq0 hq1 hq in
theorem arrays_eq (G : (w : Fin cfg0.W) → Buf (Elt F) ((cfg0.win w).arr.view.loc (c : Thread nD τ)))
    (hG : ∀ w, G w = V (Pipeline.arrRef spec0 w)) : (dat.arrays G : sProp 𝕄) = Pipeline.arrBufs spec0 c V := by
  have hw : ∀ (w : Fin cfg0.W) (b : Ref sig .tc) (q : PosShare TreeShare), Pipeline.arrRef spec0 w = b → dat.share w = q →
      ((cfg0.win w).arr.view.loc (c : Thread nD τ) ↦[(cfg0.win w).arr.view.set]{dat.share w} G w : sProp 𝕄)
        = ((c : Thread nD τ).loc b ↦{q} V b) :=
    fun w b q hb hs => by subst hb; rw [(arr_whole0 w).set_eq_univ, hG w, hs]
  have hr : ∀ w : Fin cfg0.W, w ≠ 0 → w ≠ 1 → dat.share w = fullShare :=
    fun w h0 h1 => by unfold Dat.share; rw [hq w h0 h1]; exact ite_self _
  have eq : ∀ {P Q : sProp 𝕄}, (P ⊣⊢ Q) → P = Q := fun h => equiv_iff.mp ⟨h.1, h.2⟩
  unfold Dat.arrays Pipeline.arrBufs
  rw [bigSep_W0, bigSep_eq_bigSepL_of_eq arrL image_eq arrL_nodup]
  exact (congrArg₂ BIBase.sep (hw 0 main_v0 fullShare.left rfl (by unfold Dat.share; rw [hq0]; rfl))
    (congrArg₂ BIBase.sep (hw 1 main_v0 fullShare.right rfl (by unfold Dat.share; rw [hq1]; rfl))
    (congrArg₂ BIBase.sep (hw 2 main_v5 _ rfl (hr 2 (by decide) (by decide)))
    (congrArg₂ BIBase.sep (hw 3 main_v6 _ rfl (hr 3 (by decide) (by decide)))
    (congrArg₂ BIBase.sep (hw 4 main_v7 _ rfl (hr 4 (by decide) (by decide)))
    (congrArg₂ BIBase.sep (hw 5 main_arg5 _ rfl (hr 5 (by decide) (by decide)))
    (congrArg₂ BIBase.sep (hw 6 main_v8_0 _ rfl (hr 6 (by decide) (by decide)))
    (congrArg₂ BIBase.sep (hw 7 main_v8_1 _ rfl (hr 7 (by decide) (by decide)))
    (congrArg₂ BIBase.sep (hw 8 main_v8_2 _ rfl (hr 8 (by decide) (by decide)))
      (hw 9 main_v8_3 _ rfl (hr 9 (by decide) (by decide)))))))))))).trans
    ((eq Laws.sep_assoc).symm.trans
      (congrArg (BIBase.sep · _) (eq (pointsTo_share (PosShare.mem_left_op_right fullShare))).symm))

include hq0 hq1 hq in
theorem entry (hA : ∀ w, dat.A w = V (Pipeline.arrRef spec0 w)) :
    (unscopedBufs c V : sProp 𝕄) ⊢ iprop(dat.arrays (dat.arrAt · 0) ∗ Pipeline.unscopedRest spec0 c V) := by
  rw [split₀ c V, arrays_eq c dat hq0 hq1 hq V (dat.arrAt · 0) hA]

include hq0 hq1 hq in
theorem exit (V' : (b : Ref sig .tc) → Buf (Elt F) ((c : Thread nD τ).loc b))
    (hF : ∀ w, dat.arrAt w cfg0.N = V' (Pipeline.arrRef spec0 w))
    (hrest : ∀ b, b ∉ Finset.univ.image (Pipeline.arrRef spec0) → V' b = V b) :
    iprop(dat.arrays (dat.arrAt · cfg0.N) ∗ Pipeline.unscopedRest spec0 c V) ⊢ (unscopedBufs c V' : sProp 𝕄) := by
  rw [split₀ c V', arrays_eq c dat hq0 hq1 hq V' (dat.arrAt · cfg0.N) hF]
  refine sep_mono .rfl (Entails.of_eq ?_)
  unfold Pipeline.unscopedRest
  exact bigSep_congr fun b hb => by rw [hrest b (Finset.mem_sdiff.mp hb).2]

end Cert.KernelIdeal.Shared0
-- ==== Proof.Shared1.lean ====
import proofs.«403712_j45286135169680_3_alg».proof.Proof.Gen.KernelIdeal.Launch
import Idealize.ShloMosaic.Lib.Pipeline.RegionsLoop
import Idealize.ShloMosaic.Lib.Pipeline.FrameSuffix

set_option maxRecDepth 16384

noncomputable section

namespace Cert.KernelIdeal.Shared1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (c : Dev nD) (dat : Dat τ (Elt F) Unit ℕ (UR sig nD τ) ℕ cfg1 c)
  (hq0 : dat.q 0 = fullShare.left) (hq1 : dat.q 1 = fullShare.right)
  (hq : ∀ w : Fin cfg1.W, w ≠ 0 → w ≠ 1 → dat.q w = fullShare)
  (V : (b : Ref sig .tc) → Buf (Elt F) ((c : Thread nD τ).loc b))

def arrL : List (Ref sig .tc) := [main_v1, main_v12, main_v13, main_v14, main_arg6, main_v15_0, main_v15_1, main_v15_2, main_v15_3]

theorem image_eq : Finset.univ.image (Pipeline.arrRef spec1) = arrL.toFinset := by decide

theorem arrL_nodup : arrL.Nodup := by decide

theorem split₀ : (unscopedBufs c V : sProp 𝕄) = iprop((Pipeline.arrBufs spec1 c V : sProp 𝕄) ∗ Pipeline.unscopedRest spec1 c V) :=
  Pipeline.PerCore.unscopedBufs_split₀ (P := Unit) (fun _ _ => cfg1) () c winFacts₀1.arr_unscoped V

include hq0 hq1 hq in
theorem arrays_eq (G : (w : Fin cfg1.W) → Buf (Elt F) ((cfg1.win w).arr.view.loc (c : Thread nD τ)))
    (hG : ∀ w, G w = V (Pipeline.arrRef spec1 w)) : (dat.arrays G : sProp 𝕄) = Pipeline.arrBufs spec1 c V := by
  have hw : ∀ (w : Fin cfg1.W) (b : Ref sig .tc) (q : PosShare TreeShare), Pipeline.arrRef spec1 w = b → dat.share w = q →
      ((cfg1.win w).arr.view.loc (c : Thread nD τ) ↦[(cfg1.win w).arr.view.set]{dat.share w} G w : sProp 𝕄)
        = ((c : Thread nD τ).loc b ↦{q} V b) :=
    fun w b q hb hs => by subst hb; rw [(arr_whole1 w).set_eq_univ, hG w, hs]
  have hr : ∀ w : Fin cfg1.W, w ≠ 0 → w ≠ 1 → dat.share w = fullShare :=
    fun w h0 h1 => by unfold Dat.share; rw [hq w h0 h1]; exact ite_self _
  have eq : ∀ {P Q : sProp 𝕄}, (P ⊣⊢ Q) → P = Q := fun h => equiv_iff.mp ⟨h.1, h.2⟩
  unfold Dat.arrays Pipeline.arrBufs
  rw [bigSep_W1, bigSep_eq_bigSepL_of_eq arrL image_eq arrL_nodup]
  exact (congrArg₂ BIBase.sep (hw 0 main_v1 fullShare.left rfl (by unfold Dat.share; rw [hq0]; rfl))
    (congrArg₂ BIBase.sep (hw 1 main_v1 fullShare.right rfl (by unfold Dat.share; rw [hq1]; rfl))
    (congrArg₂ BIBase.sep (hw 2 main_v12 _ rfl (hr 2 (by decide) (by decide)))
    (congrArg₂ BIBase.sep (hw 3 main_v13 _ rfl (hr 3 (by decide) (by decide)))
    (congrArg₂ BIBase.sep (hw 4 main_v14 _ rfl (hr 4 (by decide) (by decide)))
    (congrArg₂ BIBase.sep (hw 5 main_arg6 _ rfl (hr 5 (by decide) (by decide)))
    (congrArg₂ BIBase.sep (hw 6 main_v15_0 _ rfl (hr 6 (by decide) (by decide)))
    (congrArg₂ BIBase.sep (hw 7 main_v15_1 _ rfl (hr 7 (by decide) (by decide)))
    (congrArg₂ BIBase.sep (hw 8 main_v15_2 _ rfl (hr 8 (by decide) (by decide)))
      (hw 9 main_v15_3 _ rfl (hr 9 (by decide) (by decide)))))))))))).trans
    ((eq Laws.sep_assoc).symm.trans
      (congrArg (BIBase.sep · _) (eq (pointsTo_share (PosShare.mem_left_op_right fullShare))).symm))

include hq0 hq1 hq in
theorem entry (hA : ∀ w, dat.A w = V (Pipeline.arrRef spec1 w)) :
    (unscopedBufs c V : sProp 𝕄) ⊢ iprop(dat.arrays (dat.arrAt · 0) ∗ Pipeline.unscopedRest spec1 c V) := by
  rw [split₀ c V, arrays_eq c dat hq0 hq1 hq V (dat.arrAt · 0) hA]

include hq0 hq1 hq in
theorem exit (V' : (b : Ref sig .tc) → Buf (Elt F) ((c : Thread nD τ).loc b))
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  rw [split₀ c V', arrays_eq c dat hq0 hq1 hq V' (dat.arrAt · cfg1.N) hF]
  refine sep_mono .rfl (Entails.of_eq ?_)
  unfold Pipeline.unscopedRest
  exact bigSep_congr fun b hb => by rw [hrest b (Finset.mem_sdiff.mp hb).2]

end Cert.KernelIdeal.Shared1
-- ==== Proof.Run.lean ====
import proofs.«403712_j45286135169680_3_alg».proof.Proof.Gen.KernelIdeal.Regions
import proofs.«403712_j45286135169680_3_alg».proof.Proof.Region0
import proofs.«403712_j45286135169680_3_alg».proof.Proof.Region1
import proofs.«403712_j45286135169680_3_alg».proof.Proof.Region2
import proofs.«403712_j45286135169680_3_alg».proof.Proof.Region3
import proofs.«403712_j45286135169680_3_alg».proof.Proof.Shared0
import proofs.«403712_j45286135169680_3_alg».proof.Proof.Shared1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev atRef (W : Dev nD → Valuation τ sig (Elt F)) (c : Dev nD) (b : Ref sig .tc) : Buf (Elt F) ((c : Thread nD τ).loc b) := W c b
abbrev En3 := atRef (W3 m)
def out0 (c : Dev nD) (w : Fin cfg0.W) : Buf (Elt F) ((c : Thread nD τ).loc (Pipeline.arrRef spec0 w)) :=
  (Reg0.dat (En3 m) c).arrAt w cfg0.N
def W4 (c : Dev nD) : Valuation τ sig (Elt F) :=
  Function.update (Function.update (Function.update (Function.update (W3 m c) (Proc.devRef .tc (Pipeline.arrRef spec0 6)) (out0 m c 6)) (Proc.devRef .tc (Pipeline.arrRef spec0 7)) (out0 m c 7)) (Proc.devRef .tc (Pipeline.arrRef spec0 8)) (out0 m c 8)) (Proc.devRef .tc (Pipeline.arrRef spec0 9)) (out0 m c 9)
theorem W4_of_ne (c : Dev nD) (b : Ref sig .tc) (hb : b ∉ ([Pipeline.arrRef spec0 6, Pipeline.arrRef spec0 7, Pipeline.arrRef spec0 8, Pipeline.arrRef spec0 9] : List (Ref sig .tc))) :
    W4 m c (Proc.devRef .tc b) = W3 m c (Proc.devRef .tc b) := by
  unfold W4
  repeat rw [Function.update_of_ne (StableHlo.devRef_ne_of_ne (fun h => hb (by rw [h]; simp)))]
theorem W4_out6 (c : Dev nD) : W4 m c (Proc.devRef .tc (Pipeline.arrRef spec0 6)) = out0 m c 6 := by
  unfold W4
  repeat rw [Function.update_of_ne (StableHlo.devRef_ne_of_ne (by decide))]
  rw [Function.update_self]
theorem W4_out7 (c : Dev nD) : W4 m c (Proc.devRef .tc (Pipeline.arrRef spec0 7)) = out0 m c 7 := by
  unfold W4
  repeat rw [Function.update_of_ne (StableHlo.devRef_ne_of_ne (by decide))]
  rw [Function.update_self]
theorem W4_out8 (c : Dev nD) : W4 m c (Proc.devRef .tc (Pipeline.arrRef spec0 8)) = out0 m c 8 := by
  unfold W4
  repeat rw [Function.update_of_ne (StableHlo.devRef_ne_of_ne (by decide))]
  rw [Function.update_self]
theorem W4_out9 (c : Dev nD) : W4 m c (Proc.devRef .tc (Pipeline.arrRef spec0 9)) = out0 m c 9 :=
  Function.update_self ..
theorem hF0 (c : Dev nD) (w : Fin cfg0.W) : (Reg0.dat (En3 m) c).arrAt w cfg0.N = W4 m c (Pipeline.arrRef spec0 w) := by
  by_cases h : (cfg0.win w).isOut = false
  · exact (((Reg0.dat (En3 m) c).arrAt_in w h cfg0.N).trans (Reg0.A_eq (En3 m) c w)).trans (W4_of_ne m c _ (by revert w; decide)).symm
  rcases (by revert w; decide : w = 6 ∨ w = 7 ∨ w = 8 ∨ w = 9) with rfl | rfl | rfl | rfl
  exacts [(W4_out6 m c).symm, (W4_out7 m c).symm, (W4_out8 m c).symm, (W4_out9 m c).symm]

abbrev W5 : Dev nD → Valuation τ sig (Elt F) := fun c => StableHlo.after hostOps1 (W4 m c)
abbrev En5 := atRef (W5 m)
def out1 (c : Dev nD) (w : Fin cfg1.W) : Buf (Elt F) ((c : Thread nD τ).loc (Pipeline.arrRef spec1 w)) :=
  (Reg1.dat (En5 m) c).arrAt w cfg1.N
def W6 (c : Dev nD) : Valuation τ sig (Elt F) :=
  Function.update (Function.update (Function.update (Function.update (W5 m c) (Proc.devRef .tc (Pipeline.arrRef spec1 6)) (out1 m c 6)) (Proc.devRef .tc (Pipeline.arrRef spec1 7)) (out1 m c 7)) (Proc.devRef .tc (Pipeline.arrRef spec1 8)) (out1 m c 8)) (Proc.devRef .tc (Pipeline.arrRef spec1 9)) (out1 m c 9)
theorem W6_of_ne (c : Dev nD) (b : Ref sig .tc) (hb : b ∉ ([Pipeline.arrRef spec1 6, Pipeline.arrRef spec1 7, Pipeline.arrRef spec1 8, Pipeline.arrRef spec1 9] : List (Ref sig .tc))) :
    W6 m c (Proc.devRef .tc b) = W5 m c (Proc.devRef .tc b) := by
  unfold W6
  repeat rw [Function.update_of_ne (StableHlo.devRef_ne_of_ne (fun h => hb (by rw [h]; simp)))]
theorem W6_out6 (c : Dev nD) : W6 m c (Proc.devRef .tc (Pipeline.arrRef spec1 6)) = out1 m c 6 := by
  unfold W6
  repeat rw [Function.update_of_ne (StableHlo.devRef_ne_of_ne (by decide))]
  rw [Function.update_self]
theorem W6_out7 (c : Dev nD) : W6 m c (Proc.devRef .tc (Pipeline.arrRef spec1 7)) = out1 m c 7 := by
  unfold W6
  repeat rw [Function.update_of_ne (StableHlo.devRef_ne_of_ne (by decide))]
  rw [Function.update_self]
theorem W6_out8 (c : Dev nD) : W6 m c (Proc.devRef .tc (Pipeline.arrRef spec1 8)) = out1 m c 8 := by
  unfold W6
  repeat rw [Function.update_of_ne (StableHlo.devRef_ne_of_ne (by decide))]
  rw [Function.update_self]
theorem W6_out9 (c : Dev nD) : W6 m c (Proc.devRef .tc (Pipeline.arrRef spec1 9)) = out1 m c 9 :=
  Function.update_self ..
theorem hF1 (c : Dev nD) (w : Fin cfg1.W) : (Reg1.dat (En5 m) c).arrAt w cfg1.N = W6 m c (Pipeline.arrRef spec1 w) := by
  by_cases h : (cfg1.win w).isOut = false
  · exact (((Reg1.dat (En5 m) c).arrAt_in w h cfg1.N).trans (Reg1.A_eq (En5 m) c w)).trans (W6_of_ne m c _ (by revert w; decide)).symm
  rcases (by revert w; decide : w = 6 ∨ w = 7 ∨ w = 8 ∨ w = 9) with rfl | rfl | rfl | rfl
  exacts [(W6_out6 m c).symm, (W6_out7 m c).symm, (W6_out8 m c).symm, (W6_out9 m c).symm]

abbrev W7 : Dev nD → Valuation τ sig (Elt F) := fun c => StableHlo.after hostOps2 (W6 m c)
abbrev En7 := atRef (W7 m)
def out2 (c : Dev nD) (w : Fin cfg2.W) : Buf (Elt F) ((c : Thread nD τ).loc (Pipeline.arrRef spec2 w)) :=
  (Reg2.dat (En7 m) c).arrAt w cfg2.N
def W8 (c : Dev nD) : Valuation τ sig (Elt F) :=
  Function.update (W7 m c) (Proc.devRef .tc (Pipeline.arrRef spec2 3)) (out2 m c 3)
theorem W8_of_ne (c : Dev nD) (b : Ref sig .tc) (hb : b ∉ ([Pipeline.arrRef spec2 3] : List (Ref sig .tc))) :
    W8 m c (Proc.devRef .tc b) = W7 m c (Proc.devRef .tc b) := by
  unfold W8
  repeat rw [Function.update_of_ne (StableHlo.devRef_ne_of_ne (fun h => hb (by rw [h]; simp)))]
theorem W8_out3 (c : Dev nD) : W8 m c (Proc.devRef .tc (Pipeline.arrRef spec2 3)) = out2 m c 3 :=
  Function.update_self ..
theorem hF2 (c : Dev nD) (w : Fin cfg2.W) : (Reg2.dat (En7 m) c).arrAt w cfg2.N = W8 m c (Pipeline.arrRef spec2 w) := by
  by_cases h : (cfg2.win w).isOut = false
  · exact (((Reg2.dat (En7 m) c).arrAt_in w h cfg2.N).trans (Reg2.A_eq (En7 m) c w)).trans (W8_of_ne m c _ (by revert w; decide)).symm
  rcases (by revert w; decide : w = 3) with rfl
  exacts [(W8_out3 m c).symm]

abbrev W9 : Dev nD → Valuation τ sig (Elt F) := fun c => StableHlo.after hostOps3 (W8 m c)
abbrev En9 := atRef (W9 m)
def out3 (c : Dev nD) (w : Fin cfg3.W) : Buf (Elt F) ((c : Thread nD τ).loc (Pipeline.arrRef spec3 w)) :=
  (Reg3.dat (En9 m) c).arrAt w cfg3.N
def W10 (c : Dev nD) : Valuation τ sig (Elt F) :=
  Function.update (Function.update (W9 m c) (Proc.devRef .tc (Pipeline.arrRef spec3 14)) (out3 m c 14)) (Proc.devRef .tc (Pipeline.arrRef spec3 15)) (out3 m c 15)
theorem W10_of_ne (c : Dev nD) (b : Ref sig .tc) (hb : b ∉ ([Pipeline.arrRef spec3 14, Pipeline.arrRef spec3 15] : List (Ref sig .tc))) :
    W10 m c (Proc.devRef .tc b) = W9 m c (Proc.devRef .tc b) := by
  unfold W10
  repeat rw [Function.update_of_ne (StableHlo.devRef_ne_of_ne (fun h => hb (by rw [h]; simp)))]
theorem W10_out14 (c : Dev nD) : W10 m c (Proc.devRef .tc (Pipeline.arrRef spec3 14)) = out3 m c 14 := by
  unfold W10
  repeat rw [Function.update_of_ne (StableHlo.devRef_ne_of_ne (by decide))]
  rw [Function.update_self]
theorem W10_out15 (c : Dev nD) : W10 m c (Proc.devRef .tc (Pipeline.arrRef spec3 15)) = out3 m c 15 :=
  Function.update_self ..
theorem hF3 (c : Dev nD) (w : Fin cfg3.W) : (Reg3.dat (En9 m) c).arrAt w cfg3.N = W10 m c (Pipeline.arrRef spec3 w) := by
  by_cases h : (cfg3.win w).isOut = false
  · exact (((Reg3.dat (En9 m) c).arrAt_in w h cfg3.N).trans (Reg3.A_eq (En9 m) c w)).trans (W10_of_ne m c _ (by revert w; decide)).symm
  rcases (by revert w; decide : w = 14 ∨ w = 15) with rfl | rfl
  exacts [(W10_out14 m c).symm, (W10_out15 m c).symm]

abbrev W11 : Dev nD → Valuation τ sig (Elt F) := fun c => StableHlo.after hostOps4 (W10 m c)

/-- A reference outside the image of `f` is none of the `f w`. -/
theorem nmem_map {n : ℕ} {f : Fin n → Ref sig .tc} {b : Ref sig .tc} (hb : b ∉ Finset.univ.image f) (l : List (Fin n)) : b ∉ l.map f :=
  fun h => let ⟨w, _, e⟩ := List.mem_map.mp h; hb (e ▸ Finset.mem_image_of_mem f (Finset.mem_univ w))

def pdats : (p : Fin 4) → (c : Dev nD) → Dat τ (Elt F) Unit ℕ (UR sig nD τ) ℕ (Pipeline.pin (pcfgs (F := F)) adm p) c
  | ⟨0, _⟩ => Reg0.dat (En3 m)
  | ⟨1, _⟩ => Reg1.dat (En5 m)
  | ⟨2, _⟩ => Reg2.dat (En7 m)
  | ⟨3, _⟩ => Reg3.dat (En9 m)
abbrev 𝒱₀ : Variants := Variants.none
abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev cf (F : FTy → Type) [FloatOps F] (p : Fin 4) : Cfg sig Λ₀ := Pipeline.pin (pcfgs (F := F)) adm p

theorem owed0 (p : Fin 4) (c : Dev nD) (t) : (pdats m p c).owed t = 0 := by fin_cases p <;> rfl
theorem owesAt_in (p : Fin 4) (c : Dev nD) : R c ⊢ (pdats m p c).owesAt () 0 := by
  fin_cases p <;>
    (iintro ⟨%W, HO⟩; iexists W; isplitr; (· ipureintro; exact fun _ _ => Or.inl trivial); iexact HO)
theorem owesAt_out (p : Fin 4) (c : Dev nD) : (pdats m p c).owesAt () (Fin.last _) ⊢ R c := by
  fin_cases p <;> (iintro ⟨%W, -, HO⟩; iexists W; iexact HO)
theorem pref_emp (p : Fin 4) (c : Dev nD) : (Pipeline.prefHeld (pcfgs (F := F) p).pre c (fun _ => fullShare) (adm p).1 : sProp 𝕄) = BI.emp := by
  fin_cases p <;> (unfold Pipeline.prefHeld; rw [show (Finset.univ : Finset (Fin 0)) = ∅ from rfl, BI.bigSep_empty])

set_option backward.isDefEq.respectTransparency.types false

def regionSeg (p : Fin 4) (W W' : Dev nD → Valuation τ sig (Elt F)) (win : Pipeline.WinFacts₀ (pcfgs (F := F) p).spec)
    (block_pos : ∀ w : Fin (cf F p).W, 0 < ((cf F p).spec w).block.numel)
    (stage_whole : ∀ (w : Fin (cf F p).W) (s : Fin ((cf F p).spec w).nbuf), (((cf F p).spec w).stage s).IsWhole)
    (hbody : ∀ c, BodyObligation (pdats m p c) defs₀ 𝒱₀ () Set.univ)
    (hsplit : ∀ c, (unscopedBufs c (atRef W c) : sProp 𝕄)
      ⊢ iprop((pdats m p c).arrays ((pdats m p c).arrAt · 0) ∗ Pipeline.unscopedRest (cf F p).spec c (atRef W c)))
    (hjoin : ∀ c, iprop((pdats m p c).arrays ((pdats m p c).arrAt · (cf F p).N) ∗ Pipeline.unscopedRest (cf F p).spec c (atRef W c))
      ⊢ (unscopedBufs c (atRef W' c) : sProp 𝕄))
    (hI : ∀ c, (Pipeline.scopedRest (cf F p).spec c : sProp 𝕄) ⊢ (pdats m p c).Φ 0)
    (hO : ∀ c, (pdats m p c).Φ (Fin.last (cf F p).N) ⊢ (Pipeline.scopedRest (cf F p).spec c : sProp 𝕄)) :
    Pipeline.RegionSeg (pcfgs (F := F)) adm (pdats m) () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p (owed0 m p)
  pre c := iprop(StableHlo.held (c : Thread nD τ) (Pipeline.ucRefs τ sig) (W c) ∗ R c)
  post c := iprop(StableHlo.held (c : Thread nD τ) (Pipeline.ucRefs τ sig) (W' c) ∗ R c)
  X _ := BI.emp
  Y _ := BI.emp
  Z c := Pipeline.unscopedRest (cf F p).spec c (atRef W c)
  hentry c := by
    have hs := hsplit c
    rw [Pipeline.unscopedBufs_held] at hs
    rw [Pipeline.ownSems0_none, pref_emp]
    iintro ⟨⟨Hb, HO⟩, -, -⟩
    ihave H := hs $$ Hb
    icases H with ⟨Ha, Hz⟩
    ihave HO := owesAt_in m p c $$ HO
    imodintro
    iframe
    isplitr <;> iempintro
  hin c := by
    iintro ⟨-, -, H⟩
    iapply (hI c)
    iexact H
  hout c := by
    rw [Pipeline.ownSems0_none]
    exact (hO c).trans (emp_sep_intro.trans (sep_mono_r emp_sep_intro))
  hexit c := by
    have hj := hjoin c
    rw [Pipeline.unscopedBufs_held] at hj
    iintro ⟨Ha, HO, -, Hz⟩
    ihave HO := owesAt_out m p c $$ HO
    ihave Hb := hj $$ [Ha Hz]
    · iframe
    imodintro
    iframe

def reg0 := regionSeg m 0 (W3 m) (W4 m) winFacts₀0 block_pos0 stage_whole0 (Reg0.body_obligation (En3 m))
  (fun c => Shared0.entry c (Reg0.dat (En3 m) c) (Reg0.q_0 _ c) (Reg0.q_1 _ c) (Reg0.q_rest _ c) _ (Reg0.A_eq _ c))
  (fun c => Shared0.exit c (Reg0.dat (En3 m) c) (Reg0.q_0 _ c) (Reg0.q_1 _ c) (Reg0.q_rest _ c) _ _ (hF0 m c)
    fun b hb => W4_of_ne m c b (nmem_map hb [6, 7, 8, 9]))
  (Reg0.hin _) (Reg0.hout _)
def reg1 := regionSeg m 1 (W5 m) (W6 m) winFacts₀1 block_pos1 stage_whole1 (Reg1.body_obligation (En5 m))
  (fun c => Shared1.entry c (Reg1.dat (En5 m) c) (Reg1.q_0 _ c) (Reg1.q_1 _ c) (Reg1.q_rest _ c) _ (Reg1.A_eq _ c))
  (fun c => Shared1.exit c (Reg1.dat (En5 m) c) (Reg1.q_0 _ c) (Reg1.q_1 _ c) (Reg1.q_rest _ c) _ _ (hF1 m c)
    fun b hb => W6_of_ne m c b (nmem_map hb [6, 7, 8, 9]))
  (Reg1.hin _) (Reg1.hout _)
def reg2 := regionSeg m 2 (W7 m) (W8 m) launch2.win.to₀ launch2.block_pos launch2.stage_whole (Reg2.body_obligation (En7 m))
  (fun c => Pipeline.arrays_of_unscopedBufs (p := 2) (pcfgs (F := F)) adm (pdats m) launch2.win launch2.arr_whole c
    ((pdats m 2 c).share_full fun _ => rfl) _ fun _ => rfl)
  (fun c => Pipeline.unscopedBufs_of_arrays (p := 2) (pcfgs (F := F)) adm launch2.win launch2.arr_whole c (pdats m)
    ((pdats m 2 c).share_full fun _ => rfl) _ _ _ (hF2 m c) fun b hb => W8_of_ne m c b (nmem_map hb [3]))
  (Reg2.hin _) (Reg2.hout _)
def reg3 := regionSeg m 3 (W9 m) (W10 m) launch3.win.to₀ launch3.block_pos launch3.stage_whole (Reg3.body_obligation (En9 m))
  (fun c => Pipeline.arrays_of_unscopedBufs (p := 3) (pcfgs (F := F)) adm (pdats m) launch3.win launch3.arr_whole c
    ((pdats m 3 c).share_full fun _ => rfl) _ fun _ => rfl)
  (fun c => Pipeline.unscopedBufs_of_arrays (p := 3) (pcfgs (F := F)) adm launch3.win launch3.arr_whole c (pdats m)
    ((pdats m 3 c).share_full fun _ => rfl) _ _ _ (hF3 m c) fun b hb => W10_of_ne m c b (nmem_map hb [14, 15]))
  (Reg3.hin _) (Reg3.hout _)

abbrev u₀ := initOf (Pipeline.cells cfgs cellOf_inj) (Pipeline.launchToks cfgs cellOf_inj)
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

/-- Every fair run terminates, and ends with each of these buffers at `W11`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main
    (fun _ => segs m)
    (fun c Q => by
      rewrite [main_chain c, Pipeline.Seg.run_eq_chain]
      dsimp only [segs, List.map, Pipeline.Seg.prog, hseg, Pipeline.HostSeg.ofOps]
      exact .rfl)
    (fun c => by simp only [segs, Pipeline.Seg.pipes_host, Pipeline.Seg.pipes_region, Pipeline.Seg.pipes_nil]; decide)
    (O₀ := 0) (hL := fun _ _ => rfl) (G := fun _ => BI.emp)
    (u₀ := u₀)
    (hu₀ := by
      rw [BI.bigSep_emp_const]
      exact (show (ownU u₀ : sProp 𝕄) ⊢ iprop(BI.own (emb₁ u₀) ∗ BI.emp) from sep_emp_intro).trans fupd_intro)
    (T₀ := fun c => iprop(StableHlo.held (c : Thread nD τ) (Pipeline.ucRefs τ sig) (W0 m c) ∗ R c))
    (Tₙ := fun c => StableHlo.held (c : Thread nD τ) (Pipeline.ucRefs τ sig) (W11 m c))
    (hch := fun c => ⟨.rfl, .rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -⟩, -⟩
      imodintro
      iframe Hh
      iexists ∅
      iexact HO)
    (QY := fun c s => ∀ b ∈ Pipeline.ucRefs τ sig, s.mem (((c : Thread nD τ)).1, b) = W11 m c b)
    (hfin := fun c s' => (pointsTo_read_all (Pipeline.ucRefs τ sig) (fun b => (((c : Thread nD τ)).1, b)) (W11 m c) s').trans fupd_intro)
    (hQ := fun s h c => h c)

end Cert.KernelIdeal.Run

end
-- ==== Proof.Keep.lean ====
import proofs.«403712_j45286135169680_3_alg».proof.Proof.Run

set_option maxRecDepth 16384

noncomputable section

namespace Cert.KernelIdeal.Run

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (c : Dev nD) (r : Ref sig .tc)

theorem W1_of (h : r ∉ hostOps0_W) : W1 m c (Proc.devRef .tc r) = W0 m c (Proc.devRef .tc r) :=
  StableHlo.after_of_writes_sub hostOps0 _ hostOps0_writes h
theorem W2_of (h : r ∉ hostOps0_1_W) : W2 m c (Proc.devRef .tc r) = W1 m c (Proc.devRef .tc r) :=
  StableHlo.after_of_writes_sub hostOps0_1 _ hostOps0_1_writes h
theorem W3_of (h : r ∉ hostOps0_2_W) : W3 m c (Proc.devRef .tc r) = W2 m c (Proc.devRef .tc r) :=
  StableHlo.after_of_writes_sub hostOps0_2 _ hostOps0_2_writes h
theorem W5_of (h : r ∉ hostOps1_W) : W5 m c (Proc.devRef .tc r) = W4 m c (Proc.devRef .tc r) :=
  StableHlo.after_of_writes_sub hostOps1 _ hostOps1_writes h
theorem W7_of (h : r ∉ hostOps2_W) : W7 m c (Proc.devRef .tc r) = W6 m c (Proc.devRef .tc r) :=
  StableHlo.after_of_writes_sub hostOps2 _ hostOps2_writes h
theorem W9_of (h : r ∉ hostOps3_W) : W9 m c (Proc.devRef .tc r) = W8 m c (Proc.devRef .tc r) :=
  StableHlo.after_of_writes_sub hostOps3 _ hostOps3_writes h
theorem W11_of (h : r ∉ hostOps4_W) : W11 m c (Proc.devRef .tc r) = W10 m c (Proc.devRef .tc r) :=
  StableHlo.after_of_writes_sub hostOps4 _ hostOps4_writes h

-- A buffer no item writes ends the run as launched.
theorem W11_keep (h : r ∉ hostOps4_W ∧ r ∉ [Pipeline.arrRef spec3 14, Pipeline.arrRef spec3 15] ∧ r ∉ hostOps3_W
      ∧ r ∉ [Pipeline.arrRef spec2 3] ∧ r ∉ hostOps2_W
      ∧ r ∉ [Pipeline.arrRef spec1 6, Pipeline.arrRef spec1 7, Pipeline.arrRef spec1 8, Pipeline.arrRef spec1 9] ∧ r ∉ hostOps1_W
      ∧ r ∉ [Pipeline.arrRef spec0 6, Pipeline.arrRef spec0 7, Pipeline.arrRef spec0 8, Pipeline.arrRef spec0 9]
      ∧ r ∉ hostOps0_2_W ∧ r ∉ hostOps0_1_W ∧ r ∉ hostOps0_W) :
    W11 m c (Proc.devRef .tc r) = m ((c : Thread nD τ).loc r) := by
  obtain ⟨h11, h10, h9, h8, h7, h6, h5, h4, h3, h2, h1⟩ := h
  rw [W11_of m c r h11, W10_of_ne m c r h10, W9_of m c r h9, W8_of_ne m c r h8, W7_of m c r h7, W6_of_ne m c r h6,
    W5_of m c r h5, W4_of_ne m c r h4, W3_of m c r h3, W2_of m c r h2, W1_of m c r h1]

theorem W11_arg0 : W11 m c (Proc.devRef .tc main_arg0) = m ((c : Thread nD τ).loc main_arg0) := W11_keep m c _ (by decide)
theorem W11_arg1 : W11 m c (Proc.devRef .tc main_arg1) = m ((c : Thread nD τ).loc main_arg1) := W11_keep m c _ (by decide)
theorem W11_arg2 : W11 m c (Proc.devRef .tc main_arg2) = m ((c : Thread nD τ).loc main_arg2) := W11_keep m c _ (by decide)
theorem W11_arg3 : W11 m c (Proc.devRef .tc main_arg3) = m ((c : Thread nD τ).loc main_arg3) := W11_keep m c _ (by decide)
theorem W11_arg4 : W11 m c (Proc.devRef .tc main_arg4) = m ((c : Thread nD τ).loc main_arg4) := W11_keep m c _ (by decide)
theorem W11_arg5 : W11 m c (Proc.devRef .tc main_arg5) = m ((c : Thread nD τ).loc main_arg5) := W11_keep m c _ (by decide)
theorem W11_arg6 : W11 m c (Proc.devRef .tc main_arg6) = m ((c : Thread nD τ).loc main_arg6) := W11_keep m c _ (by decide)
theorem W11_arg7 : W11 m c (Proc.devRef .tc main_arg7) = m ((c : Thread nD τ).loc main_arg7) := W11_keep m c _ (by decide)
theorem W11_arg8 : W11 m c (Proc.devRef .tc main_arg8) = m ((c : Thread nD τ).loc main_arg8) := W11_keep m c _ (by decide)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c =>
    ⟨(h c _ (mem_uc main_arg0 (by decide))).trans (W11_arg0 m c),
     (h c _ (mem_uc main_arg1 (by decide))).trans (W11_arg1 m c),
     (h c _ (mem_uc main_arg2 (by decide))).trans (W11_arg2 m c),
     (h c _ (mem_uc main_arg3 (by decide))).trans (W11_arg3 m c),
     (h c _ (mem_uc main_arg4 (by decide))).trans (W11_arg4 m c),
     (h c _ (mem_uc main_arg5 (by decide))).trans (W11_arg5 m c),
     (h c _ (mem_uc main_arg6 (by decide))).trans (W11_arg6 m c),
     (h c _ (mem_uc main_arg7 (by decide))).trans (W11_arg7 m c),
     (h c _ (mem_uc main_arg8 (by decide))).trans (W11_arg8 m c)⟩) (run_all m ρ)

end Cert.KernelIdeal.Run

end
-- ==== Proof.Spec.lean ====
import Mathlib.Analysis.SpecialFunctions.Exp
import Mathlib.Analysis.Real.Sqrt
import Mathlib.Algebra.BigOperators.Ring.Finset

noncomputable section

namespace Cert.Spec

open scoped BigOperators

abbrev Mat (a b : ℕ) : Type := Fin a → Fin b → ℝ
abbrev Col (a : ℕ) : Type := Fin a → ℝ

variable (one m5 eps two : ℝ)

def en (x : Mat 4096 128) (i : Fin 4096) : ℝ := Real.sqrt (∑ k, x i k * x i k)

def gram (x y : Mat 4096 128) (i j : Fin 4096) : ℝ := ∑ k, x i k * y j k

def cosG (s : ℝ → ℝ) (x y : Mat 4096 128) (e e' : Col 4096) : Mat 4096 4096 := fun i j =>
  one - Real.exp (s (one - gram x y i j / (e i * e' j + eps)))

def cosS (x : Mat 4096 128) : Mat 4096 4096 := cosG one eps (fun u => m5 * u) x x (en x) (en x)

def cosM (x y : Mat 4096 128) : Mat 4096 4096 := cosG one eps (fun u => -u) x y (en x) (en y)

def fvec (c : Mat 4096 4096) (μ : Col 4096) : Col 4096 := fun i => ∑ j, c i j * c i j * μ j

def simv (c C : Mat 4096 4096) : Col 4096 := fun i => ∑ j, (c i j - C i j) * (c i j - C i j) * Real.exp (-(C i j))

def rsum (c : Mat 4096 4096) : Col 4096 := fun i => ∑ j, c i j
def csum (c : Mat 4096 4096) : Col 4096 := fun j => ∑ i, c i j

def tot (v : Col 4096) : ℝ := ∑ i, v i

def rCross (a b T : Mat 4096 4096) (i j : Fin 4096) : ℝ := ∑ l, (∑ k, a i k * T k l) * b j l

def kCross (a b T : Mat 4096 4096) (cs ct : ℝ) (i j : Fin 4096) : ℝ :=
  cs * ct * tot (rsum T) + cs * (∑ k, (b j k - ct) * csum T k) + ct * (∑ k, (a i k - cs) * rsum T k)
    + ∑ k, (∑ l, (a i l - cs) * T l k) * (b j k - ct)

def kDgw (a b T : Mat 4096 4096) (μs μt : Col 4096) (cs ct : ℝ) : ℝ :=
  ∑ i, ∑ j, (fvec a μs i + fvec b μt j - two * kCross a b T cs ct i j) * T i j

def rDgw (a b T : Mat 4096 4096) (μs μt : Col 4096) : ℝ :=
  ∑ i, ∑ j, (fvec a μs i + (∑ k, μt k * (b j k * b j k)) - two * rCross a b T i j) * T i j

def dw (c T : Mat 4096 4096) : ℝ := ∑ i, ∑ j, c i j * T i j

def simTot (c C : Mat 4096 4096) : ℝ := ∑ i, simv c C i

end Cert.Spec

end
-- ==== Proof.Lift.lean ====
import Idealize.ShloMosaic.PureOps.Ideal.Laws
import Mathlib.Analysis.SpecialFunctions.Sqrt

noncomputable section

namespace Cert.Lift

open Idealize.ShloMosaic
open scoped BigOperators

theorem coe_sum_univ {ι : Type} [Fintype ι] (f : ι → ℝ) :
    (∑ i, ((f i : ℝ) : EReal)) = ((∑ i, f i : ℝ) : EReal) := by
  classical
  refine Finset.induction_on Finset.univ (by simp) fun a s ha ih => ?_
  rw [Finset.sum_insert ha, Finset.sum_insert ha, ih, EReal.coe_add]

theorem add_coe (a b : ℝ) : ((a : ℝ) : EReal) + ((b : ℝ) : EReal) = ((a + b : ℝ) : EReal) :=
  (EReal.coe_add a b).symm
theorem sub_coe (a b : ℝ) : ((a : ℝ) : EReal) - ((b : ℝ) : EReal) = ((a - b : ℝ) : EReal) :=
  (EReal.coe_sub a b).symm
theorem mul_coe (a b : ℝ) : ((a : ℝ) : EReal) * ((b : ℝ) : EReal) = ((a * b : ℝ) : EReal) :=
  (EReal.coe_mul a b).symm
theorem neg_coe (a : ℝ) : -((a : ℝ) : EReal) = ((-a : ℝ) : EReal) :=
  (EReal.coe_neg a).symm
theorem zero_sub_coe (a : ℝ) : (0 : EReal) - ((a : ℝ) : EReal) = ((-a : ℝ) : EReal) := by
  rw [← EReal.coe_zero, ← EReal.coe_sub, zero_sub]

theorem div_coe_coe (a b : ℝ) (hb : b ≠ 0) :
    Ideal.div ((a : ℝ) : EReal) ((b : ℝ) : EReal) = ((a / b : ℝ) : EReal) := by
  rw [Ideal.div_coe hb, ← EReal.coe_mul, mul_one_div]

theorem exp_coe (r : ℝ) : Ideal.exp ((r : ℝ) : EReal) = ((Real.exp r : ℝ) : EReal) := rfl

theorem sqrt_coe (r : ℝ) (h : 0 ≤ r) : Ideal.sqrt ((r : ℝ) : EReal) = ((Real.sqrt r : ℝ) : EReal) := by
  rw [Ideal.sqrt_coe, if_neg (not_lt.mpr h)]

def lit (w : BitVec 32) : ℝ := (Ideal.ofBits .f32 w).toReal

-- A pattern that denotes a real denotes `lit` of itself.
private theorem coe_lit {w : BitVec 32} {r : ℝ} (h : Ideal.ofBits .f32 w = (r : EReal)) :
    Ideal.ofBits .f32 w = ((lit w : ℝ) : EReal) := by
  rw [lit, h, EReal.toReal_coe]

private theorem val_two24 : Ideal.ofBits .f32 0x4B800000#32 = ((16777216 : ℝ) : EReal) := by
  simp [Ideal.ofBits, Ideal.ieee, -EReal.coe_mul]
  norm_num
private theorem val_eps : Ideal.ofBits .f32 0x3727C5AC#32 = ((10995116 * (2 : ℝ) ^ (-40 : ℤ) : ℝ) : EReal) := by
  simp [Ideal.ofBits, Ideal.ieee, -EReal.coe_mul]

theorem lit_eps_pos : 0 < lit 0x3727C5AC#32 := by rw [lit, val_eps, EReal.toReal_coe]; positivity
theorem lit_two24_ne : lit 0x4B800000#32 ≠ 0 := by rw [lit, val_two24, EReal.toReal_coe]; norm_num

theorem ofBits_one : Ideal.ofBits .f32 0x3F800000#32 = ((lit 0x3F800000#32 : ℝ) : EReal) :=
  coe_lit (r := 1) (by simp [Ideal.ofBits, Ideal.ieee, -EReal.coe_mul]; norm_num)
theorem ofBits_negfive : Ideal.ofBits .f32 0xC0A00000#32 = ((lit 0xC0A00000#32 : ℝ) : EReal) :=
  coe_lit (r := -5) (by simp [Ideal.ofBits, Ideal.ieee, -EReal.coe_mul]; norm_num)
theorem ofBits_two : Ideal.ofBits .f32 0x40000000#32 = ((lit 0x40000000#32 : ℝ) : EReal) :=
  coe_lit (r := 2) (by simp [Ideal.ofBits, Ideal.ieee, -EReal.coe_mul]; norm_num)
theorem ofBits_eps : Ideal.ofBits .f32 0x3727C5AC#32 = ((lit 0x3727C5AC#32 : ℝ) : EReal) := coe_lit val_eps
theorem ofBits_two24 : Ideal.ofBits .f32 0x4B800000#32 = ((lit 0x4B800000#32 : ℝ) : EReal) := coe_lit val_two24
theorem ofBits_zero : Ideal.ofBits .f32 0x00000000#32 = ((0 : ℝ) : EReal) := by
  rw [Ideal.ofBits_zero_f32, EReal.coe_zero]

theorem sum_mul_self_nonneg {ι : Type} [Fintype ι] (x : ι → ℝ) : (0 : ℝ) ≤ ∑ k, x k * x k :=
  Finset.sum_nonneg fun k _ => mul_self_nonneg (x k)

end Cert.Lift
-- ==== Proof.LibGather.lean ====
import Idealize.ShloMosaic.PureOps.Ideal
import Idealize.ShloMosaic.Lib.ValueIdx

noncomputable section

namespace Cert.PackedLinear

open Idealize.ShloMosaic Idealize.ShloMosaic.ValueIdx

variable {α : Type}

private theorem idxOf_one_drop_zero :
    List.idxOf (1 : Fin 2) ((List.finRange 2).filter (· ∉ ([0] ++ [] : List (Fin 2)))) = 0 := by decide

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

-- Entry (r, j) of a gather of whole rows is the operand at row idx[r, 0], read signed and clamped into [0, N - 1], column j.
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowDims N C R wf) x idx (ix2 r j)
      = x (ix2 (⟨min (idx (ix2 r (0 : Fin 1))).toInt.toNat (N - 1), by omega⟩ : Fin N) j) := by
  unfold Host.gather
  congr 1
  funext a
  refine Fin.ext ?_
  match a with
  | ⟨0, _⟩ =>
    show (rowDims N C R wf).start (ix2 r j) idx 0 + (rowDims N C R wf).batchCoord (ix2 r j) 0
        + (rowDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl)),
      Nat.add_zero]
    unfold GatherDims.start
    rw [dif_pos (show (0 : Fin 2) ∈ (rowDims N C R wf).startIndexMap from List.mem_singleton.mpr rfl)]
    have hsi : (rowDims N C R wf).siIdx (ix2 r j) ⟨List.idxOf (0 : Fin 2) (rowDims N C R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  | ⟨1, _⟩ =>
    show (rowDims N C R wf).start (ix2 r j) idx 1 + (rowDims N C R wf).batchCoord (ix2 r j) 1
        + (rowDims N C R wf).offCoord (ix2 r j) 1 = _
    have hn : (1 : Fin 2) ∉ ([0] : List (Fin 2)) := by decide
    rw [GatherDims.batchCoord_eq_zero _ _ _ List.not_mem_nil]
    unfold GatherDims.start GatherDims.offCoord
    rw [dif_neg (show (1 : Fin 2) ∉ (rowDims N C R wf).startIndexMap from hn),
      dif_pos (show (1 : Fin 2) ∈ (rowDims N C R wf).sKept from (GatherDims.mem_sKept _ _).mpr ⟨hn, List.not_mem_nil⟩)]
    have key : ∀ (k : Nat) (hk : k < ([1] : List (Fin 2)).length), k = 0 →
        ((ix2 r j) (([1] : List (Fin 2))[k]'hk)).val = j.val := by
      intro k hk h; subst h; rfl
    simp only [Nat.zero_add]
    exact key _ _ idxOf_one_drop_zero

end Cert.PackedLinear

end
-- ==== Proof.HostK.lean ====
import proofs.«403712_j45286135169680_3_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws
import Idealize.ShloMosaic.Lib.StackMember
import proofs.«403712_j45286135169680_3_alg».proof.Proof.Spec
import proofs.«403712_j45286135169680_3_alg».proof.Proof.Lift
import proofs.«403712_j45286135169680_3_alg».proof.Proof.LibGather

noncomputable section

namespace Cert.KernelIdeal.HostK

open Idealize.ShloMosaic Idealize.ShloMosaic.TcCoe Idealize.ShloMosaic.ValueIdx
open Cert.KernelIdeal Cert.KernelIdeal.Gen
open scoped BigOperators

def orthVec (x : FVec Ideal S4096x128 .f32) : FVec Ideal S_ .f32 :=
  (fun d : FVec Ideal S128x128 .f32 =>
      Host.reduceAdd (mulf d d) (constant (F := Ideal) S_ .f32 0x00000000#32) reducesTo_S128x128_S_d0_1 h_S_)
    (subf (Host.dotGeneral dot_S128x4096_S4096x128_S128x128_1_0_0_1_n_n none (transpose S128x4096 [1, 0] x transposes_S4096x128_S128x4096_1_0) x)
      (uitofp .f32 (cmpi .eq (addi (iotaInDim S128x128 32 0) (broadcastInDim S128x128 ![] bcast_S_S128x128 (constantI S_ 32 0#32))) (iotaInDim S128x128 32 1))))

def orthK (x : FVec Ideal S4096x128 .f32) : EReal := orthVec x ix0

theorem lift1 {n k : Nat} (h : (⟨2, ![n, k]⟩ : Shape).Reduces [1] ⟨1, ![n]⟩) (p : Fin n) (j : Fin k) :
    h.lift (ix1 p) j = ix2 p j := by
  funext a
  match a with
  | ⟨0, _⟩ => rfl
  | ⟨1, _⟩ => rfl

theorem lift0 {n k : Nat} (h : (⟨2, ![n, k]⟩ : Shape).Reduces [0] ⟨1, ![k]⟩) (p : Fin k) (j : Fin n) :
    h.lift (ix1 p) j = ix2 j p := by
  funext a
  match a with
  | ⟨0, _⟩ => rfl
  | ⟨1, _⟩ => rfl

theorem bcol {α : Type} (v : S4096.Idx → α) (p : Fin 4096) :
    broadcastInDim S4096x1 ![0] bcast_S4096_S4096x1_0 v (ix2 p (0 : Fin 1)) = v (ix1 p) :=
  broadcastInDim_apply _ _ _ _ _ fun a => match a with | ⟨0, _⟩ => rfl

-- A sum of reals along one axis, started from zero, is the real sum.
theorem reduce1 {s t : Shape} {a : Fin s.rank} (h' : s.ReducesTo [a] t) (h : s.Reduces [a] t) (M : FVec Ideal s .f32)
    (f : Fin (s.size a) → ℝ) (j : t.Idx) (hM : ∀ k, M (h.lift j k) = ((f k : ℝ) : EReal)) :
    Host.reduceAdd M (constant (F := Ideal) S_ .f32 0x00000000#32) h' h_S_ j = ((∑ k, f k : ℝ) : EReal) := by
  show Ideal.hostReduceAdd h' M (Ideal.ofBits .f32 0x00000000#32) j = _
  rw [Ideal.hostReduceAdd_single h' h, Lift.ofBits_zero, EReal.coe_zero, zero_add, ← Lift.coe_sum_univ]
  exact Finset.sum_congr rfl fun k _ => hM k

def normCol (X : FVec Ideal S4096x128 .f32) : FVec Ideal S4096x1 .f32 :=
  Host.sqrt (broadcastInDim S4096x1 ![0] bcast_S4096_S4096x1_0
    (Host.reduceAdd (mulf X X) (constant (F := Ideal) S_ .f32 0x00000000#32) reducesTo_S4096x128_S4096_d1 h_S_))

theorem rownorm {V : S4096x1.Idx → EReal} {X : FVec Ideal S4096x128 .f32} (e : V = normCol X) (x : Spec.Mat 4096 128)
    (hx : ∀ p k, X (ix2 p k) = ((x p k : ℝ) : EReal)) (p : Fin 4096) :
    V (ix2 p (0 : Fin 1)) = ((Spec.en x p : ℝ) : EReal) := by
  subst e
  have hR : S4096x128.Reduces [1] S4096 := by decide
  show Ideal.sqrt (broadcastInDim S4096x1 ![0] bcast_S4096_S4096x1_0
      (Host.reduceAdd (mulf X X) (constant (F := Ideal) S_ .f32 0x00000000#32) reducesTo_S4096x128_S4096_d1 h_S_)
      (ix2 p (0 : Fin 1))) = _
  rw [bcol, reduce1 _ hR _ (fun k : Fin 128 => x p k * x p k) _ fun k => (congrArg (mulf X X) (lift1 hR p k)).trans
    ((congrArg₂ (· * ·) (hx p k) (hx p k)).trans (Lift.mul_coe _ _))]
  exact Lift.sqrt_coe _ (Lift.sum_mul_self_nonneg fun k : Fin 128 => x p k)

-- A row vector that is the transpose of a column reads the column.
theorem trow {V : S1x4096.Idx → EReal} {A : S4096x1.Idx → EReal}
    (e : V = transpose S1x4096 [1, 0] A transposes_S4096x1_S1x4096_1_0) (q : Fin 4096) :
    V (ix2 (0 : Fin 1) q) = A (ix2 q (0 : Fin 1)) := by
  rw [e, transpose_ix2_apply]

theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self, show IntOp.andi 1#1 1#1 = 1#1 by decide]
    exact ih fun n hn => hf n (List.mem_cons_of_mem _ hn)

theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, h.drop i = j → x i = 1#1) : Host.reduce IntOp.andi x init h hu j = 1#1 := by
  rw [Host.reduce_eq_foldl, hi]
  exact foldl_andi_one x _ fun n hn => hx n (of_decide_eq_true (List.mem_filter.mp hn).2)

def takeCol (A : IVec S4096 32) : IVec S4096x1 32 :=
  broadcastInDim S4096x1 ![0] bcast_S4096_S4096x1_0
    (select (cmpi .slt A (broadcastInDim S4096 ![] bcast_S_S4096 (constantI S_ 32 0#32)))
      (addi A (broadcastInDim S4096 ![] bcast_S_S4096 (constantI S_ 32 50000#32))) A)

def inRange (A : IVec S4096 32) : IVec S4096x128 1 :=
  broadcastInDim S4096x128 ![0] bcast_S4096_S4096x128_0
    (Host.reduce IntOp.andi
      (andi (cmpi .sge (takeCol A) (broadcastInDim S4096x1 ![] bcast_S_S4096x1 (constantI S_ 32 0#32)))
        (cmpi .sle (takeCol A) (broadcastInDim S4096x1 ![0, 1] bcast_S1x1_S4096x1_0_1
          (broadcastInDim S1x1 ![1] bcast_S1_S1x1_1 (constantI S1 32 49999#32)))))
      (constantI S_ 1 1#1) reducesTo_S4096x1_S4096_d1 h_S_)

def takeRows (X : FVec Ideal S50000x128 .f32) (A : IVec S4096 32) : FVec Ideal S4096x128 .f32 :=
  select (inRange A) (Host.gather gather_S50000x128_S4096x1_S4096x128_1_0_n_n_0_1_1128 X (takeCol A))
    (broadcastInDim S4096x128 ![] bcast_S_S4096x128 (constant (F := Ideal) S_ .f32 0x7FC00000#32))

theorem takeCol_apply (A : IVec S4096 32) (p : Fin 4096) (h0 : 0 ≤ (A (ix1 p)).toInt) :
    takeCol A (ix2 p (0 : Fin 1)) = A (ix1 p) := by
  unfold takeCol
  rw [bcol]
  have hc : IntOp.cmpi .slt (A (ix1 p)) 0#32 = 0#1 :=
    eq_zero_of_ne_one fun h => by
      have h' := IntOp.cmpi_slt.mp h
      have hz : (0#32 : BitVec 32).toInt = 0 := by decide
      omega
  show Scalar.select (IntOp.cmpi .slt (A (ix1 p)) 0#32) (IntOp.addi (A (ix1 p)) 50000#32) (A (ix1 p)) = _
  rw [hc, select_zero]

-- At an index in range the gathered row is the table's row at that index.
theorem takeRows_apply (X : FVec Ideal S50000x128 .f32) (A : IVec S4096 32) (p : Fin 4096) (k : Fin 128)
    (h0 : 0 ≤ (A (ix1 p)).toInt) (h1 : (A (ix1 p)).toInt < 50000) :
    takeRows X A (ix2 p k) = X (ix2 (⟨(A (ix1 p)).toInt.toNat, by omega⟩ : Fin 50000) k) := by
  have hc := takeCol_apply A p h0
  have hm : inRange A (ix2 p k) = 1#1 := by
    unfold inRange
    rw [broadcastInDim_apply _ _ _ (ix2 p k) (ix1 p) (fun a => match a with | ⟨0, _⟩ => rfl)]
    refine reduce_andi_one _ _ _ _ _ rfl fun i hi => ?_
    have hi0 : i = ix2 p (0 : Fin 1) := by
      funext a
      match a with
      | ⟨0, _⟩ => exact Fin.ext (congrArg Fin.val (congrFun hi 0))
      | ⟨1, _⟩ => exact Fin.ext (by have := idx2_lt1 i; show (i 1).val = 0; omega)
    rw [hi0]
    show IntOp.andi (IntOp.cmpi .sge (takeCol A (ix2 p (0 : Fin 1))) 0#32)
      (IntOp.cmpi .sle (takeCol A (ix2 p (0 : Fin 1))) 49999#32) = 1#1
    rw [hc]
    have hz : (0#32 : BitVec 32).toInt = 0 := by decide
    have hm : (49999#32 : BitVec 32).toInt = 49999 := by decide
    exact IntOp.andi_eq_one.mpr ⟨IntOp.cmpi_sge.mpr (by omega), IntOp.cmpi_sle.mpr (by omega)⟩
  unfold takeRows
  rw [select_apply, hm, select_one]
  show Host.gather (Cert.PackedLinear.rowDims 50000 128 4096 gather_S50000x128_S4096x1_S4096x128_1_0_n_n_0_1_1128_wf)
    X (takeCol A) (ix2 p k) = _
  rw [Cert.PackedLinear.gather_rows_apply (by decide)]
  refine congrArg (fun r : Fin 50000 => X (ix2 r k)) (Fin.ext ?_)
  show min (takeCol A (ix2 p (0 : Fin 1))).toInt.toNat (50000 - 1) = (A (ix1 p)).toInt.toNat
  rw [hc]
  omega

-- The gathered rows of a real table at an index vector in range.
theorem take {V : S4096x128.Idx → EReal} {X : FVec Ideal S50000x128 .f32} {A : IVec S4096 32} (e : V = takeRows X A)
    (t : Fin 50000 → Fin 128 → ℝ) (ht : ∀ r k, X (ix2 r k) = ((t r k : ℝ) : EReal))
    (hi : ∀ p, 0 ≤ (A (ix1 p)).toInt ∧ (A (ix1 p)).toInt < 50000) (p : Fin 4096) (k : Fin 128) :
    V (ix2 p k) = ((t ⟨(A (ix1 p)).toInt.toNat, by have := hi p; omega⟩ k : ℝ) : EReal) := by
  rw [e, takeRows_apply _ _ p k (hi p).1 (hi p).2]
  exact ht _ _

theorem coltot (V : FVec Ideal S4096x1 .f32) (r : Spec.Col 4096)
    (hr : ∀ p, V (ix2 p (0 : Fin 1)) = ((r p : ℝ) : EReal)) (j : S_.Idx) :
    Host.reduceAdd V (constant (F := Ideal) S_ .f32 0x00000000#32) reducesTo_S4096x1_S_d0_1 h_S_ j
      = ((Spec.tot r : ℝ) : EReal) := by
  show Ideal.hostReduceAdd reducesTo_S4096x1_S_d0_1 V (Ideal.ofBits .f32 0x00000000#32) j = _
  rw [Ideal.hostReduceAdd_total _ (fun b => b.elim0), sum_idx2, Lift.ofBits_zero, EReal.coe_zero, zero_add,
    show Spec.tot r = ∑ a, r a from rfl, ← Lift.coe_sum_univ]
  exact Finset.sum_congr rfl fun a _ => (Fin.sum_univ_one _).trans (hr a)

def meanOf (V : FVec Ideal S4096x1 .f32) : FVec Ideal S_ .f32 :=
  Host.divf (Host.reduceAdd V (constant (F := Ideal) S_ .f32 0x00000000#32) reducesTo_S4096x1_S_d0_1 h_S_)
    (constant (F := Ideal) S_ .f32 0x4B800000#32)

theorem meanOf_apply (V : FVec Ideal S4096x1 .f32) (r : Spec.Col 4096)
    (hr : ∀ p, V (ix2 p (0 : Fin 1)) = ((r p : ℝ) : EReal)) (j : S_.Idx) :
    meanOf V j = ((Spec.tot r / Lift.lit 0x4B800000#32 : ℝ) : EReal) := by
  show Ideal.div (Host.reduceAdd V (constant (F := Ideal) S_ .f32 0x00000000#32) reducesTo_S4096x1_S_d0_1 h_S_ j)
    (Ideal.ofBits .f32 0x4B800000#32) = _
  rw [coltot V r hr j, Lift.ofBits_two24, Lift.div_coe_coe _ _ Lift.lit_two24_ne]

-- A 1 × 1 matrix that is a rank-zero value reshaped reads that value.
theorem r11 {V : S1x1.Idx → EReal} {v : FVec Ideal S_ .f32} (e : V = shapeCast S1x1 v shapeCasts_S_S1x1) :
    V (ix2 (0 : Fin 1) (0 : Fin 1)) = v ix0 := by
  rw [e]
  unfold shapeCast
  exact congrArg v (eq_ix0 _)

def rowSums (M : FVec Ideal S4096x4096 .f32) : FVec Ideal S4096x1 .f32 :=
  broadcastInDim S4096x1 ![0] bcast_S4096_S4096x1_0
    (Host.reduceAdd M (constant (F := Ideal) S_ .f32 0x00000000#32) reducesTo_S4096x4096_S4096_d1 h_S_)

theorem rowSums_apply (M : FVec Ideal S4096x4096 .f32) (T : Spec.Mat 4096 4096)
    (hT : ∀ i j, M (ix2 i j) = ((T i j : ℝ) : EReal)) (i : Fin 4096) :
    rowSums M (ix2 i (0 : Fin 1)) = ((Spec.rsum T i : ℝ) : EReal) := by
  have hR : S4096x4096.Reduces [1] S4096 := by decide
  unfold rowSums
  rw [bcol, reduce1 _ hR _ (T i) _ fun k => (congrArg M (lift1 hR i k)).trans (hT i k)]
  rfl

def colSums (M : FVec Ideal S4096x4096 .f32) : FVec Ideal S4096x1 .f32 :=
  transpose S4096x1 [1, 0]
    (broadcastInDim S1x4096 ![1] bcast_S4096_S1x4096_1
      (Host.reduceAdd M (constant (F := Ideal) S_ .f32 0x00000000#32) reducesTo_S4096x4096_S4096_d0 h_S_))
    transposes_S1x4096_S4096x1_1_0

theorem colSums_apply (M : FVec Ideal S4096x4096 .f32) (T : Spec.Mat 4096 4096)
    (hT : ∀ i j, M (ix2 i j) = ((T i j : ℝ) : EReal)) (j : Fin 4096) :
    colSums M (ix2 j (0 : Fin 1)) = ((Spec.csum T j : ℝ) : EReal) := by
  have hR : S4096x4096.Reduces [0] S4096 := by decide
  unfold colSums
  rw [transpose_ix2_apply,
    broadcastInDim_apply _ _ _ (ix2 (0 : Fin 1) j) (ix1 j) (fun a => match a with | ⟨0, _⟩ => rfl),
    reduce1 _ hR _ (fun k => T k j) _ fun k => (congrArg M (lift0 hR j k)).trans (hT k j)]
  rfl

def shiftDot (C : FVec Ideal S4096x4096 .f32) (m : FVec Ideal S_ .f32) (v : FVec Ideal S4096x1 .f32) :
    FVec Ideal S4096x1 .f32 :=
  Host.dotGeneral dot_S4096x4096_S4096x1_S4096x1_1_0_0_1_n_n none
    (subf C (broadcastInDim S4096x4096 ![] bcast_S_S4096x4096 m)) v

theorem shiftDot_apply (C : FVec Ideal S4096x4096 .f32) (m : FVec Ideal S_ .f32) (v : FVec Ideal S4096x1 .f32)
    (c : Spec.Mat 4096 4096) (μ : ℝ) (w : Spec.Col 4096)
    (hC : ∀ i j, C (ix2 i j) = ((c i j : ℝ) : EReal)) (hm : ∀ j, m j = ((μ : ℝ) : EReal))
    (hv : ∀ k, v (ix2 k (0 : Fin 1)) = ((w k : ℝ) : EReal)) (p : Fin 4096) :
    shiftDot C m v (ix2 p (0 : Fin 1)) = ((∑ k, (c p k - μ) * w k : ℝ) : EReal) := by
  show Host.dotGeneral (DotDims.plain 4096 4096 1) none
    (subf C (broadcastInDim S4096x4096 ![] bcast_S_S4096x4096 m)) v (ix2 p (0 : Fin 1)) = _
  rw [StackMember.dotGeneral_plain_apply, ← Lift.coe_sum_univ]
  refine Finset.sum_congr rfl fun k _ => ?_
  rw [subf_apply, hC, hv]
  show (((c p k : ℝ) : EReal) - m _) * _ = _
  rw [hm, Lift.sub_coe, Lift.mul_coe]

variable (W : Valuation τ sig (Elt Ideal))

theorem take0 : StableHlo.after hostOps0 W (Proc.devRef .tc main_v0)
    = takeRows (W main_arg7) (W main_arg0) := by
  after_results_simp <;> (try simp only [StableHlo.TRef.ofBuf, StableHlo.TRef.toBuf, cast_eq]) <;> rfl

theorem take1 : StableHlo.after hostOps0_1 W (Proc.devRef .tc main_v1)
    = takeRows (W main_arg8) (W main_arg1) := by
  after_results_simp <;> (try simp only [StableHlo.TRef.ofBuf, StableHlo.TRef.toBuf, cast_eq]) <;> rfl

theorem norms0_col : StableHlo.after hostOps0_2 W (Proc.devRef .tc main_v5)
    = normCol (W main_v0) := by
  after_results <;> rfl

theorem norms0_row : StableHlo.after hostOps0_2 W (Proc.devRef .tc main_v6)
    = transpose S1x4096 [1, 0] (normCol (W main_v0)) transposes_S4096x1_S1x4096_1_0 := by
  after_results <;> rfl

theorem norms0_mu : StableHlo.after hostOps0_2 W (Proc.devRef .tc main_v7)
    = transpose S1x4096 [1, 0] (W main_arg3) transposes_S4096x1_S1x4096_1_0 := by
  after_results <;> rfl

theorem norms1_col : StableHlo.after hostOps1 W (Proc.devRef .tc main_v12)
    = normCol (W main_v1) := by
  after_results <;> rfl

theorem norms1_row : StableHlo.after hostOps1 W (Proc.devRef .tc main_v13)
    = transpose S1x4096 [1, 0] (normCol (W main_v1)) transposes_S4096x1_S1x4096_1_0 := by
  after_results <;> rfl

theorem norms1_mu : StableHlo.after hostOps1 W (Proc.devRef .tc main_v14)
    = transpose S1x4096 [1, 0] (W main_arg4) transposes_S4096x1_S1x4096_1_0 := by
  after_results <;> rfl

theorem means_cs : StableHlo.after hostOps2 W (Proc.devRef .tc main_v20)
    = shapeCast S1x1 (meanOf (W main_v8_3)) shapeCasts_S_S1x1 := by
  after_results_simp <;> rfl

theorem means_ct : StableHlo.after hostOps2 W (Proc.devRef .tc main_v21)
    = shapeCast S1x1 (meanOf (W main_v15_3)) shapeCasts_S_S1x1 := by
  after_results_simp <;> rfl

theorem means_S : StableHlo.after hostOps2 W (Proc.devRef .tc main_v28)
    = shapeCast S1x1 (Host.reduceAdd (rowSums (W main_arg2)) (constant (F := Ideal) S_ .f32 0x00000000#32) reducesTo_S4096x1_S_d0_1 h_S_) shapeCasts_S_S1x1 := by
  after_results_simp <;> rfl

theorem means_v3 : StableHlo.after hostOps2 W (Proc.devRef .tc main_v31)
    = shiftDot (W main_v8_0) (meanOf (W main_v8_3)) (rowSums (W main_arg2)) := by
  after_results_simp <;> rfl

theorem means_v2 : StableHlo.after hostOps2 W (Proc.devRef .tc main_v35)
    = transpose S1x4096 [1, 0] (shiftDot (W main_v15_0) (meanOf (W main_v15_3)) (colSums (W main_arg2))) transposes_S4096x1_S1x4096_1_0 := by
  after_results_simp <;> rfl

theorem norms3_e1 : StableHlo.after hostOps3 W (Proc.devRef .tc main_v40)
    = normCol (W main_v0) := by
  after_results <;> rfl

theorem norms3_e2 : StableHlo.after hostOps3 W (Proc.devRef .tc main_v45)
    = transpose S1x4096 [1, 0] (normCol (W main_v1)) transposes_S4096x1_S1x4096_1_0 := by
  after_results <;> rfl

theorem norms3_f2 : StableHlo.after hostOps3 W (Proc.devRef .tc main_v46)
    = transpose S1x4096 [1, 0] (W main_v15_1) transposes_S4096x1_S1x4096_1_0 := by
  after_results <;> rfl

theorem finals_dgw : StableHlo.after hostOps4 W (Proc.devRef .tc main_v48)
    = Host.reduceAdd (W main_v47_0) (constant (F := Ideal) S_ .f32 0x00000000#32) reducesTo_S4096x1_S_d0_1 h_S_ := by
  after_results_simp <;> rfl

theorem finals_dw : StableHlo.after hostOps4 W (Proc.devRef .tc main_v49)
    = Host.reduceAdd (W main_v47_1) (constant (F := Ideal) S_ .f32 0x00000000#32) reducesTo_S4096x1_S_d0_1 h_S_ := by
  after_results_simp <;> rfl

theorem finals_reg (s s' : Spec.Col 4096)
    (hs : ∀ p, (W main_v8_2 : S4096x1.Idx → EReal) (ix2 p (0 : Fin 1)) = ((s p : ℝ) : EReal))
    (hs' : ∀ p, (W main_v15_2 : S4096x1.Idx → EReal) (ix2 p (0 : Fin 1)) = ((s' p : ℝ) : EReal)) :
    (StableHlo.after (hostOps4 (F := Ideal)) W main_v76 : S_.Idx → EReal) ix0
      = ((((Spec.tot s : ℝ) : EReal) + ((Spec.tot s' : ℝ) : EReal)) + orthK (W main_v0 : S4096x128.Idx → EReal))
          + orthK (W main_v1 : S4096x128.Idx → EReal) := by
  have e : (StableHlo.after (hostOps4 (F := Ideal)) W main_v76 : S_.Idx → EReal)
      = addf (addf (addf (Host.reduceAdd (W main_v8_2 : FVec Ideal S4096x1 .f32) (constant (F := Ideal) S_ .f32 0x00000000#32) reducesTo_S4096x1_S_d0_1 h_S_) (Host.reduceAdd (W main_v15_2 : FVec Ideal S4096x1 .f32) (constant (F := Ideal) S_ .f32 0x00000000#32) reducesTo_S4096x1_S_d0_1 h_S_)) (orthVec (W main_v0 : FVec Ideal S4096x128 .f32))) (orthVec (W main_v1 : FVec Ideal S4096x128 .f32)) := by
    show StableHlo.after hostOps4 W (Proc.devRef .tc main_v76) = _
    after_results_simp <;> rfl
  rw [e, addf_apply, addf_apply, addf_apply, coltot _ s hs ix0, coltot _ s' hs' ix0]
  rfl

end Cert.KernelIdeal.HostK

end
-- ==== Proof.Alg.lean ====
import proofs.«403712_j45286135169680_3_alg».proof.Proof.Spec
import Mathlib.Algebra.BigOperators.Ring.Finset
import Mathlib.Algebra.BigOperators.Fin
import Mathlib.Logic.Equiv.Fin.Basic
import Mathlib.Tactic.Ring
import Mathlib.Tactic.Linarith

noncomputable section

namespace Cert.Spec

open scoped BigOperators

-- Expanding the two shifts: the three rank-one corrections cancel every term that carries `cs` or `ct`.
theorem cross_gen {ι κ : Type} [Fintype ι] [Fintype κ] (A : ι → ℝ) (B : κ → ℝ) (T : ι → κ → ℝ) (cs ct : ℝ) :
    cs * ct * (∑ i, ∑ j, T i j) + cs * (∑ k, (B k - ct) * ∑ i, T i k) + ct * (∑ k, (A k - cs) * ∑ j, T k j)
      + ∑ k, (∑ l, (A l - cs) * T l k) * (B k - ct)
    = ∑ l, (∑ k, A k * T k l) * B l := by
  have h1 : ∀ k, (∑ l, (A l - cs) * T l k) = (∑ l, A l * T l k) - cs * ∑ l, T l k := by
    intro k
    simp only [sub_mul, Finset.sum_sub_distrib, Finset.mul_sum]
  have e1 : ∑ k, (∑ l, (A l - cs) * T l k) * (B k - ct)
      = (∑ k, (∑ l, A l * T l k) * B k) - ct * (∑ k, ∑ l, A l * T l k)
          - cs * (∑ k, (∑ l, T l k) * B k) + cs * ct * ∑ k, ∑ l, T l k := by
    calc ∑ k, (∑ l, (A l - cs) * T l k) * (B k - ct)
        = ∑ k, ((∑ l, A l * T l k) * B k - ct * (∑ l, A l * T l k)
            - cs * ((∑ l, T l k) * B k) + cs * ct * ∑ l, T l k) := by
          apply Finset.sum_congr rfl
          intro k _
          rw [h1]
          ring
      _ = _ := by
          simp only [Finset.sum_add_distrib, Finset.sum_sub_distrib, ← Finset.mul_sum]
  have e2 : ∑ k, (B k - ct) * ∑ i, T i k = (∑ k, (∑ i, T i k) * B k) - ct * ∑ k, ∑ i, T i k := by
    calc ∑ k, (B k - ct) * ∑ i, T i k
        = ∑ k, ((∑ i, T i k) * B k - ct * ∑ i, T i k) := by
          apply Finset.sum_congr rfl
          intro k _
          ring
      _ = _ := by
          simp only [Finset.sum_sub_distrib, ← Finset.mul_sum]
  have e3 : ∑ k, (A k - cs) * ∑ j, T k j = (∑ k, A k * ∑ j, T k j) - cs * ∑ k, ∑ j, T k j := by
    calc ∑ k, (A k - cs) * ∑ j, T k j
        = ∑ k, (A k * ∑ j, T k j - cs * ∑ j, T k j) := by
          apply Finset.sum_congr rfl
          intro k _
          ring
      _ = _ := by
          simp only [Finset.sum_sub_distrib, ← Finset.mul_sum]
  have e4 : ∑ k, ∑ l, A l * T l k = ∑ l, A l * ∑ k, T l k := by
    rw [Finset.sum_comm]
    simp only [Finset.mul_sum]
  rw [e1, e2, e3, e4]
  ring

theorem cross_eq (a b T : Mat 4096 4096) (cs ct : ℝ) (i j : Fin 4096) :
    kCross a b T cs ct i j = rCross a b T i j := by
  unfold kCross rCross tot rsum csum
  exact cross_gen (a i) (b j) T cs ct

theorem kDgw_eq (two : ℝ) (a b T : Mat 4096 4096) (μs μt : Col 4096) (cs ct : ℝ) :
    kDgw two a b T μs μt cs ct = rDgw two a b T μs μt := by
  unfold kDgw rDgw
  apply Finset.sum_congr rfl
  intro i _
  apply Finset.sum_congr rfl
  intro j _
  have hf : fvec b μt j = ∑ k, μt k * (b j k * b j k) := by
    unfold fvec
    apply Finset.sum_congr rfl
    intro k _
    ring
  rw [cross_eq, hf]

theorem tile_lt {n m b q : ℕ} (hb : b < n) (hq : q < m) : m * b + q < n * m := by
  calc m * b + q < m * b + m := by omega
    _ = m * (b + 1) := by ring
    _ ≤ m * n := Nat.mul_le_mul_left m hb
    _ = n * m := Nat.mul_comm m n

-- A sum over `n * m` positions, tile by tile.
theorem sum_tiles (n m : ℕ) (f : Fin (n * m) → ℝ) :
    ∑ j, f j = ∑ b : Fin n, ∑ q : Fin m, f ⟨m * b.val + q.val, tile_lt b.isLt q.isLt⟩ := by
  rw [← Equiv.sum_comp finProdFinEquiv f, Fintype.sum_prod_type]
  apply Finset.sum_congr rfl
  intro b _
  apply Finset.sum_congr rfl
  intro q _
  congr 1
  apply Fin.ext
  simp only [finProdFinEquiv_apply_val]
  omega

theorem sum_tiles_4_1024 (f : Fin 4096 → ℝ) :
    ∑ j, f j = ∑ b : Fin 4, ∑ q : Fin 1024, f ⟨1024 * b.val + q.val, by omega⟩ :=
  sum_tiles 4 1024 f

theorem sum_tiles_8_512 (f : Fin 4096 → ℝ) :
    ∑ j, f j = ∑ b : Fin 8, ∑ q : Fin 512, f ⟨512 * b.val + q.val, by omega⟩ :=
  sum_tiles 8 512 f

def accTiles (m : ℕ) (g : ℕ → ℝ) : ℕ → ℝ
  | 0 => 0
  | n + 1 => accTiles m g n + g n

theorem accTiles_eq_sum (m : ℕ) (g : ℕ → ℝ) (n : ℕ) :
    accTiles m g n = ∑ b ∈ Finset.range n, g b := by
  induction n with
  | zero => simp [accTiles]
  | succ n ih => rw [accTiles, ih, Finset.sum_range_succ]

theorem accTiles_eq_sum_fin (m : ℕ) (g : ℕ → ℝ) (n : ℕ) :
    accTiles m g n = ∑ b : Fin n, g b.val := by
  rw [accTiles_eq_sum, Finset.sum_range]

theorem accTiles_full_4 (g : ℕ → ℝ) : accTiles 1024 g 4 = g 0 + g 1 + g 2 + g 3 := by
  simp only [accTiles, zero_add]

theorem sum_fin_4 (g : ℕ → ℝ) : ∑ b : Fin 4, g b.val = g 0 + g 1 + g 2 + g 3 := by
  rw [← accTiles_full_4, accTiles_eq_sum_fin]

end Cert.Spec

end
-- ==== Proof.Val0.lean ====
import proofs.«403712_j45286135169680_3_alg».proof.Proof.Region0
import proofs.«403712_j45286135169680_3_alg».proof.Proof.Gen.KernelIdeal.Skeleton
import proofs.«403712_j45286135169680_3_alg».proof.Proof.Gen.KernelIdeal.Points
import proofs.«403712_j45286135169680_3_alg».proof.Proof.Gen.KernelIdeal.Launch
import proofs.«403712_j45286135169680_3_alg».proof.Proof.Lift
import proofs.«403712_j45286135169680_3_alg».proof.Proof.Alg
import Idealize.ShloMosaic.Lib.ValueLayout
import Idealize.ShloMosaic.PureOps.Ideal.Laws

noncomputable section

namespace Cert.KernelIdeal.Val0

open Cert.KernelIdeal Cert.KernelIdeal.Gen Idealize.ShloMosaic Idealize.ShloMosaic.ValueIdx Idealize.SL.Sem
open Idealize.ShloMosaic.TcCoe
open scoped BigOperators

variable {α : Type}

-- A column repeated across b columns reads, at (p, q), the column at p.
theorem bcast_col_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ => show p.val = if a = 1 then 0 else p.val; split <;> omega
  | ⟨1, _⟩ => rfl

-- A vector laid out as a column reads, at (p, ·), the vector at p.
theorem cast_col_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_two, Shape.rowMajor_val_one]
    show p.val = p.val * 1 + u.val
    omega)

-- The sum along the second axis of a 1024 × 1024 block, at row p.
theorem lane_sum_apply (v : FVec Ideal S1024x1024 .f32) (hφ : FKind.Formats .f32)
    (hacc : (0x00000000#32 : BitVec 32) = 0x00000000#32) (p : Fin 1024) :
    multiReduction (F := Ideal) .add [1] S1024 v 0x00000000#32 reduces_S1024x1024_S1024 hφ hacc (ix1 p)
      = ∑ k : Fin 1024, v (ix2 p k) :=
  (Ideal.multiReduction_add_single v _ reduces_S1024x1024_S1024 hφ hacc (ix1 p)).trans
    (Finset.sum_congr rfl fun k _ => congrArg v (Shape.idx_ext₂ rfl rfl))

-- A block times the transpose of a block, both real: at (p, q) the inner product of row p of the first with row q of the second.
theorem gramT_apply (A B : FVec Ideal S1024x128 .f32) (α β : Fin 1024 → Fin 128 → ℝ)
    (hA : ∀ p k, A (ix2 p k) = ((α p k : ℝ) : EReal)) (hB : ∀ p k, B (ix2 p k) = ((β p k : ℝ) : EReal)) (p q : Fin 1024) :
    matmul (F := Ideal) dot_S1024x128_S128x1024_S1024x1024_1_0_0_1_n_n none (truncf .bf16 A bitsLt_bf16_f32)
        (transpose S128x1024 [1, 0] (truncf (F := Ideal) .bf16 B bitsLt_bf16_f32) transposes_S1024x128_p1_0_S128x1024)
        (constant (F := Ideal) S1024x1024 .f32 0x00000000#32) (ix2 p q)
      = ((∑ k, α p k * β q k : ℝ) : EReal) := by
  simp only [matmul]
  rw [Ideal.matmul_constant_zero_apply, ← Lift.coe_sum_univ]
  refine (Equiv.sum_comp (contrEquiv1 _ 128 rfl rfl).symm _).symm.trans (Finset.sum_congr rfl fun k _ => ?_)
  have hk := contrEquiv1_symm_val dot_S1024x128_S128x1024_S1024x1024_1_0_0_1_n_n 128 rfl rfl k
  rw [← Lift.mul_coe, ← hA, ← hB, ← transpose_ix2_apply B transposes_S1024x128_p1_0_S128x1024]
  exact congrArg₂ (· * ·) (congrArg A (Shape.idx_ext₂ rfl hk)) (congrArg _ (Shape.idx_ext₂ hk rfl))

local notation "one" => Lift.lit 0x3F800000#32
local notation "m5" => Lift.lit 0xC0A00000#32
local notation "eps" => Lift.lit 0x3727C5AC#32

theorem exp_apply {s : Shape} {φ : FTy} (v : FVec Ideal s φ) (i : s.Idx) : exp v i = Ideal.exp (v i) := rfl

theorem pay1_apply (p : Fin 1024) : (k0_pay1 (F := Ideal)) (ix2 p (0 : Fin 1)) = ((0 : ℝ) : EReal) := by
  unfold k0_pay1
  simp only [shapeCast_self, broadcast_apply, Ideal.ofBits_def, Lift.ofBits_zero]

-- With real operands the two correction products vanish; what is left is 1 − exp(−5·(1 − ⟨a_p, b_q⟩ / (e_p·e'_q + ε))).
theorem pay4_apply (v3 v5 : Vec Ideal S1024x128 .f32) (v22 : Vec Ideal S1024x1 .f32) (v24 : Vec Ideal S1x1024 .f32)
    (a b : Fin 1024 → Fin 128 → ℝ) (e e' : Fin 1024 → ℝ)
    (h3 : ∀ p k, v3 (ix2 p k) = ((a p k : ℝ) : EReal)) (h5 : ∀ p k, v5 (ix2 p k) = ((b p k : ℝ) : EReal))
    (h22 : ∀ p, v22 (ix2 p (0 : Fin 1)) = ((e p : ℝ) : EReal)) (h24 : ∀ q, v24 (ix2 (0 : Fin 1) q) = ((e' q : ℝ) : EReal))
    (p q : Fin 1024) (hne : e p * e' q + eps ≠ 0) :
    k0_pay4 (F := Ideal) v3 v5 v22 v24 (ix2 p q)
      = ((one - Real.exp (m5 * (one - (∑ k, a p k * b q k) / (e p * e' q + eps))) : ℝ) : EReal) := by
  have h3' : ∀ p k, subf (F := Ideal) (φ := .f32) v3 v3 (ix2 p k) = ((a p k - a p k : ℝ) : EReal) := fun p k => by
    rw [subf_apply, h3, Lift.sub_coe]
  have h5' : ∀ p k, subf (F := Ideal) (φ := .f32) v5 v5 (ix2 p k) = ((b p k - b p k : ℝ) : EReal) := fun p k => by
    rw [subf_apply, h5, Lift.sub_coe]
  unfold k0_pay4
  simp only [subf_apply, addf_apply, mulf_apply, divf_apply, exp_apply, broadcast_apply,
    shapeCast_self, bcast_col_apply, broadcastTo_1b_ab_apply, Ideal.ofBits_def, h22, h24,
    Lift.ofBits_one, Lift.ofBits_negfive, Lift.ofBits_eps]
  rw [gramT_apply v3 v5 a b h3 h5 p q, gramT_apply v3 (subf v5 v5) a _ h3 h5' p q, gramT_apply (subf v3 v3) v5 _ b h3' h5 p q]
  simp only [Lift.add_coe, Lift.mul_coe]
  rw [Lift.div_coe_coe _ _ hne]
  simp only [Lift.sub_coe, Lift.mul_coe, Lift.exp_coe, sub_self, mul_zero, zero_mul, Finset.sum_const_zero, add_zero]

abbrev Scr : Type := Reg0.Scr Ideal

-- Each of the three column sums gains the block's row sum of its own summand.
theorem step_apply (v : FVec Ideal S1024x1024 .f32) (v42 : Vec Ideal S1x1024 .f32) (v59 : Vec Ideal S1024x1024 .f32) (s : Scr)
    (c C : Fin 1024 → Fin 1024 → ℝ) (μ σ1 σ2 σ3 : Fin 1024 → ℝ)
    (hv : ∀ p q, v (ix2 p q) = ((c p q : ℝ) : EReal)) (h42 : ∀ q, v42 (ix2 (0 : Fin 1) q) = ((μ q : ℝ) : EReal))
    (h59 : ∀ p q, v59 (ix2 p q) = ((C p q : ℝ) : EReal))
    (h1 : ∀ p, s.1 (ix2 p (0 : Fin 1)) = ((σ1 p : ℝ) : EReal))
    (h2 : ∀ p, s.2.1 (ix2 p (0 : Fin 1)) = ((σ2 p : ℝ) : EReal))
    (h3 : ∀ p, s.2.2 (ix2 p (0 : Fin 1)) = ((σ3 p : ℝ) : EReal)) (p : Fin 1024) :
    k0_pay5 (F := Ideal) v s.1 v42 (ix2 p (0 : Fin 1)) = ((σ1 p + ∑ k, c p k * c p k * μ k : ℝ) : EReal)
    ∧ k0_pay7 (F := Ideal) v v59 s.2.1 (ix2 p (0 : Fin 1))
      = ((σ2 p + ∑ k, (c p k - C p k) * (c p k - C p k) * Real.exp (-(C p k)) : ℝ) : EReal)
    ∧ k0_pay6 (F := Ideal) v s.2.2 (ix2 p (0 : Fin 1)) = ((σ3 p + ∑ k, c p k : ℝ) : EReal) := by
  simp only [k0_pay5, k0_pay6, k0_pay7, addf_apply, shapeCast_self, cast_col_apply, h1, h2, h3]
  rw [lane_sum_apply, lane_sum_apply, lane_sum_apply]
  simp only [subf_apply, mulf_apply, exp_apply, broadcast_apply, broadcastTo_1b_ab_apply, Ideal.ofBits_def, Ideal.ofBits_zero_f32,
    hv, h42, h59, Lift.zero_sub_coe, Lift.sub_coe, Lift.mul_coe, Lift.exp_coe, Lift.coe_sum_univ, Lift.add_coe, and_self]

-- Entry r of tile b, among the 4096 positions of an axis.
def row (b : ℕ) (r : Fin 1024) : Fin 4096 := ⟨(1024 * b + r.val) % 4096, Nat.mod_lt _ (by norm_num)⟩

def tile (f : Fin 4096 → ℝ) (b : ℕ) : ℝ := ∑ q : Fin 1024, f (row b q)

-- The four tiles' shares add up to the sum over the whole axis.
theorem tiles_full (f : Fin 4096 → ℝ) : Spec.accTiles 1024 (tile f) 4 = ∑ j, f j := by
  rw [Spec.accTiles_full_4, ← Spec.sum_fin_4 (tile f), Spec.sum_tiles_4_1024]
  exact Finset.sum_congr rfl fun b _ => Finset.sum_congr rfl fun q _ =>
    congrArg f (Fin.ext (by show (1024 * b.val + q.val) % 4096 = 1024 * b.val + q.val; omega))

theorem row_div (r : Fin 4096) (b : ℕ) (hb : b < 4) :
    row ((4 * (r.val / 1024) + b) / 4) ⟨r.val % 1024, Nat.mod_lt _ (by norm_num)⟩ = r :=
  Fin.ext (by show (1024 * _ + r.val % 1024) % 4096 = _; omega)

theorem row_mod (r : Fin 4096) (a : ℕ) :
    row ((4 * a + r.val / 1024) % 4) ⟨r.val % 1024, Nat.mod_lt _ (by norm_num)⟩ = r :=
  Fin.ext (by show (1024 * _ + r.val % 1024) % 4096 = _; omega)

section Values
variable (x : Spec.Mat 4096 128) (e μ : Spec.Col 4096) (C : Spec.Mat 4096 4096)

abbrev cst : Spec.Mat 4096 4096 := Spec.cosG one eps (fun u => m5 * u) x x e e

def G6 : S4096x4096.Idx → EReal := fun i => ((cst x e (i 0) (i 1) : ℝ) : EReal)
def G7 : S4096x1.Idx → EReal := fun i => ((Spec.fvec (cst x e) μ (i 0) : ℝ) : EReal)
def G8 : S4096x1.Idx → EReal := fun i => ((Spec.simv (cst x e) C (i 0) : ℝ) : EReal)
def G9 : S4096x1.Idx → EReal := fun i => ((Spec.rsum (cst x e) (i 0) : ℝ) : EReal)

-- At row tile i the three column sums hold the shares of the first n column tiles.
def InvAt (s : Scr) (i n : ℕ) : Prop := ∀ p : Fin 1024,
  s.1 (ix2 p (0 : Fin 1)) = ((Spec.accTiles 1024 (tile fun j => cst x e (row i p) j * cst x e (row i p) j * μ j) n : ℝ) : EReal)
  ∧ s.2.1 (ix2 p (0 : Fin 1)) = ((Spec.accTiles 1024 (tile fun j => (cst x e (row i p) j - C (row i p) j)
      * (cst x e (row i p) j - C (row i p) j) * Real.exp (-(C (row i p) j))) n : ℝ) : EReal)
  ∧ s.2.2 (ix2 p (0 : Fin 1)) = ((Spec.accTiles 1024 (tile (cst x e (row i p))) n : ℝ) : EReal)

variable {N : ℕ} (B0 B1 : Fin N → Vec Ideal S1024x128 .f32) (B2 : Fin N → Vec Ideal S1024x1 .f32)
  (B3 B4 : Fin N → Vec Ideal S1x1024 .f32) (B5 : Fin N → Vec Ideal S1024x1024 .f32)

def cost (t : Fin N) : Vec Ideal S1024x1024 .f32 := k0_pay4 (B0 t) (B1 t) (B2 t) (B3 t)

def step (t : Fin N) (s : Scr) : Scr :=
  (k0_pay5 (cost B0 B1 B2 B3 t) s.1 (B4 t), k0_pay7 (cost B0 B1 B2 B3 t) (B5 t) s.2.1, k0_pay6 (cost B0 B1 B2 B3 t) s.2.2)

variable (h0 : ∀ t p k, B0 t (ix2 p k) = ((x (row (t.val / 4) p) k : ℝ) : EReal))
  (h1 : ∀ t p k, B1 t (ix2 p k) = ((x (row (t.val % 4) p) k : ℝ) : EReal))
  (h2 : ∀ t p, B2 t (ix2 p (0 : Fin 1)) = ((e (row (t.val / 4) p) : ℝ) : EReal))
  (h3 : ∀ t q, B3 t (ix2 (0 : Fin 1) q) = ((e (row (t.val % 4) q) : ℝ) : EReal))
  (h4 : ∀ t q, B4 t (ix2 (0 : Fin 1) q) = ((μ (row (t.val % 4) q) : ℝ) : EReal))
  (h5 : ∀ t p q, B5 t (ix2 p q) = ((C (row (t.val / 4) p) (row (t.val % 4) q) : ℝ) : EReal))
  (hen : ∀ p, 0 ≤ e p)

include h0 h1 h2 h3 hen in
theorem cost_apply (t : Fin N) (p q : Fin 1024) :
    cost B0 B1 B2 B3 t (ix2 p q) = G6 x e (ix2 (row (t.val / 4) p) (row (t.val % 4) q)) :=
  pay4_apply _ _ _ _ _ _ _ _ (h0 t) (h1 t) (h2 t) (h3 t) p q
    (ne_of_gt (add_pos_of_nonneg_of_pos (mul_nonneg (hen _) (hen _)) Lift.lit_eps_pos))

include h0 h1 h2 h3 h4 h5 hen in
theorem inv_step (t : Fin N) (s : Scr) (hs : InvAt x e μ C s (t.val / 4) (t.val % 4)) :
    InvAt x e μ C (step B0 B1 B2 B3 B4 B5 t s) (t.val / 4) (t.val % 4 + 1) := fun p =>
  step_apply _ _ _ s _ _ _ _ _ _ (cost_apply x e B0 B1 B2 B3 h0 h1 h2 h3 hen t) (h4 t) (h5 t)
    (fun p => (hs p).1) (fun p => (hs p).2.1) (fun p => (hs p).2.2) p

variable (sIn : Fin N → Scr) (hr : ∀ t : Fin N, t.val % 4 = 0 → sIn t = (k0_pay1 (F := Ideal), k0_pay2 (F := Ideal), k0_pay3 (F := Ideal)))
  (hs : ∀ (n : ℕ) (h : n + 1 < N), (n + 1) % 4 ≠ 0 →
    sIn ⟨n + 1, h⟩ = step B0 B1 B2 B3 B4 B5 ⟨n, Nat.lt_of_succ_lt h⟩ (sIn ⟨n, Nat.lt_of_succ_lt h⟩))

-- By induction along the points, the sums starting from zero at the head of each row of tiles.
include h0 h1 h2 h3 h4 h5 hen hr hs in
theorem inv_in (n : ℕ) (h : n < N) : InvAt x e μ C (sIn ⟨n, h⟩) (n / 4) (n % 4) := by
  by_cases hm : n % 4 = 0
  · rw [hr ⟨n, h⟩ hm, hm]; exact fun p => ⟨pay1_apply p, pay1_apply p, pay1_apply p⟩
  · obtain ⟨m, rfl⟩ : ∃ m, n = m + 1 := ⟨n - 1, by omega⟩
    rw [hs m h hm, show (m + 1) / 4 = m / 4 by omega, show (m + 1) % 4 = m % 4 + 1 by omega]
    exact inv_step x e μ C B0 B1 B2 B3 B4 B5 h0 h1 h2 h3 h4 h5 hen ⟨m, _⟩ _ (inv_in m _)

-- Each cost tile is its tile of the cost matrix; after the last tile of a row the column sums are the row's three statistics.
def Outs (cost : Fin N → Vec Ideal S1024x1024 .f32) (out : Fin N → Scr) : Prop :=
  (∀ t p q, cost t (ix2 p q) = G6 x e (ix2 (row (t.val / 4) p) (row (t.val % 4) q)))
  ∧ ∀ t, t.val % 4 = 3 → ∀ p : Fin 1024,
    (out t).1 (ix2 p (0 : Fin 1)) = G7 x e μ (ix2 (row (t.val / 4) p) (0 : Fin 1))
    ∧ (out t).2.1 (ix2 p (0 : Fin 1)) = G8 x e C (ix2 (row (t.val / 4) p) (0 : Fin 1))
    ∧ (out t).2.2 (ix2 p (0 : Fin 1)) = G9 x e (ix2 (row (t.val / 4) p) (0 : Fin 1))

include h0 h1 h2 h3 h4 h5 hen hr hs in
theorem outs : Outs x e μ C (cost B0 B1 B2 B3) fun t => step B0 B1 B2 B3 B4 B5 t (sIn t) :=
  ⟨cost_apply x e B0 B1 B2 B3 h0 h1 h2 h3 hen, fun t ht p => by
    obtain ⟨a, b, c⟩ := inv_step x e μ C B0 B1 B2 B3 B4 B5 h0 h1 h2 h3 h4 h5 hen t _
      (inv_in x e μ C B0 B1 B2 B3 B4 B5 h0 h1 h2 h3 h4 h5 hen sIn hr hs t.val t.isLt) p
    rw [ht] at a b c
    exact ⟨a.trans (congrArg _ (tiles_full _)), b.trans (congrArg _ (tiles_full _)), c.trans (congrArg _ (tiles_full _))⟩⟩

end Values

theorem row_of {i b : ℕ} (h : i = b) (hb : b < 4) (p : Fin 1024) : i * 1024 + 1 * p.val = (row b p).val := by
  subst h; show _ = (1024 * i + p.val) % 4096; omega

theorem zero_of {i : ℕ} (h : i = 0) (n k : ℕ) : i * n + 1 * k = k := by subst h; omega

-- An array ends equal to G when every block put into it agrees with G and the blocks cover it.
theorem arr_eq {cfg : Pipeline.Cfg sig Λ₀} {c : Dev nD} (dat : Pipeline.Dat τ (Elt Ideal) Unit ℕ (UR sig nD τ) ℕ cfg c) (w : Fin cfg.W)
    (G : Buf (Elt Ideal) ((cfg.win w).arr.view.loc (c.tc : Thread nD τ)))
    (hG : ∀ t, (cfg.win w).flush t = true → ∀ j, dat.flushed w t j = ((cfg.win w).blk t).view.read (Elt Ideal) G j)
    (hc : ∀ i : ((cfg.win w).arr.view.loc (c.tc : Thread nD τ)).2.ty.Idx, ∃ t j, (cfg.win w).flush t = true ∧ ((cfg.win w).blk t).view.emb j = i) : dat.arrAt w cfg.N = G :=
  dat.arrAt_eq_of_cover w G (fun t hf => funext (hG t hf)) fun i =>
    let ⟨t, j, hf, h⟩ := hc i; ⟨t, hf, h ▸ View.emb_mem_set _ j⟩

theorem col_ix (j : S1024x1.Idx) : j = ix2 (j 0) (0 : Fin 1) :=
  (eq_ix2 j).trans (congrArg (ix2 (j 0)) (Subsingleton.elim (α := Fin 1) _ _))

theorem col_cover {N : ℕ} (hN : N = 16) (i : S4096x1.Idx) :
    ∃ (t : Fin N) (p : Fin 1024), t.val % 4 = 3 ∧ ix2 (row (t.val / 4) p) (0 : Fin 1) = i :=
  have h0 : (i 0).val < 4096 := (i 0).isLt
  ⟨⟨4 * ((i 0).val / 1024) + 3, hN ▸ (by omega)⟩, ⟨(i 0).val % 1024, Nat.mod_lt _ (by norm_num)⟩, (by show (4 * _ + 3) % 4 = 3; omega),
    Shape.idx_ext₂ (congrArg Fin.val (row_div (i 0) 3 (by norm_num))) (Nat.lt_one_iff.mp (i 1).isLt).symm⟩

theorem tile_cover {N : ℕ} (hN : N = 16) (i : S4096x4096.Idx) :
    ∃ (t : Fin N) (p q : Fin 1024), ix2 (row (t.val / 4) p) (row (t.val % 4) q) = i :=
  have h0 : (i 0).val < 4096 := (i 0).isLt
  have h1 : (i 1).val < 4096 := (i 1).isLt
  ⟨⟨4 * ((i 0).val / 1024) + (i 1).val / 1024, hN ▸ (by omega)⟩, ⟨(i 0).val % 1024, Nat.mod_lt _ (by norm_num)⟩,
    ⟨(i 1).val % 1024, Nat.mod_lt _ (by norm_num)⟩,
    Shape.idx_ext₂ (congrArg Fin.val (row_div (i 0) _ (by omega))) (congrArg Fin.val (row_mod (i 1) _))⟩

-- The block numbers along the two axes, for the four kinds of block, at point t = 4·(t/4) + t%4.
theorem idx : ∀ t : Fin cfg0.N,
    (win0_0.index t (0 : Fin 2) = t.val / 4 ∧ win0_0.index t (1 : Fin 2) = 0)
    ∧ (win0_1.index t (0 : Fin 2) = t.val % 4 ∧ win0_1.index t (1 : Fin 2) = 0)
    ∧ (win0_3.index t (0 : Fin 2) = 0 ∧ win0_3.index t (1 : Fin 2) = t.val % 4)
    ∧ (win0_5.index t (0 : Fin 2) = t.val / 4 ∧ win0_5.index t (1 : Fin 2) = t.val % 4) :=
  (by decide +kernel : ∀ t : Fin grid0.N, _)

-- Where an entry of each kind of block sits in its array.
theorem emb (t : Fin cfg0.N) (p q : Fin 1024) (k : Fin 128) :
    ((cfg0.win 0).blk t).view.emb (ix2 p k) = ix2 (row (t.val / 4) p) k
    ∧ ((cfg0.win 1).blk t).view.emb (ix2 p k) = ix2 (row (t.val % 4) p) k
    ∧ ((cfg0.win 2).blk t).view.emb (ix2 p (0 : Fin 1)) = ix2 (row (t.val / 4) p) (0 : Fin 1)
    ∧ ((cfg0.win 3).blk t).view.emb (ix2 (0 : Fin 1) q) = ix2 (0 : Fin 1) (row (t.val % 4) q)
    ∧ ((cfg0.win 5).blk t).view.emb (ix2 p q) = ix2 (row (t.val / 4) p) (row (t.val % 4) q) := by
  obtain ⟨⟨a0, a1⟩, ⟨b0, b1⟩, ⟨c0, c1⟩, ⟨d0, d1⟩⟩ := idx t
  have h4 : t.val / 4 < 4 := by have := lt_of_lt_of_eq t.isLt N_0; omega
  have h4' : t.val % 4 < 4 := Nat.mod_lt _ (by norm_num)
  exact ⟨Shape.idx_ext₂ (row_of a0 h4 p) (zero_of a1 _ _), Shape.idx_ext₂ (row_of b0 h4' p) (zero_of b1 _ _),
    Shape.idx_ext₂ (row_of a0 h4 p) (zero_of a1 _ _), Shape.idx_ext₂ (zero_of c0 _ _) (row_of c1 h4' q),
    Shape.idx_ext₂ (row_of d0 h4 p) (row_of d1 h4' q)⟩

section Region
variable (V : (c : Dev nD) → (b : Ref sig .tc) → Buf (Elt Ideal) ((c : Thread nD τ).loc b)) (c : Dev nD)
  (x : Spec.Mat 4096 128) (e μ : Spec.Col 4096) (C : Spec.Mat 4096 4096)
  (hx : ∀ p k, (V c main_v0 : S4096x128.Idx → EReal) (ix2 p k) = ((x p k : ℝ) : EReal))
  (he : ∀ p, (V c main_v5 : S4096x1.Idx → EReal) (ix2 p 0) = ((e p : ℝ) : EReal))
  (he' : ∀ q, (V c main_v6 : S1x4096.Idx → EReal) (ix2 0 q) = ((e q : ℝ) : EReal))
  (hμ : ∀ q, (V c main_v7 : S1x4096.Idx → EReal) (ix2 0 q) = ((μ q : ℝ) : EReal))
  (hC : ∀ p q, (V c main_arg5 : S4096x4096.Idx → EReal) (ix2 p q) = ((C p q : ℝ) : EReal))
  (hen : ∀ p, 0 ≤ e p)

include hx he he' hμ hC hen in
theorem outs0 : Outs x e μ C (Reg0.cost V c) (Reg0.scrOut V c) :=
  outs x e μ C (Reg0.iblk V c 0) (Reg0.iblk V c 1) (Reg0.iblk V c 2) (Reg0.iblk V c 3) (Reg0.iblk V c 4) (Reg0.iblk V c 5)
    (fun t p k => (congrArg (V c main_v0 : S4096x128.Idx → EReal) (emb t p p k).1).trans (hx _ _))
    (fun t p k => (congrArg (V c main_v0 : S4096x128.Idx → EReal) (emb t p p k).2.1).trans (hx _ _))
    (fun t p => (congrArg (V c main_v5 : S4096x1.Idx → EReal) (emb t p p 0).2.2.1).trans (he _))
    (fun t q => (congrArg (V c main_v6 : S1x4096.Idx → EReal) (emb t q q 0).2.2.2.1).trans (he' _))
    (fun t q => (congrArg (V c main_v7 : S1x4096.Idx → EReal) (emb t q q 0).2.2.2.1).trans (hμ _))
    (fun t p q => (congrArg (V c main_arg5 : S4096x4096.Idx → EReal) (emb t p q 0).2.2.2.2).trans (hC _ _))
    hen (Reg0.scrIn V c) (fun t ht => if_pos ht)
    fun n h hm => (if_neg hm).trans (Reg0.scr_succ V c ⟨n, Nat.lt_of_succ_lt h⟩)

include hx he he' hμ hC hen in
theorem final6 : (Reg0.dat V c).arrAt 6 cfg0.N = G6 x e :=
  arr_eq (Reg0.dat V c) 6 (G6 x e)
    (fun t _ (j : S1024x1024.Idx) => by
      rw [eq_ix2 j]
      exact ((outs0 V c x e μ C hx he he' hμ hC hen).1 t _ _).trans (congrArg _ (emb t _ _ 0).2.2.2.2.symm))
    fun (i : S4096x4096.Idx) => let ⟨t, p, q, h⟩ := tile_cover N_0 i
      ⟨t, (ix2 p q : S1024x1024.Idx), flush0_6 t, (emb t p q 0).2.2.2.2.trans h⟩

include hx he he' hμ hC hen in
theorem final7 : (Reg0.dat V c).arrAt 7 cfg0.N = G7 x e μ :=
  arr_eq (Reg0.dat V c) 7 (G7 x e μ)
    (fun t hf (j : S1024x1.Idx) => by
      rw [col_ix j]
      exact ((outs0 V c x e μ C hx he he' hμ hC hen).2 t ((flush0_7 t).mp hf) _).1.trans (congrArg _ (emb t (j 0) (j 0) 0).2.2.1.symm))
    fun (i : S4096x1.Idx) => let ⟨t, p, h3, h⟩ := col_cover N_0 i
      ⟨t, (ix2 p (0 : Fin 1) : S1024x1.Idx), (flush0_7 t).mpr h3, (emb t p p 0).2.2.1.trans h⟩

include hx he he' hμ hC hen in
theorem final8 : (Reg0.dat V c).arrAt 8 cfg0.N = G8 x e C :=
  arr_eq (Reg0.dat V c) 8 (G8 x e C)
    (fun t hf (j : S1024x1.Idx) => by
      rw [col_ix j]
      exact ((outs0 V c x e μ C hx he he' hμ hC hen).2 t ((flush0_8 t).mp hf) _).2.1.trans (congrArg _ (emb t (j 0) (j 0) 0).2.2.1.symm))
    fun (i : S4096x1.Idx) => let ⟨t, p, h3, h⟩ := col_cover N_0 i
      ⟨t, (ix2 p (0 : Fin 1) : S1024x1.Idx), (flush0_8 t).mpr h3, (emb t p p 0).2.2.1.trans h⟩

include hx he he' hμ hC hen in
theorem final9 : (Reg0.dat V c).arrAt 9 cfg0.N = G9 x e :=
  arr_eq (Reg0.dat V c) 9 (G9 x e)
    (fun t hf (j : S1024x1.Idx) => by
      rw [col_ix j]
      exact ((outs0 V c x e μ C hx he he' hμ hC hen).2 t ((flush0_9 t).mp hf) _).2.2.trans (congrArg _ (emb t (j 0) (j 0) 0).2.2.1.symm))
    fun (i : S4096x1.Idx) => let ⟨t, p, h3, h⟩ := col_cover N_0 i
      ⟨t, (ix2 p (0 : Fin 1) : S1024x1.Idx), (flush0_9 t).mpr h3, (emb t p p 0).2.2.1.trans h⟩

include hx he he' hμ hC hen in
theorem region0_out :
    (∀ p q, ((Reg0.dat V c).arrAt 6 cfg0.N : S4096x4096.Idx → EReal) (ix2 p q)
        = ((Spec.cosG one eps (fun u => m5 * u) x x e e p q : ℝ) : EReal))
    ∧ (∀ p, ((Reg0.dat V c).arrAt 7 cfg0.N : S4096x1.Idx → EReal) (ix2 p 0)
        = ((Spec.fvec (Spec.cosG one eps (fun u => m5 * u) x x e e) μ p : ℝ) : EReal))
    ∧ (∀ p, ((Reg0.dat V c).arrAt 8 cfg0.N : S4096x1.Idx → EReal) (ix2 p 0)
        = ((Spec.simv (Spec.cosG one eps (fun u => m5 * u) x x e e) C p : ℝ) : EReal))
    ∧ (∀ p, ((Reg0.dat V c).arrAt 9 cfg0.N : S4096x1.Idx → EReal) (ix2 p 0)
        = ((Spec.rsum (Spec.cosG one eps (fun u => m5 * u) x x e e) p : ℝ) : EReal)) :=
  ⟨fun p q => congrFun (final6 V c x e μ C hx he he' hμ hC hen) (ix2 p q), fun p => congrFun (final7 V c x e μ C hx he he' hμ hC hen) (ix2 p 0),
    fun p => congrFun (final8 V c x e μ C hx he he' hμ hC hen) (ix2 p 0), fun p => congrFun (final9 V c x e μ C hx he he' hμ hC hen) (ix2 p 0)⟩

end Region

end Cert.KernelIdeal.Val0
end
-- ==== Proof.Val1.lean ====
import proofs.«403712_j45286135169680_3_alg».proof.Proof.Region1
import proofs.«403712_j45286135169680_3_alg».proof.Proof.Val0

noncomputable section

namespace Cert.KernelIdeal.Val1

open Cert.KernelIdeal Cert.KernelIdeal.Gen Idealize.ShloMosaic Idealize.ShloMosaic.ValueIdx Idealize.SL.Sem
open Idealize.ShloMosaic.TcCoe
open Cert.KernelIdeal.Val0 (row row_of zero_of arr_eq col_ix col_cover tile_cover G6 G7 G8 G9 Outs outs)

local notation "one" => Lift.lit 0x3F800000#32
local notation "m5" => Lift.lit 0xC0A00000#32
local notation "eps" => Lift.lit 0x3727C5AC#32

-- The block numbers along the two axes, for the four kinds of block, at point t = 4·(t/4) + t%4.
theorem idx : ∀ t : Fin cfg1.N,
    (win1_0.index t (0 : Fin 2) = t.val / 4 ∧ win1_0.index t (1 : Fin 2) = 0)
    ∧ (win1_1.index t (0 : Fin 2) = t.val % 4 ∧ win1_1.index t (1 : Fin 2) = 0)
    ∧ (win1_3.index t (0 : Fin 2) = 0 ∧ win1_3.index t (1 : Fin 2) = t.val % 4)
    ∧ (win1_5.index t (0 : Fin 2) = t.val / 4 ∧ win1_5.index t (1 : Fin 2) = t.val % 4) :=
  (by decide +kernel : ∀ t : Fin grid1.N, _)

-- Where an entry of each kind of block sits in its array.
theorem emb (t : Fin cfg1.N) (p q : Fin 1024) (k : Fin 128) :
    ((cfg1.win 0).blk t).view.emb (ix2 p k) = ix2 (row (t.val / 4) p) k
    ∧ ((cfg1.win 1).blk t).view.emb (ix2 p k) = ix2 (row (t.val % 4) p) k
    ∧ ((cfg1.win 2).blk t).view.emb (ix2 p (0 : Fin 1)) = ix2 (row (t.val / 4) p) (0 : Fin 1)
    ∧ ((cfg1.win 3).blk t).view.emb (ix2 (0 : Fin 1) q) = ix2 (0 : Fin 1) (row (t.val % 4) q)
    ∧ ((cfg1.win 5).blk t).view.emb (ix2 p q) = ix2 (row (t.val / 4) p) (row (t.val % 4) q) := by
  obtain ⟨⟨a0, a1⟩, ⟨b0, b1⟩, ⟨c0, c1⟩, ⟨d0, d1⟩⟩ := idx t
  have h4 : t.val / 4 < 4 := by have := lt_of_lt_of_eq t.isLt N_1; omega
  have h4' : t.val % 4 < 4 := Nat.mod_lt _ (by norm_num)
  exact ⟨Shape.idx_ext₂ (row_of a0 h4 p) (zero_of a1 _ _), Shape.idx_ext₂ (row_of b0 h4' p) (zero_of b1 _ _),
    Shape.idx_ext₂ (row_of a0 h4 p) (zero_of a1 _ _), Shape.idx_ext₂ (zero_of c0 _ _) (row_of c1 h4' q),
    Shape.idx_ext₂ (row_of d0 h4 p) (row_of d1 h4' q)⟩

section Region
variable (V : (c : Dev nD) → (b : Ref sig .tc) → Buf (Elt Ideal) ((c : Thread nD τ).loc b)) (c : Dev nD)
  (x : Spec.Mat 4096 128) (e μ : Spec.Col 4096) (C : Spec.Mat 4096 4096)
  (hx : ∀ p k, (V c main_v1 : S4096x128.Idx → EReal) (ix2 p k) = ((x p k : ℝ) : EReal))
  (he : ∀ p, (V c main_v12 : S4096x1.Idx → EReal) (ix2 p 0) = ((e p : ℝ) : EReal))
  (he' : ∀ q, (V c main_v13 : S1x4096.Idx → EReal) (ix2 0 q) = ((e q : ℝ) : EReal))
  (hμ : ∀ q, (V c main_v14 : S1x4096.Idx → EReal) (ix2 0 q) = ((μ q : ℝ) : EReal))
  (hC : ∀ p q, (V c main_arg6 : S4096x4096.Idx → EReal) (ix2 p q) = ((C p q : ℝ) : EReal))
  (hen : ∀ p, 0 ≤ e p)

include hx he he' hμ hC hen in
theorem outs1 : Outs x e μ C (Reg1.cost V c) (Reg1.scrOut V c) :=
  outs x e μ C (Reg1.iblk V c 0) (Reg1.iblk V c 1) (Reg1.iblk V c 2) (Reg1.iblk V c 3) (Reg1.iblk V c 4) (Reg1.iblk V c 5)
    (fun t p k => (congrArg (V c main_v1 : S4096x128.Idx → EReal) (emb t p p k).1).trans (hx _ _))
    (fun t p k => (congrArg (V c main_v1 : S4096x128.Idx → EReal) (emb t p p k).2.1).trans (hx _ _))
    (fun t p => (congrArg (V c main_v12 : S4096x1.Idx → EReal) (emb t p p 0).2.2.1).trans (he _))
    (fun t q => (congrArg (V c main_v13 : S1x4096.Idx → EReal) (emb t q q 0).2.2.2.1).trans (he' _))
    (fun t q => (congrArg (V c main_v14 : S1x4096.Idx → EReal) (emb t q q 0).2.2.2.1).trans (hμ _))
    (fun t p q => (congrArg (V c main_arg6 : S4096x4096.Idx → EReal) (emb t p q 0).2.2.2.2).trans (hC _ _))
    hen (Reg1.scrIn V c) (fun t ht => if_pos ht)
    fun n h hm => (if_neg hm).trans (Reg1.scr_succ V c ⟨n, Nat.lt_of_succ_lt h⟩)

include hx he he' hμ hC hen in
theorem final6 : (Reg1.dat V c).arrAt 6 cfg1.N = G6 x e :=
  arr_eq (Reg1.dat V c) 6 (G6 x e)
    (fun t _ (j : S1024x1024.Idx) => by
      rw [eq_ix2 j]
      exact ((outs1 V c x e μ C hx he he' hμ hC hen).1 t _ _).trans (congrArg _ (emb t _ _ 0).2.2.2.2.symm))
    fun (i : S4096x4096.Idx) => let ⟨t, p, q, h⟩ := tile_cover N_1 i
      ⟨t, (ix2 p q : S1024x1024.Idx), flush1_6 t, (emb t p q 0).2.2.2.2.trans h⟩

include hx he he' hμ hC hen in
theorem final7 : (Reg1.dat V c).arrAt 7 cfg1.N = G7 x e μ :=
  arr_eq (Reg1.dat V c) 7 (G7 x e μ)
    (fun t hf (j : S1024x1.Idx) => by
      rw [col_ix j]
      exact ((outs1 V c x e μ C hx he he' hμ hC hen).2 t ((flush1_7 t).mp hf) _).1.trans (congrArg _ (emb t (j 0) (j 0) 0).2.2.1.symm))
    fun (i : S4096x1.Idx) => let ⟨t, p, h3, h⟩ := col_cover N_1 i
      ⟨t, (ix2 p (0 : Fin 1) : S1024x1.Idx), (flush1_7 t).mpr h3, (emb t p p 0).2.2.1.trans h⟩

include hx he he' hμ hC hen in
theorem final8 : (Reg1.dat V c).arrAt 8 cfg1.N = G8 x e C :=
  arr_eq (Reg1.dat V c) 8 (G8 x e C)
    (fun t hf (j : S1024x1.Idx) => by
      rw [col_ix j]
      exact ((outs1 V c x e μ C hx he he' hμ hC hen).2 t ((flush1_8 t).mp hf) _).2.1.trans (congrArg _ (emb t (j 0) (j 0) 0).2.2.1.symm))
    fun (i : S4096x1.Idx) => let ⟨t, p, h3, h⟩ := col_cover N_1 i
      ⟨t, (ix2 p (0 : Fin 1) : S1024x1.Idx), (flush1_8 t).mpr h3, (emb t p p 0).2.2.1.trans h⟩

include hx he he' hμ hC hen in
theorem final9 : (Reg1.dat V c).arrAt 9 cfg1.N = G9 x e :=
  arr_eq (Reg1.dat V c) 9 (G9 x e)
    (fun t hf (j : S1024x1.Idx) => by
      rw [col_ix j]
      exact ((outs1 V c x e μ C hx he he' hμ hC hen).2 t ((flush1_9 t).mp hf) _).2.2.trans (congrArg _ (emb t (j 0) (j 0) 0).2.2.1.symm))
    fun (i : S4096x1.Idx) => let ⟨t, p, h3, h⟩ := col_cover N_1 i
      ⟨t, (ix2 p (0 : Fin 1) : S1024x1.Idx), (flush1_9 t).mpr h3, (emb t p p 0).2.2.1.trans h⟩

include hx he he' hμ hC hen in
theorem region1_out :
    (∀ p q, ((Reg1.dat V c).arrAt 6 cfg1.N : S4096x4096.Idx → EReal) (ix2 p q)
        = ((Spec.cosG one eps (fun u => m5 * u) x x e e p q : ℝ) : EReal))
    ∧ (∀ p, ((Reg1.dat V c).arrAt 7 cfg1.N : S4096x1.Idx → EReal) (ix2 p 0)
        = ((Spec.fvec (Spec.cosG one eps (fun u => m5 * u) x x e e) μ p : ℝ) : EReal))
    ∧ (∀ p, ((Reg1.dat V c).arrAt 8 cfg1.N : S4096x1.Idx → EReal) (ix2 p 0)
        = ((Spec.simv (Spec.cosG one eps (fun u => m5 * u) x x e e) C p : ℝ) : EReal))
    ∧ (∀ p, ((Reg1.dat V c).arrAt 9 cfg1.N : S4096x1.Idx → EReal) (ix2 p 0)
        = ((Spec.rsum (Spec.cosG one eps (fun u => m5 * u) x x e e) p : ℝ) : EReal)) :=
  ⟨fun p q => congrFun (final6 V c x e μ C hx he he' hμ hC hen) (ix2 p q), fun p => congrFun (final7 V c x e μ C hx he he' hμ hC hen) (ix2 p 0),
    fun p => congrFun (final8 V c x e μ C hx he he' hμ hC hen) (ix2 p 0), fun p => congrFun (final9 V c x e μ C hx he he' hμ hC hen) (ix2 p 0)⟩

end Region

end Cert.KernelIdeal.Val1
end
-- ==== Proof.Val2.lean ====
import proofs.«403712_j45286135169680_3_alg».proof.Proof.Gen.KernelIdeal.Skeleton
import proofs.«403712_j45286135169680_3_alg».proof.Proof.Gen.KernelIdeal.Points
import proofs.«403712_j45286135169680_3_alg».proof.Proof.Gen.KernelIdeal.Launch
import proofs.«403712_j45286135169680_3_alg».proof.Proof.Region2
import proofs.«403712_j45286135169680_3_alg».proof.Proof.Alg
import Idealize.ShloMosaic.Lib.Pipeline.Value
import Idealize.ShloMosaic.Lib.ValueIdx
import Idealize.ShloMosaic.PureOps.Ideal.Laws
import Idealize.ShloMosaic.Lib.StackMember
import proofs.«403712_j45286135169680_3_alg».proof.Proof.Spec
import proofs.«403712_j45286135169680_3_alg».proof.Proof.Lift

noncomputable section

namespace Cert.KernelIdeal.Val2

open Idealize.ShloMosaic Idealize.ShloMosaic.ValueIdx Idealize.ShloMosaic.TcCoe Idealize.SL.Sem Cert.KernelIdeal Cert.KernelIdeal.Gen
open Idealize.ShloMosaic.Pipeline (Dat)
open scoped BigOperators

theorem k2_pay1_apply (p q : Fin 1024) :
    (k2_pay1 (F := Ideal)) (ix2 p q) = ((0 : ℝ) : EReal) := by
  unfold k2_pay1
  rw [shapeCast_self]
  show Ideal.ofBits .f32 0x00000000#32 = _
  rw [Ideal.ofBits_zero_f32]
  rfl

theorem mm_apply (l : FVec Ideal S1024x512 .bf16) (r : FVec Ideal S512x1024 .bf16) (p q : Fin 1024) :
    matmul dot_S1024x512_S512x1024_S1024x1024_1_0_0_1_n_n none l r (constant (F := Ideal) S1024x1024 .f32 0x00000000#32) (ix2 p q)
      = ∑ k : Fin 512, l (ix2 p k) * r (ix2 k q) := by
  simp only [matmul]
  rw [Ideal.matmul_constant_zero_apply]
  exact (Ideal.dotGeneral_apply _ none _ l r _).symm.trans (StackMember.dotGeneral_plain_apply none l r p q)

theorem k2_pay2_apply (v3 : Vec Ideal S1x1 .f32) (v5 : Vec Ideal S1024x512 .f32) (v10 : Vec Ideal S512x1024 .f32)
    (v12 : Vec Ideal S1024x1024 .f32) (cs : ℝ) (a : Fin 1024 → Fin 512 → ℝ) (T : Fin 512 → Fin 1024 → ℝ)
    (acc : Fin 1024 → Fin 1024 → ℝ)
    (h3 : v3 (ix2 0 0) = ((cs : ℝ) : EReal))
    (h5 : ∀ p k, v5 (ix2 p k) = ((a p k : ℝ) : EReal))
    (h10 : ∀ k q, v10 (ix2 k q) = ((T k q : ℝ) : EReal))
    (h12 : ∀ p q, v12 (ix2 p q) = ((acc p q : ℝ) : EReal)) (p q : Fin 1024) :
    k2_pay2 v3 v5 v10 v12 (ix2 p q) = ((acc p q + ∑ k : Fin 512, (a p k - cs) * T k q : ℝ) : EReal) := by
  unfold k2_pay2
  rw [shapeCast_self, shapeCast_self]
  rw [addf_apply, mm_apply, h12]
  have e4 : extractAt ![0, 0] v3 Facts₀.inpos_S1x1_p0_0 = ((cs : ℝ) : EReal) := by
    rw [← h3]
    unfold extractAt
    congr 1
    funext d
    match d with
    | ⟨0, _⟩ => rfl
    | ⟨1, _⟩ => rfl
  have es : ∀ k : Fin 512,
      (truncf .bf16 (subf v5 (broadcast S1024x512 (extractAt ![0, 0] v3 Facts₀.inpos_S1x1_p0_0))) Facts₀.bitsLt_bf16_f32 : FVec Ideal S1024x512 .bf16) (ix2 p k)
        * (truncf .bf16 v10 Facts₀.bitsLt_bf16_f32 : FVec Ideal S512x1024 .bf16) (ix2 k q)
      = (((a p k - cs) * T k q : ℝ) : EReal) := by
    intro k
    rw [truncf_apply, truncf_apply, subf_apply, broadcast_apply, e4, h5, h10, Lift.sub_coe, Lift.mul_coe]
  rw [Finset.sum_congr rfl fun k _ => es k, Lift.coe_sum_univ, Lift.add_coe]

abbrev rowIx (t : ℕ) (p : Fin 1024) : Fin 4096 := ⟨1024 * (t / 32 % 4) + p.val, by omega⟩
abbrev midIx (t : ℕ) (κ : Fin 512) : Fin 4096 := ⟨512 * (t % 8) + κ.val, by omega⟩
abbrev colIx (t : ℕ) (q : Fin 1024) : Fin 4096 := ⟨1024 * (t / 8 % 4) + q.val, by omega⟩

theorem idx_facts : ∀ t : Fin cfg2.N,
    win2_0.index t (0 : Fin 2) = t.val / 32 ∧ win2_0.index t (1 : Fin 2) = t.val % 8
  ∧ win2_1.index t (0 : Fin 2) = t.val % 8 ∧ win2_1.index t (1 : Fin 2) = t.val / 8 % 4
  ∧ win2_2.index t (0 : Fin 2) = 0 ∧ win2_2.index t (1 : Fin 2) = 0
  ∧ win2_3.index t (0 : Fin 2) = t.val / 32 ∧ win2_3.index t (1 : Fin 2) = t.val / 8 % 4 :=
  (by decide +kernel : ∀ t : Fin grid2.N, _)

section Reals

variable (a T : Spec.Mat 4096 4096) (cs : ℝ)

def pt (t : ℕ) (p q : Fin 1024) : ℝ :=
  ∑ κ : Fin 512, (a (rowIx t p) (midIx t κ) - cs) * T (midIx t κ) (colIx t q)

def S : ℕ → Fin 1024 → Fin 1024 → ℝ
  | 0 => fun p q => 0 + pt a T cs 0 p q
  | n + 1 => fun p q => (if (n + 1) % 8 = 0 then 0 else S n p q) + pt a T cs (n + 1) p q

theorem S_reset (n : ℕ) (h : n % 8 = 0) (p q : Fin 1024) : S a T cs n p q = 0 + pt a T cs n p q := by
  cases n with
  | zero => rfl
  | succ n => show (if (n + 1) % 8 = 0 then 0 else S a T cs n p q) + _ = _; rw [if_pos h]

theorem S_step (n : ℕ) (h : ¬(n + 1) % 8 = 0) (p q : Fin 1024) :
    S a T cs (n + 1) p q = S a T cs n p q + pt a T cs (n + 1) p q := by
  show (if (n + 1) % 8 = 0 then 0 else S a T cs n p q) + _ = _; rw [if_neg h]

theorem S_row (m : ℕ) (p q : Fin 1024) : ∀ k : ℕ, k < 8 →
    S a T cs (8 * m + k) p q = ∑ b ∈ Finset.range (k + 1), pt a T cs (8 * m + b) p q
  | 0, _ => by
    rw [S_reset a T cs (8 * m + 0) (by omega), Finset.sum_range_one, zero_add]
  | k + 1, hk => by
    show S a T cs ((8 * m + k) + 1) p q = _
    rw [S_step a T cs (8 * m + k) (by omega), S_row m p q k (by omega), Finset.sum_range_succ (n := k + 1)]
    rfl

theorem row_total (m : ℕ) (p q : Fin 1024) :
    ∑ b ∈ Finset.range 8, pt a T cs (8 * m + b) p q
      = ∑ k : Fin 4096, (a (rowIx (8 * m + 7) p) k - cs) * T k (colIx (8 * m + 7) q) := by
  rw [Finset.sum_range (fun b => pt a T cs (8 * m + b) p q),
    Spec.sum_tiles_8_512 (fun k => (a (rowIx (8 * m + 7) p) k - cs) * T k (colIx (8 * m + 7) q))]
  refine Finset.sum_congr rfl fun b _ => ?_
  unfold pt
  refine Finset.sum_congr rfl fun κ _ => ?_
  have e1 : rowIx (8 * m + b.val) p = rowIx (8 * m + 7) p := Fin.ext (by show 1024 * _ + _ = 1024 * _ + _; omega)
  have e2 : midIx (8 * m + b.val) κ = ⟨512 * b.val + κ.val, by omega⟩ := Fin.ext (by show 512 * _ + _ = 512 * _ + _; omega)
  have e3 : colIx (8 * m + b.val) q = colIx (8 * m + 7) q := Fin.ext (by show 1024 * _ + _ = 1024 * _ + _; omega)
  rw [e1, e2, e3]

end Reals

section Region

variable (V : (c : Dev nD) → (b : Ref sig .tc) → Buf (Elt Ideal) ((c : Thread nD τ).loc b))

theorem iblk0_apply (c : Dev nD) (t : Fin cfg2.N) (p : Fin 1024) (κ : Fin 512) :
    (Reg2.iblk V c 0 t : S1024x512.Idx → EReal) (ix2 p κ)
      = (V c main_v8_0 : S4096x4096.Idx → EReal) (ix2 (rowIx t.val p) (midIx t.val κ)) := by
  obtain ⟨e0, e1, -⟩ := idx_facts t
  have hN : cfg2.N = 128 := N_2
  have ht := t.isLt
  unfold Reg2.iblk
  rw [View.read_apply]
  show V c main_v8_0 _ = V c main_v8_0 _
  congr 1
  funext d
  apply Fin.ext
  match d with
  | ⟨0, _⟩ => show win2_0.index t 0 * 1024 + 1 * p.val = 1024 * (t.val / 32 % 4) + p.val; rw [e0]; omega
  | ⟨1, _⟩ => show win2_0.index t 1 * 512 + 1 * κ.val = 512 * (t.val % 8) + κ.val; rw [e1]; omega

theorem iblk1_apply (c : Dev nD) (t : Fin cfg2.N) (κ : Fin 512) (q : Fin 1024) :
    (Reg2.iblk V c 1 t : S512x1024.Idx → EReal) (ix2 κ q)
      = (V c main_arg2 : S4096x4096.Idx → EReal) (ix2 (midIx t.val κ) (colIx t.val q)) := by
  obtain ⟨-, -, e0, e1, -⟩ := idx_facts t
  unfold Reg2.iblk
  rw [View.read_apply]
  show V c main_arg2 _ = V c main_arg2 _
  congr 1
  funext d
  apply Fin.ext
  match d with
  | ⟨0, _⟩ => show win2_1.index t 0 * 512 + 1 * κ.val = 512 * (t.val % 8) + κ.val; rw [e0]; omega
  | ⟨1, _⟩ => show win2_1.index t 1 * 1024 + 1 * q.val = 1024 * (t.val / 8 % 4) + q.val; rw [e1]; omega

theorem iblk2_apply (c : Dev nD) (t : Fin cfg2.N) :
    (Reg2.iblk V c 2 t : S1x1.Idx → EReal) (ix2 0 0) = (V c main_v20 : S1x1.Idx → EReal) (ix2 0 0) := by
  obtain ⟨-, -, -, -, e0, e1, -⟩ := idx_facts t
  unfold Reg2.iblk
  rw [View.read_apply]
  show V c main_v20 _ = V c main_v20 _
  congr 1
  funext d
  apply Fin.ext
  match d with
  | ⟨0, _⟩ => show win2_2.index t 0 * 1 + 1 * 0 = 0; rw [e0]
  | ⟨1, _⟩ => show win2_2.index t 1 * 1 + 1 * 0 = 0; rw [e1]

theorem mem_blk (t : Fin cfg2.N) (i : S4096x4096.Idx) :
    i ∈ ((cfg2.win 3).blk t).view.set ↔ ∀ d : Fin 2, win2_3.index t d * S1024x1024.size d ≤ (i d).val
      ∧ (i d).val < win2_3.index t d * S1024x1024.size d + S1024x1024.size d := by
  show i ∈ ((View.whole main_v36).slice (win2_3.rect t)).set ↔ _
  rw [View.set_slice_whole, Rect.mem_set_unit]
  exact Iff.rfl

theorem cover (i : S4096x4096.Idx) :
    ∃ t : Fin cfg2.N, (cfg2.win 3).flush t = true ∧ i ∈ ((cfg2.win 3).blk t).view.set := by
  have h0 : (i 0).val < 4096 := idx2_lt0 i
  have h1 : (i 1).val < 4096 := idx2_lt1 i
  have hN : cfg2.N = 128 := N_2
  obtain ⟨t, ht⟩ : ∃ t : Fin cfg2.N, t.val = 32 * ((i 0).val / 1024) + 8 * ((i 1).val / 1024) + 7 :=
    ⟨⟨32 * ((i 0).val / 1024) + 8 * ((i 1).val / 1024) + 7, by omega⟩, rfl⟩
  obtain ⟨-, -, -, -, -, -, e0, e1⟩ := idx_facts t
  refine ⟨t, (flush2_3 t).mpr (by omega), ?_⟩
  rw [mem_blk]
  intro d
  match d with
  | ⟨0, _⟩ =>
    show win2_3.index t 0 * 1024 ≤ (i 0).val ∧ (i 0).val < win2_3.index t 0 * 1024 + 1024
    rw [e0]; omega
  | ⟨1, _⟩ =>
    show win2_3.index t 1 * 1024 ≤ (i 1).val ∧ (i 1).val < win2_3.index t 1 * 1024 + 1024
    rw [e1]; omega

section Values

variable (c : Dev nD) (a T : Spec.Mat 4096 4096) (cs : ℝ)
  (ha : ∀ p q, (V c main_v8_0 : S4096x4096.Idx → EReal) (ix2 p q) = ((a p q : ℝ) : EReal))
  (hT : ∀ p q, (V c main_arg2 : S4096x4096.Idx → EReal) (ix2 p q) = ((T p q : ℝ) : EReal))
  (hcs : (V c main_v20 : S1x1.Idx → EReal) (ix2 0 0) = ((cs : ℝ) : EReal))

include ha hT hcs

theorem step_val (t : Fin cfg2.N) (acc : Vec Ideal S1024x1024 .f32) (r : Fin 1024 → Fin 1024 → ℝ)
    (hacc : ∀ p q, acc (ix2 p q) = ((r p q : ℝ) : EReal)) (p q : Fin 1024) :
    k2_pay2 (Reg2.iblk V c 2 t) (Reg2.iblk V c 0 t) (Reg2.iblk V c 1 t) acc (ix2 p q)
      = ((r p q + pt a T cs t.val p q : ℝ) : EReal) :=
  k2_pay2_apply (Reg2.iblk V c 2 t) (Reg2.iblk V c 0 t) (Reg2.iblk V c 1 t) acc cs
    (fun p κ => a (rowIx t.val p) (midIx t.val κ)) (fun κ q => T (midIx t.val κ) (colIx t.val q)) r
    ((iblk2_apply V c t).trans hcs) (fun p κ => (iblk0_apply V c t p κ).trans (ha _ _))
    (fun κ q => (iblk1_apply V c t κ q).trans (hT _ _)) hacc p q

theorem scr_val : ∀ (n : ℕ) (hn : n < cfg2.N) (p q : Fin 1024),
    (Reg2.scr V c n hn) (ix2 p q) = ((S a T cs n p q : ℝ) : EReal)
  | 0, hn, p, q =>
    step_val V c a T cs ha hT hcs ⟨0, hn⟩ (k2_pay1 (F := Ideal)) (fun _ _ => 0) (fun p q => k2_pay1_apply p q) p q
  | n + 1, hn, p, q => by
    show k2_pay2 (Reg2.iblk V c 2 ⟨n + 1, hn⟩) (Reg2.iblk V c 0 ⟨n + 1, hn⟩) (Reg2.iblk V c 1 ⟨n + 1, hn⟩)
      (if (n + 1) % 8 = 0 then (k2_pay1 (F := Ideal)) else Reg2.scr V c n (Nat.lt_of_succ_lt hn)) (ix2 p q) = _
    refine step_val V c a T cs ha hT hcs ⟨n + 1, hn⟩ _ (fun p q => if (n + 1) % 8 = 0 then 0 else S a T cs n p q) (fun p q => ?_) p q
    by_cases h : (n + 1) % 8 = 0
    · rw [if_pos h, if_pos h]; exact k2_pay1_apply p q
    · rw [if_neg h, if_neg h]; exact scr_val n (Nat.lt_of_succ_lt hn) p q

abbrev G : S4096x4096.Idx → EReal := fun i =>
  ((∑ k : Fin 4096, (a ⟨(i 0).val, idx2_lt0 i⟩ k - cs) * T k ⟨(i 1).val, idx2_lt1 i⟩ : ℝ) : EReal)

theorem flushed_eq (t : Fin cfg2.N) (hf : (cfg2.win 3).flush t = true) :
    (Reg2.dat V c).flushed 3 t = ((cfg2.win 3).blk t).view.read (Elt Ideal) (G a T cs) := by
  have h7 : t.val % 8 = 7 := (flush2_3 t).mp hf
  obtain ⟨-, -, -, -, -, -, e0, e1⟩ := idx_facts t
  have hN : cfg2.N = 128 := N_2
  have ht := t.isLt
  show (cfg2.win 3).cut (grid2.coords t) ((Reg2.dat V c).after 3 t) = _
  rw [Reg2.after_3]
  funext j
  obtain ⟨p, q, rfl⟩ : ∃ (p : Fin 1024) (q : Fin 1024), j = ix2 p q := ⟨j 0, j 1, eq_ix2 j⟩
  rw [View.read_apply]
  have hemb : ((cfg2.win 3).blk t).view.emb (ix2 p q) = ix2 (rowIx t.val p) (colIx t.val q) := by
    funext d
    apply Fin.ext
    match d with
    | ⟨0, _⟩ => show win2_3.index t 0 * 1024 + 1 * p.val = 1024 * (t.val / 32 % 4) + p.val; rw [e0]; omega
    | ⟨1, _⟩ => show win2_3.index t 1 * 1024 + 1 * q.val = 1024 * (t.val / 8 % 4) + q.val; rw [e1]; omega
  rw [hemb]
  show Reg2.scr V c t.val t.isLt (ix2 p q) = ((∑ k : Fin 4096, (a (rowIx t.val p) k - cs) * T k (colIx t.val q) : ℝ) : EReal)
  rw [scr_val V c a T cs ha hT hcs t.val t.isLt p q]
  have ht8 : t.val = 8 * (t.val / 8) + 7 := by omega
  rw [ht8, S_row a T cs (t.val / 8) p q 7 (by omega), row_total a T cs (t.val / 8) p q]

theorem region2_out : ∀ p q, ((Reg2.dat V c).arrAt 3 cfg2.N : S4096x4096.Idx → EReal) (ix2 p q)
      = ((∑ k, (a p k - cs) * T k q : ℝ) : EReal) := by
  intro p q
  have hfin : (Reg2.dat V c).arrAt 3 cfg2.N = G a T cs :=
    (Reg2.dat V c).arrAt_eq_of_cover 3 (G a T cs) (fun t hf => flushed_eq V c a T cs ha hT hcs t hf) cover
  rw [hfin]

end Values

end Region

end Cert.KernelIdeal.Val2
-- ==== Proof.Val3.lean ====
import proofs.«403712_j45286135169680_3_alg».proof.Proof.Region3
import proofs.«403712_j45286135169680_3_alg».proof.Proof.Gen.KernelIdeal.Skeleton
import proofs.«403712_j45286135169680_3_alg».proof.Proof.Gen.KernelIdeal.Points
import proofs.«403712_j45286135169680_3_alg».proof.Proof.Gen.KernelIdeal.Launch
import Idealize.ShloMosaic.Lib.ValueLayout
import Idealize.ShloMosaic.Lib.StackMember
import proofs.«403712_j45286135169680_3_alg».proof.Proof.Spec
import proofs.«403712_j45286135169680_3_alg».proof.Proof.Lift
import proofs.«403712_j45286135169680_3_alg».proof.Proof.Alg

noncomputable section

namespace Cert.KernelIdeal.Val3

open Cert.KernelIdeal Cert.KernelIdeal.Gen Idealize.ShloMosaic Idealize.ShloMosaic.ValueIdx Idealize.ShloMosaic.TcCoe
open scoped BigOperators

section Layout
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split <;> omega
  | ⟨1, _⟩ => rfl

theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    rw [Shape.rowMajor_val_two, Shape.rowMajor_val_one]
    show p.val = p.val * 1 + u.val
    omega)

theorem extractAt_11 (v : (⟨2, ![1, 1]⟩ : Shape).Idx → α) (h : ∀ a, (![0, 0] : Fin 2 → ℕ) a < (⟨2, ![1, 1]⟩ : Shape).size a) :
    extractAt ![0, 0] v h = v (ix2 (0 : Fin 1) (0 : Fin 1)) :=
  congrArg v (Shape.idx_ext₂ rfl rfl)

end Layout

theorem rowSum_apply (src : FVec Ideal S1024x1024 .f32) (h : S1024x1024.Reduces [1] S1024) (hφ : FKind.Formats .f32)
    (hacc : (0x00000000#32 : BitVec 32) = 0x00000000#32) (p : Fin 1024) :
    multiReduction .add [1] S1024 src 0x00000000#32 h hφ hacc (ix1 p) = ∑ q : Fin 1024, src (ix2 p q) := by
  refine (Ideal.multiReduction_add_single src 0x00000000#32 h hφ hacc (ix1 p)).trans ?_
  exact Finset.sum_congr rfl fun q _ => congrArg src (Shape.idx_ext₂ rfl rfl)

theorem exp_apply {s : Shape} {φ : FTy} (a : FVec Ideal s φ) (i : s.Idx) : exp a i = Ideal.exp (a i) := rfl

theorem scalar_ofBits {φ : FTy} (b : BitVec φ.bits) : Scalar.ofBits (F := Ideal) φ b = Ideal.ofBits φ b := rfl

-- A product with a transposed right factor into a zero accumulator is, at (p, q), the sum over c of A p c * B q c.
theorem matmulT_apply {m k n : ℕ} (A : FVec Ideal ⟨2, ![m, k]⟩ .bf16) (B : FVec Ideal ⟨2, ![n, k]⟩ .bf16)
    (h : (⟨2, ![n, k]⟩ : Shape).Transposes [1, 0] ⟨2, ![k, n]⟩) (p : Fin m) (q : Fin n) :
    matmul (DotDims.plain m k n) none A (transpose ⟨2, ![k, n]⟩ [1, 0] B h) (constant (F := Ideal) ⟨2, ![m, n]⟩ .f32 0x00000000#32) (ix2 p q)
      = ∑ c : Fin k, A (ix2 p c) * B (ix2 q c) := by
  rw [matmul_zero_eq_dotGeneral, StackMember.dotGeneral_plain_apply]
  exact Finset.sum_congr rfl fun c _ => by rw [transpose_ix2_apply]

-- The vector holds, entry by entry, a real matrix (below: a real column, a real row, one real number).
abbrev IsM {a b : ℕ} (v : (⟨2, ![a, b]⟩ : Shape).Idx → EReal) (f : Fin a → Fin b → ℝ) : Prop :=
  ∀ p q, v (ix2 p q) = ((f p q : ℝ) : EReal)
abbrev IsC {a : ℕ} (v : (⟨2, ![a, 1]⟩ : Shape).Idx → EReal) (f : Fin a → ℝ) : Prop :=
  ∀ p, v (ix2 p (0 : Fin 1)) = ((f p : ℝ) : EReal)
abbrev IsRow {b : ℕ} (v : (⟨2, ![1, b]⟩ : Shape).Idx → EReal) (f : Fin b → ℝ) : Prop :=
  ∀ q, v (ix2 (0 : Fin 1) q) = ((f q : ℝ) : EReal)
abbrev IsS (v : S1x1.Idx → EReal) (r : ℝ) : Prop := v (ix2 (0 : Fin 1) (0 : Fin 1)) = ((r : ℝ) : EReal)

section Payloads
variable {z0 z1 z2 : Vec Ideal S1x1 .f32} {m0 m1 : Vec Ideal S1024x512 .f32} {q0 q1 : Vec Ideal S1024x1024 .f32}
  {n0 n1 : Vec Ideal S1024x128 .f32} {c0 c1 c2 : Vec Ideal S1024x1 .f32} {r0 r1 : Vec Ideal S1x1024 .f32}
  {j k : ℕ} {ct cs S : ℝ} {tm b : Fin 1024 → Fin 512 → ℝ} {a T : Fin 1024 → Fin 1024 → ℝ} {x y : Fin 1024 → Fin 128 → ℝ}
  {e1 e2 v2 v3 f1 f2 g : Fin 1024 → ℝ}

theorem pay6_eq (v8 : Vec Ideal S1x1 .f32) : k3_pay6 (F := Ideal) v8 = v8 (ix2 (0 : Fin 1) (0 : Fin 1)) := by
  unfold k3_pay6
  exact extractAt_11 v8 _

theorem pay7_apply (h8 : IsS z0 ct) (h10 : IsM m0 tm) (h13 : IsM m1 b) (h18 : IsM q0 a) (p q : Fin 1024) :
    k3_pay7 (F := Ideal) z0 m0 m1 q0 (ix2 p q) = ((a p q + ∑ i, tm p i * (b q i - ct) : ℝ) : EReal) := by
  unfold k3_pay7
  simp only [shapeCast_self, addf_apply]
  rw [show dot_S1024x512_S512x1024_S1024x1024_1_0_0_1_n_n = DotDims.plain 1024 512 1024 from rfl, matmulT_apply]
  simp only [shapeCast_self, truncf_apply, subf_apply, broadcast_apply,
    pay6_eq, h8, h10, h13, h18, Lift.sub_coe, Lift.mul_coe, Lift.coe_sum_univ, Lift.add_coe]

theorem zeros_apply {s : Shape} (h : s.ShapeCasts s) (i : s.Idx) :
    shapeCast s (broadcast s (Scalar.ofBits (F := Ideal) .f32 0x00000000#32)) h i = ((0 : ℝ) : EReal) := by
  simp only [shapeCast_self, broadcast_apply, scalar_ofBits, Lift.ofBits_zero]

theorem pay1_apply (h36 : IsM n0 x) (h38 : IsM n1 y) (h55 : IsC c0 e1) (h57 : IsRow r0 e2) (h73 : IsM q1 T)
    (he1 : ∀ p, 0 ≤ e1 p) (he2 : ∀ q, 0 ≤ e2 q) (p : Fin 1024) :
    k3_pay1 (F := Ideal) n0 n1 c0 r0 q1 (ix1 p)
      = ((∑ q, (Lift.lit 0x3F800000#32 - Real.exp (-(Lift.lit 0x3F800000#32
            - (∑ i, x p i * y q i) / (e1 p * e2 q + Lift.lit 0x3727C5AC#32)))) * T p q : ℝ) : EReal) := by
  unfold k3_pay1
  refine (rowSum_apply _ _ _ _ p).trans ?_
  rw [← Lift.coe_sum_univ]
  refine Finset.sum_congr rfl fun q _ => ?_
  have hd : e1 p * e2 q + Lift.lit 0x3727C5AC#32 ≠ 0 :=
    ne_of_gt (add_pos_of_nonneg_of_pos (mul_nonneg (he1 p) (he2 q)) Lift.lit_eps_pos)
  simp only [shapeCast_self, mulf_apply, subf_apply, addf_apply, divf_apply, exp_apply, broadcast_apply, broadcastTo_a1_ab_apply, broadcastTo_1b_ab_apply]
  rw [show dot_S1024x128_S128x1024_S1024x1024_1_0_0_1_n_n = DotDims.plain 1024 128 1024 from rfl,
    matmulT_apply, matmulT_apply, matmulT_apply]
  simp only [truncf_apply, subf_apply, h36, h38, h55, h57, h73, scalar_ofBits, Lift.ofBits_one, Lift.ofBits_eps, Lift.ofBits_zero,
    Lift.sub_coe, Lift.mul_coe, Lift.coe_sum_univ, Lift.add_coe, Lift.div_coe_coe _ _ hd, Lift.exp_coe]
  simp only [sub_self, mul_zero, zero_mul, Finset.sum_const_zero, add_zero, zero_sub]

theorem pay2_apply {v9 : Ideal .f32} (h9 : v9 = ((ct : ℝ) : EReal)) (h36 : IsS z1 cs) (h38 : IsS z2 S) (h42 : IsRow r1 v2)
    (h48 : IsC c2 v3) (h55 : IsM q0 a) (h57 : IsC c0 f1) (h59 : IsRow r0 f2) (h67 : IsC c1 g) (h68 : IsM q1 T) (p : Fin 1024) :
    k3_pay2 (F := Ideal) v9 z1 z2 r1 c2 q0 c0 r0 c1 q1 (ix2 p (0 : Fin 1))
      = ((g p + ∑ q, (f1 p + f2 q - Lift.lit 0x40000000#32 * (cs * ct * S + cs * v2 q + ct * v3 p + a p q)) * T p q : ℝ) : EReal) := by
  unfold k3_pay2
  simp only [shapeCast_self, addf_apply, shapeCast_a_a1_apply]
  rw [rowSum_apply]
  simp only [shapeCast_self, mulf_apply, subf_apply, addf_apply, broadcast_apply, broadcastTo_a1_ab_apply, broadcastTo_1b_ab_apply, extractAt_11,
    Ideal.scalar_mulf_def, h9, h36, h38, h42, h48, h55, h57, h59, h67, h68, scalar_ofBits, Lift.ofBits_two,
    Lift.sub_coe, Lift.mul_coe, Lift.coe_sum_univ, Lift.add_coe]

theorem accStep_apply (h10 : IsS z0 ct) (h0 : IsM m0 tm) (h1 : IsM m1 b) (hacc : k ≠ 0 → IsM q0 a) (p q : Fin 1024) :
    Reg3.accStep (F := Ideal) k z0 m0 m1 q0 (ix2 p q)
      = (((if k = 0 then 0 else a p q) + ∑ i, tm p i * (b q i - ct) : ℝ) : EReal) := by
  unfold Reg3.accStep
  refine pay7_apply (a := fun p q => if k = 0 then 0 else a p q) h10 h0 h1 (fun p q => ?_) p q
  beta_reduce
  by_cases hk : k = 0
  · rw [if_pos hk, if_pos hk]; exact zeros_apply _ _
  · rw [if_neg hk, if_neg hk]; exact hacc hk p q

theorem dwStep_apply {r : ℝ} {p : Fin 1024} (hr : k3_pay1 (F := Ideal) n0 n1 c0 r0 q1 (ix1 p) = ((r : ℝ) : EReal))
    (hw : ¬(j = 0 ∧ k = 0) → IsC c1 g) :
    Reg3.dwStep (F := Ideal) j k n0 n1 c0 r0 q1 c1 (ix2 p (0 : Fin 1))
      = ((if k = 0 then (if j = 0 then 0 else g p) + r else g p : ℝ) : EReal) := by
  unfold Reg3.dwStep
  by_cases hk : k = 0
  · rw [if_pos hk, if_pos hk]
    unfold k3_pay8
    simp only [shapeCast_self, addf_apply, shapeCast_a_a1_apply]
    rw [hr, ← Lift.add_coe]
    congr 1
    by_cases hj : j = 0
    · rw [if_pos hj, if_pos hj]; exact zeros_apply _ _
    · rw [if_neg hj, if_neg hj]; exact hw (fun h => hj h.1) p
  · rw [if_neg hk, if_neg hk]; exact hw (fun h => hk h.2) p

theorem dgwStep_apply {r : ℝ} {p : Fin 1024}
    (hr : k = 7 → k3_pay2 (F := Ideal) (k3_pay6 z0) z1 z2 r1 c2 q0 c0 r0 c1 q1 (ix2 p (0 : Fin 1)) = ((r : ℝ) : EReal))
    (hg : ¬(j = 0 ∧ k = 0) → IsC c1 g) :
    Reg3.dgwStep (F := Ideal) j k z0 z1 z2 r1 c2 q0 c0 r0 q1 c1 (ix2 p (0 : Fin 1))
      = ((if k = 7 then r else if j = 0 ∧ k = 0 then 0 else g p : ℝ) : EReal) := by
  unfold Reg3.dgwStep
  by_cases hk : k = 7
  · rw [if_pos hk, if_pos hk]
    unfold k3_pay9
    rw [shapeCast_self]
    exact hr hk
  · rw [if_neg hk, if_neg hk]
    by_cases h0 : j = 0 ∧ k = 0
    · rw [if_pos h0, if_pos h0]; exact zeros_apply _ _
    · rw [if_neg h0, if_neg h0]; exact hg h0 p

end Payloads

theorem idx3_14 : ∀ t : Fin cfg3.N, win3_14.index t (0 : Fin 2) = t.val / 32 % 4 ∧ win3_14.index t (1 : Fin 2) = 0 :=
  (by decide +kernel : ∀ t : Fin grid3.N, _)
theorem idx3_15 : ∀ t : Fin cfg3.N, win3_15.index t (0 : Fin 2) = t.val / 32 % 4 ∧ win3_15.index t (1 : Fin 2) = 0 :=
  (by decide +kernel : ∀ t : Fin grid3.N, _)

-- Position q of tile b among tiles of m positions each.
def tl (m b : ℕ) (q : Fin m) : Fin 4096 := ⟨(m * b + q.val) % 4096, Nat.mod_lt _ (by decide)⟩

abbrev rI (n : ℕ) (p : Fin 1024) : Fin 4096 := tl 1024 (n / 32 % 4) p
abbrev cJ (n : ℕ) (q : Fin 1024) : Fin 4096 := tl 1024 (n / 8 % 4) q
abbrev kK (n : ℕ) (r : Fin 512) : Fin 4096 := tl 512 (n % 8) r

theorem rI_pred {n : ℕ} (h : ¬(n / 8 % 4 = 0 ∧ n % 8 = 0)) : rI (n - 1) = rI n := by
  unfold rI; rw [show (n - 1) / 32 % 4 = n / 32 % 4 by omega]

theorem cJ_pred {n : ℕ} (h : n % 8 ≠ 0) : cJ (n - 1) = cJ n := by
  unfold cJ; rw [show (n - 1) / 8 % 4 = n / 8 % 4 by omega]

theorem sum_tl4 (f : Fin 4096 → ℝ) : ∑ b ∈ Finset.range 4, ∑ q : Fin 1024, f (tl 1024 b q) = ∑ Q, f Q := by
  rw [Spec.sum_tiles_4_1024, Finset.sum_range]
  exact Finset.sum_congr rfl fun b _ => Finset.sum_congr rfl fun q _ => congrArg f (Fin.ext (Nat.mod_eq_of_lt (by omega)))

theorem sum_tl8 (f : Fin 4096 → ℝ) : ∑ b ∈ Finset.range 8, ∑ q : Fin 512, f (tl 512 b q) = ∑ Q, f Q := by
  rw [Spec.sum_tiles_8_512, Finset.sum_range]
  exact Finset.sum_congr rfl fun b _ => Finset.sum_congr rfl fun q _ => congrArg f (Fin.ext (Nat.mod_eq_of_lt (by omega)))

section Main
variable (V : (c : Dev nD) → (b : Ref sig .tc) → Buf (Elt Ideal) ((c : Thread nD τ).loc b)) (c : Dev nD)
  (tm b T : Spec.Mat 4096 4096) (f1 v3 e1 f2 v2 e2 : Spec.Col 4096) (x y : Spec.Mat 4096 128) (cs ct S : ℝ)

section RealSide
variable (one eps two : ℝ)

def prodT (P Q : Fin 4096) (kk : ℕ) : ℝ := ∑ r : Fin 512, tm P (tl 512 kk r) * (b Q (tl 512 kk r) - ct)

-- After point n the square accumulator is the sum of the shares of the contraction tiles up to n % 8.
def accR (n : ℕ) (p q : Fin 1024) : ℝ := ∑ kk ∈ Finset.range (n % 8 + 1), prodT tm b ct (rI n p) (cJ n q) kk

def dE (P Q : Fin 4096) : ℝ :=
  f1 P + f2 Q - two * (cs * ct * S + cs * v2 Q + ct * v3 P + ∑ kk ∈ Finset.range 8, prodT tm b ct P Q kk)

def dgwT (P : Fin 4096) (jj : ℕ) : ℝ :=
  ∑ q : Fin 1024, dE tm b f1 v3 f2 v2 cs ct S two P (tl 1024 jj q) * T P (tl 1024 jj q)
def dwT (P : Fin 4096) (jj : ℕ) : ℝ :=
  ∑ q : Fin 1024, Spec.cosG one eps (fun u => -u) x y e1 e2 P (tl 1024 jj q) * T P (tl 1024 jj q)

-- After point n the second column sum is the sum of the shares of the column tiles up to n / 8 % 4.
def dwR (n : ℕ) (p : Fin 1024) : ℝ := ∑ jj ∈ Finset.range (n / 8 % 4 + 1), dwT T e1 e2 x y one eps (rI n p) jj

-- After point n the first column sum is the sum of the shares of the column tiles whose contraction is complete.
def dgwR (n : ℕ) (p : Fin 1024) : ℝ :=
  ∑ jj ∈ Finset.range ((n % 32 + 1) / 8), dgwT tm b T f1 v3 f2 v2 cs ct S two (rI n p) jj

theorem accR_step (n : ℕ) (p q : Fin 1024) :
    accR tm b ct n p q
      = (if n % 8 = 0 then 0 else accR tm b ct (n - 1) p q) + prodT tm b ct (rI n p) (cJ n q) (n % 8) := by
  unfold accR
  rw [Finset.sum_range_succ]
  by_cases hk : n % 8 = 0
  · rw [if_pos hk, hk, Finset.sum_range_zero]
  · rw [if_neg hk, rI_pred fun h => hk h.2, cJ_pred hk, show (n - 1) % 8 + 1 = n % 8 by omega]

theorem accR_last (n : ℕ) (hk : n % 8 = 7) (p q : Fin 1024) :
    accR tm b ct n p q = ∑ kk ∈ Finset.range 8, prodT tm b ct (rI n p) (cJ n q) kk := by
  unfold accR; rw [show n % 8 + 1 = 8 by omega]

theorem dwR_step (n : ℕ) (p : Fin 1024) :
    dwR T e1 e2 x y one eps n p
      = if n % 8 = 0 then (if n / 8 % 4 = 0 then 0 else dwR T e1 e2 x y one eps (n - 1) p)
            + dwT T e1 e2 x y one eps (rI n p) (n / 8 % 4)
        else dwR T e1 e2 x y one eps (n - 1) p := by
  unfold dwR
  by_cases hk : n % 8 = 0
  · rw [if_pos hk, Finset.sum_range_succ]
    by_cases hj : n / 8 % 4 = 0
    · rw [if_pos hj, hj, Finset.sum_range_zero]
    · rw [if_neg hj, rI_pred fun h => hj h.1, show (n - 1) / 8 % 4 + 1 = n / 8 % 4 by omega]
  · rw [if_neg hk, rI_pred fun h => hk h.2, show (n - 1) / 8 % 4 = n / 8 % 4 by omega]

theorem dgwR_step (n : ℕ) (p : Fin 1024) :
    dgwR tm b T f1 v3 f2 v2 cs ct S two n p
      = if n % 8 = 7 then dgwR tm b T f1 v3 f2 v2 cs ct S two (n - 1) p
            + dgwT tm b T f1 v3 f2 v2 cs ct S two (rI n p) (n / 8 % 4)
        else if n / 8 % 4 = 0 ∧ n % 8 = 0 then 0 else dgwR tm b T f1 v3 f2 v2 cs ct S two (n - 1) p := by
  unfold dgwR
  by_cases hk : n % 8 = 7
  · rw [if_pos hk, rI_pred (by omega), show (n % 32 + 1) / 8 = n / 8 % 4 + 1 by omega, Finset.sum_range_succ,
      show ((n - 1) % 32 + 1) / 8 = n / 8 % 4 by omega]
  · rw [if_neg hk]
    by_cases h0 : n / 8 % 4 = 0 ∧ n % 8 = 0
    · rw [if_pos h0, show (n % 32 + 1) / 8 = 0 by omega, Finset.sum_range_zero]
    · rw [if_neg h0, rI_pred h0, show ((n - 1) % 32 + 1) / 8 = (n % 32 + 1) / 8 by omega]

theorem dgwR_last (n : ℕ) (h : n % 32 = 31) (p : Fin 1024) :
    dgwR tm b T f1 v3 f2 v2 cs ct S two n p
      = ∑ Q, (f1 (rI n p) + f2 Q - two * (cs * ct * S + cs * v2 Q + ct * v3 (rI n p)
          + ∑ k, tm (rI n p) k * (b Q k - ct))) * T (rI n p) Q := by
  unfold dgwR dgwT dE prodT
  rw [show (n % 32 + 1) / 8 = 4 by omega, ← sum_tl4]
  refine Finset.sum_congr rfl fun jj _ => Finset.sum_congr rfl fun q _ => ?_
  rw [← sum_tl8]

theorem dwR_last (n : ℕ) (h : n % 32 = 31) (p : Fin 1024) :
    dwR T e1 e2 x y one eps n p
      = ∑ Q, Spec.cosG one eps (fun u => -u) x y e1 e2 (rI n p) Q * T (rI n p) Q := by
  unfold dwR dwT
  rw [show n / 8 % 4 + 1 = 4 by omega, ← sum_tl4]

-- The three carried vectors hold their closed forms at point n.
abbrev Inv (s : Reg3.Scr Ideal) (n : ℕ) : Prop :=
  IsM s.acc (accR tm b ct n) ∧ IsC s.dgw (dgwR tm b T f1 v3 f2 v2 cs ct S two n) ∧ IsC s.dw (dwR T e1 e2 x y one eps n)

end RealSide

section Blocks

-- A block of an array of real data is real data: the array read at the tile's positions.
theorem blk0 (t : Fin cfg3.N) {f : Spec.Mat 4096 4096} (hf : IsM (V c main_v36) f) :
    IsM (Reg3.iblk V c 0 t) fun p r => f (rI t.val p) (kK t.val r) := fun p r => by
  obtain ⟨e0, e1⟩ := (by decide +kernel : ∀ t : Fin grid3.N, win3_0.index t (0 : Fin 2) = t.val / 32 % 4 ∧ win3_0.index t (1 : Fin 2) = t.val % 8) t
  show (V c main_v36 : S4096x4096.Idx → EReal) _ = _
  refine (congrArg _ (Shape.idx_ext₂ ?_ ?_)).trans (hf _ _)
  · show win3_0.index t (0 : Fin 2) * 1024 + 1 * p.val = (1024 * (t.val / 32 % 4) + p.val) % 4096; omega
  · show win3_0.index t (1 : Fin 2) * 512 + 1 * r.val = (512 * (t.val % 8) + r.val) % 4096; omega

theorem blk1 (t : Fin cfg3.N) {f : Spec.Mat 4096 4096} (hf : IsM (V c main_v15_0) f) :
    IsM (Reg3.iblk V c 1 t) fun p r => f (cJ t.val p) (kK t.val r) := fun p r => by
  obtain ⟨e0, e1⟩ := (by decide +kernel : ∀ t : Fin grid3.N, win3_1.index t (0 : Fin 2) = t.val / 8 % 4 ∧ win3_1.index t (1 : Fin 2) = t.val % 8) t
  show (V c main_v15_0 : S4096x4096.Idx → EReal) _ = _
  refine (congrArg _ (Shape.idx_ext₂ ?_ ?_)).trans (hf _ _)
  · show win3_1.index t (0 : Fin 2) * 1024 + 1 * p.val = (1024 * (t.val / 8 % 4) + p.val) % 4096; omega
  · show win3_1.index t (1 : Fin 2) * 512 + 1 * r.val = (512 * (t.val % 8) + r.val) % 4096; omega

theorem blk2 (t : Fin cfg3.N) {f : Spec.Col 4096} (hf : IsC (V c main_v8_1) f) :
    IsC (Reg3.iblk V c 2 t) fun p => f (rI t.val p) := fun p => by
  obtain ⟨e0, e1⟩ := (by decide +kernel : ∀ t : Fin grid3.N, win3_2.index t (0 : Fin 2) = t.val / 32 % 4 ∧ win3_2.index t (1 : Fin 2) = 0) t
  show (V c main_v8_1 : S4096x1.Idx → EReal) _ = _
  refine (congrArg _ (Shape.idx_ext₂ ?_ ?_)).trans (hf _)
  · show win3_2.index t (0 : Fin 2) * 1024 + 1 * p.val = (1024 * (t.val / 32 % 4) + p.val) % 4096; omega
  · show win3_2.index t (1 : Fin 2) * 1 + 1 * 0 = 0; omega

theorem blk3 (t : Fin cfg3.N) {f : Spec.Col 4096} (hf : IsRow (V c main_v46) f) :
    IsRow (Reg3.iblk V c 3 t) fun r => f (cJ t.val r) := fun r => by
  obtain ⟨e0, e1⟩ := (by decide +kernel : ∀ t : Fin grid3.N, win3_3.index t (0 : Fin 2) = 0 ∧ win3_3.index t (1 : Fin 2) = t.val / 8 % 4) t
  show (V c main_v46 : S1x4096.Idx → EReal) _ = _
  refine (congrArg _ (Shape.idx_ext₂ ?_ ?_)).trans (hf _)
  · show win3_3.index t (0 : Fin 2) * 1 + 1 * 0 = 0; omega
  · show win3_3.index t (1 : Fin 2) * 1024 + 1 * r.val = (1024 * (t.val / 8 % 4) + r.val) % 4096; omega

theorem blk4 (t : Fin cfg3.N) {f : Spec.Mat 4096 4096} (hf : IsM (V c main_arg2) f) :
    IsM (Reg3.iblk V c 4 t) fun p r => f (rI t.val p) (cJ t.val r) := fun p r => by
  obtain ⟨e0, e1⟩ := (by decide +kernel : ∀ t : Fin grid3.N, win3_4.index t (0 : Fin 2) = t.val / 32 % 4 ∧ win3_4.index t (1 : Fin 2) = t.val / 8 % 4) t
  show (V c main_arg2 : S4096x4096.Idx → EReal) _ = _
  refine (congrArg _ (Shape.idx_ext₂ ?_ ?_)).trans (hf _ _)
  · show win3_4.index t (0 : Fin 2) * 1024 + 1 * p.val = (1024 * (t.val / 32 % 4) + p.val) % 4096; omega
  · show win3_4.index t (1 : Fin 2) * 1024 + 1 * r.val = (1024 * (t.val / 8 % 4) + r.val) % 4096; omega

theorem blk5 (t : Fin cfg3.N) {f : Spec.Mat 4096 128} (hf : IsM (V c main_v0) f) :
    IsM (Reg3.iblk V c 5 t) fun p r => f (rI t.val p) r := fun p r => by
  obtain ⟨e0, e1⟩ := (by decide +kernel : ∀ t : Fin grid3.N, win3_5.index t (0 : Fin 2) = t.val / 32 % 4 ∧ win3_5.index t (1 : Fin 2) = 0) t
  show (V c main_v0 : S4096x128.Idx → EReal) _ = _
  refine (congrArg _ (Shape.idx_ext₂ ?_ ?_)).trans (hf _ _)
  · show win3_5.index t (0 : Fin 2) * 1024 + 1 * p.val = (1024 * (t.val / 32 % 4) + p.val) % 4096; omega
  · show win3_5.index t (1 : Fin 2) * 128 + 1 * r.val = r.val; omega

theorem blk6 (t : Fin cfg3.N) {f : Spec.Mat 4096 128} (hf : IsM (V c main_v1) f) :
    IsM (Reg3.iblk V c 6 t) fun p r => f (cJ t.val p) r := fun p r => by
  obtain ⟨e0, e1⟩ := (by decide +kernel : ∀ t : Fin grid3.N, win3_6.index t (0 : Fin 2) = t.val / 8 % 4 ∧ win3_6.index t (1 : Fin 2) = 0) t
  show (V c main_v1 : S4096x128.Idx → EReal) _ = _
  refine (congrArg _ (Shape.idx_ext₂ ?_ ?_)).trans (hf _ _)
  · show win3_6.index t (0 : Fin 2) * 1024 + 1 * p.val = (1024 * (t.val / 8 % 4) + p.val) % 4096; omega
  · show win3_6.index t (1 : Fin 2) * 128 + 1 * r.val = r.val; omega

theorem blk7 (t : Fin cfg3.N) {f : Spec.Col 4096} (hf : IsC (V c main_v40) f) :
    IsC (Reg3.iblk V c 7 t) fun p => f (rI t.val p) := fun p => by
  obtain ⟨e0, e1⟩ := (by decide +kernel : ∀ t : Fin grid3.N, win3_7.index t (0 : Fin 2) = t.val / 32 % 4 ∧ win3_7.index t (1 : Fin 2) = 0) t
  show (V c main_v40 : S4096x1.Idx → EReal) _ = _
  refine (congrArg _ (Shape.idx_ext₂ ?_ ?_)).trans (hf _)
  · show win3_7.index t (0 : Fin 2) * 1024 + 1 * p.val = (1024 * (t.val / 32 % 4) + p.val) % 4096; omega
  · show win3_7.index t (1 : Fin 2) * 1 + 1 * 0 = 0; omega

theorem blk8 (t : Fin cfg3.N) {f : Spec.Col 4096} (hf : IsRow (V c main_v45) f) :
    IsRow (Reg3.iblk V c 8 t) fun r => f (cJ t.val r) := fun r => by
  obtain ⟨e0, e1⟩ := (by decide +kernel : ∀ t : Fin grid3.N, win3_8.index t (0 : Fin 2) = 0 ∧ win3_8.index t (1 : Fin 2) = t.val / 8 % 4) t
  show (V c main_v45 : S1x4096.Idx → EReal) _ = _
  refine (congrArg _ (Shape.idx_ext₂ ?_ ?_)).trans (hf _)
  · show win3_8.index t (0 : Fin 2) * 1 + 1 * 0 = 0; omega
  · show win3_8.index t (1 : Fin 2) * 1024 + 1 * r.val = (1024 * (t.val / 8 % 4) + r.val) % 4096; omega

theorem blk9 (t : Fin cfg3.N) {f : ℝ} (hf : IsS (V c main_v20) f) : IsS (Reg3.iblk V c 9 t) f := by
  obtain ⟨e0, e1⟩ := (by decide +kernel : ∀ t : Fin grid3.N, win3_9.index t (0 : Fin 2) = 0 ∧ win3_9.index t (1 : Fin 2) = 0) t
  show (V c main_v20 : S1x1.Idx → EReal) _ = _
  refine (congrArg _ (Shape.idx_ext₂ ?_ ?_)).trans hf
  · show win3_9.index t (0 : Fin 2) * 1 + 1 * 0 = 0; omega
  · show win3_9.index t (1 : Fin 2) * 1 + 1 * 0 = 0; omega

theorem blk10 (t : Fin cfg3.N) {f : ℝ} (hf : IsS (V c main_v21) f) : IsS (Reg3.iblk V c 10 t) f := by
  obtain ⟨e0, e1⟩ := (by decide +kernel : ∀ t : Fin grid3.N, win3_10.index t (0 : Fin 2) = 0 ∧ win3_10.index t (1 : Fin 2) = 0) t
  show (V c main_v21 : S1x1.Idx → EReal) _ = _
  refine (congrArg _ (Shape.idx_ext₂ ?_ ?_)).trans hf
  · show win3_10.index t (0 : Fin 2) * 1 + 1 * 0 = 0; omega
  · show win3_10.index t (1 : Fin 2) * 1 + 1 * 0 = 0; omega

theorem blk11 (t : Fin cfg3.N) {f : ℝ} (hf : IsS (V c main_v28) f) : IsS (Reg3.iblk V c 11 t) f := by
  obtain ⟨e0, e1⟩ := (by decide +kernel : ∀ t : Fin grid3.N, win3_11.index t (0 : Fin 2) = 0 ∧ win3_11.index t (1 : Fin 2) = 0) t
  show (V c main_v28 : S1x1.Idx → EReal) _ = _
  refine (congrArg _ (Shape.idx_ext₂ ?_ ?_)).trans hf
  · show win3_11.index t (0 : Fin 2) * 1 + 1 * 0 = 0; omega
  · show win3_11.index t (1 : Fin 2) * 1 + 1 * 0 = 0; omega

theorem blk12 (t : Fin cfg3.N) {f : Spec.Col 4096} (hf : IsRow (V c main_v35) f) :
    IsRow (Reg3.iblk V c 12 t) fun r => f (cJ t.val r) := fun r => by
  obtain ⟨e0, e1⟩ := (by decide +kernel : ∀ t : Fin grid3.N, win3_12.index t (0 : Fin 2) = 0 ∧ win3_12.index t (1 : Fin 2) = t.val / 8 % 4) t
  show (V c main_v35 : S1x4096.Idx → EReal) _ = _
  refine (congrArg _ (Shape.idx_ext₂ ?_ ?_)).trans (hf _)
  · show win3_12.index t (0 : Fin 2) * 1 + 1 * 0 = 0; omega
  · show win3_12.index t (1 : Fin 2) * 1024 + 1 * r.val = (1024 * (t.val / 8 % 4) + r.val) % 4096; omega

theorem blk13 (t : Fin cfg3.N) {f : Spec.Col 4096} (hf : IsC (V c main_v31) f) :
    IsC (Reg3.iblk V c 13 t) fun p => f (rI t.val p) := fun p => by
  obtain ⟨e0, e1⟩ := (by decide +kernel : ∀ t : Fin grid3.N, win3_13.index t (0 : Fin 2) = t.val / 32 % 4 ∧ win3_13.index t (1 : Fin 2) = 0) t
  show (V c main_v31 : S4096x1.Idx → EReal) _ = _
  refine (congrArg _ (Shape.idx_ext₂ ?_ ?_)).trans (hf _)
  · show win3_13.index t (0 : Fin 2) * 1024 + 1 * p.val = (1024 * (t.val / 32 % 4) + p.val) % 4096; omega
  · show win3_13.index t (1 : Fin 2) * 1 + 1 * 0 = 0; omega

end Blocks

def colArr (R : Fin 4096 → ℝ) : S4096x1.Idx → EReal := fun i => ((R ⟨(i 0).val, idx2_lt0 i⟩ : ℝ) : EReal)

theorem colArr_eq (R : Fin 4096 → ℝ) (i : S4096x1.Idx) (P : Fin 4096) (h : (i 0).val = P.val) :
    colArr R i = ((R P : ℝ) : EReal) :=
  congrArg (fun Q => ((R Q : ℝ) : EReal)) (Fin.ext h)

section Outputs
variable {R : Fin 4096 → ℝ}

-- The last point of each row tile writes that tile's rows of R, and these points reach every row.
theorem final14 (hR : ∀ t : Fin cfg3.N, t.val % 32 = 31 → IsC (Reg3.scr V c (t.val + 1)).dgw fun p => R (rI t.val p)) :
    ∀ P, ((Reg3.dat V c).arrAt 14 cfg3.N : S4096x1.Idx → EReal) (ix2 P (0 : Fin 1)) = ((R P : ℝ) : EReal) := fun P =>
  congrFun ((Reg3.dat V c).arrAt_eq_of_cover 14 (colArr R) (fun t hf => by
    funext j
    obtain ⟨p, u, rfl⟩ : ∃ (p : Fin 1024) (u : Fin 1), j = ix2 p u := ⟨j 0, j 1, eq_ix2 j⟩
    obtain rfl : u = 0 := Subsingleton.elim _ _
    show (Reg3.scr V c (t.val + 1)).dgw (ix2 p (0 : Fin 1)) = colArr R (((cfg3.win 14).blk t).view.emb (ix2 p (0 : Fin 1)))
    rw [hR t ((flush3_14 t).mp hf) p]
    exact (colArr_eq R _ (rI t.val p) (by
      show win3_14.index t (0 : Fin 2) * 1024 + 1 * p.val = (1024 * (t.val / 32 % 4) + p.val) % 4096
      rw [(idx3_14 t).1]; omega)).symm) fun i => by
    have h0 := idx2_lt0 i
    have h1 := idx2_lt1 i
    obtain ⟨t, ht⟩ : ∃ t : Fin cfg3.N, t.val = 32 * ((i 0).val / 1024) + 31 := ⟨⟨_, by rw [show cfg3.N = 128 from N_3]; omega⟩, rfl⟩
    obtain ⟨e0, e1⟩ := idx3_14 t
    refine ⟨t, (flush3_14 t).mpr (by omega), ?_⟩
    rw [show i = ((cfg3.win 14).blk t).view.emb (ix2 ⟨(i 0).val % 1024, Nat.mod_lt _ (by decide)⟩ (0 : Fin 1)) from
      Shape.idx_ext₂ (by show (i 0).val = win3_14.index t (0 : Fin 2) * 1024 + 1 * ((i 0).val % 1024); omega)
        (by show (i 1).val = win3_14.index t (1 : Fin 2) * 1 + 1 * 0; omega)]
    exact View.emb_mem_set _ _) (ix2 P (0 : Fin 1))

theorem final15 (hR : ∀ t : Fin cfg3.N, t.val % 32 = 31 → IsC (Reg3.scr V c (t.val + 1)).dw fun p => R (rI t.val p)) :
    ∀ P, ((Reg3.dat V c).arrAt 15 cfg3.N : S4096x1.Idx → EReal) (ix2 P (0 : Fin 1)) = ((R P : ℝ) : EReal) := fun P =>
  congrFun ((Reg3.dat V c).arrAt_eq_of_cover 15 (colArr R) (fun t hf => by
    funext j
    obtain ⟨p, u, rfl⟩ : ∃ (p : Fin 1024) (u : Fin 1), j = ix2 p u := ⟨j 0, j 1, eq_ix2 j⟩
    obtain rfl : u = 0 := Subsingleton.elim _ _
    show (Reg3.scr V c (t.val + 1)).dw (ix2 p (0 : Fin 1)) = colArr R (((cfg3.win 15).blk t).view.emb (ix2 p (0 : Fin 1)))
    rw [hR t ((flush3_15 t).mp hf) p]
    exact (colArr_eq R _ (rI t.val p) (by
      show win3_15.index t (0 : Fin 2) * 1024 + 1 * p.val = (1024 * (t.val / 32 % 4) + p.val) % 4096
      rw [(idx3_15 t).1]; omega)).symm) fun i => by
    have h0 := idx2_lt0 i
    have h1 := idx2_lt1 i
    obtain ⟨t, ht⟩ : ∃ t : Fin cfg3.N, t.val = 32 * ((i 0).val / 1024) + 31 := ⟨⟨_, by rw [show cfg3.N = 128 from N_3]; omega⟩, rfl⟩
    obtain ⟨e0, e1⟩ := idx3_15 t
    refine ⟨t, (flush3_15 t).mpr (by omega), ?_⟩
    rw [show i = ((cfg3.win 15).blk t).view.emb (ix2 ⟨(i 0).val % 1024, Nat.mod_lt _ (by decide)⟩ (0 : Fin 1)) from
      Shape.idx_ext₂ (by show (i 0).val = win3_15.index t (0 : Fin 2) * 1024 + 1 * ((i 0).val % 1024); omega)
        (by show (i 1).val = win3_15.index t (1 : Fin 2) * 1 + 1 * 0; omega)]
    exact View.emb_mem_set _ _) (ix2 P (0 : Fin 1))

end Outputs

section Invariant

variable
  (htm : ∀ p q, (V c main_v36 : S4096x4096.Idx → EReal) (ix2 p q) = ((tm p q : ℝ) : EReal))
  (hb : ∀ p q, (V c main_v15_0 : S4096x4096.Idx → EReal) (ix2 p q) = ((b p q : ℝ) : EReal))
  (hT : ∀ p q, (V c main_arg2 : S4096x4096.Idx → EReal) (ix2 p q) = ((T p q : ℝ) : EReal))
  (hf1 : ∀ p, (V c main_v8_1 : S4096x1.Idx → EReal) (ix2 p (0 : Fin 1)) = ((f1 p : ℝ) : EReal))
  (hv3 : ∀ p, (V c main_v31 : S4096x1.Idx → EReal) (ix2 p (0 : Fin 1)) = ((v3 p : ℝ) : EReal))
  (he1 : ∀ p, (V c main_v40 : S4096x1.Idx → EReal) (ix2 p (0 : Fin 1)) = ((e1 p : ℝ) : EReal))
  (hf2 : ∀ q, (V c main_v46 : S1x4096.Idx → EReal) (ix2 (0 : Fin 1) q) = ((f2 q : ℝ) : EReal))
  (hv2 : ∀ q, (V c main_v35 : S1x4096.Idx → EReal) (ix2 (0 : Fin 1) q) = ((v2 q : ℝ) : EReal))
  (he2 : ∀ q, (V c main_v45 : S1x4096.Idx → EReal) (ix2 (0 : Fin 1) q) = ((e2 q : ℝ) : EReal))
  (hx : ∀ p k, (V c main_v0 : S4096x128.Idx → EReal) (ix2 p k) = ((x p k : ℝ) : EReal))
  (hy : ∀ p k, (V c main_v1 : S4096x128.Idx → EReal) (ix2 p k) = ((y p k : ℝ) : EReal))
  (hcs : (V c main_v20 : S1x1.Idx → EReal) (ix2 (0 : Fin 1) (0 : Fin 1)) = ((cs : ℝ) : EReal))
  (hct : (V c main_v21 : S1x1.Idx → EReal) (ix2 (0 : Fin 1) (0 : Fin 1)) = ((ct : ℝ) : EReal))
  (hS : (V c main_v28 : S1x1.Idx → EReal) (ix2 (0 : Fin 1) (0 : Fin 1)) = ((S : ℝ) : EReal))
  (he1n : ∀ p, 0 ≤ e1 p) (he2n : ∀ q, 0 ≤ e2 q)

include htm hb hT hf1 hv3 he1 hf2 hv2 he2 hx hy hcs hct hS he1n he2n

-- One point's step takes the closed forms at the point before to the closed forms at this point.
theorem step_inv (t : Fin cfg3.N) (s : Reg3.Scr Ideal) (h : t.val ≠ 0 → Inv tm b T f1 v3 e1 f2 v2 e2 x y cs ct S (Lift.lit 0x3F800000#32) (Lift.lit 0x3727C5AC#32) (Lift.lit 0x40000000#32) s (t.val - 1)) :
    Inv tm b T f1 v3 e1 f2 v2 e2 x y cs ct S (Lift.lit 0x3F800000#32) (Lift.lit 0x3727C5AC#32) (Lift.lit 0x40000000#32) (Reg3.step V c t s) t.val := by
  have h10 := blk10 V c t hct
  have h4 := blk4 V c t hT
  have hA : IsM (Reg3.step V c t s).acc (accR tm b ct t.val) := fun p q =>
    (accStep_apply h10 (blk0 V c t htm) (blk1 V c t hb) (fun hk => (h (by omega)).1) p q).trans
      (congrArg Real.toEReal (accR_step tm b ct t.val p q).symm)
  refine ⟨hA, fun p => ?_, fun p => ?_⟩
  · refine (dgwStep_apply (fun hk => pay2_apply ((pay6_eq _).trans h10) (blk9 V c t hcs) (blk11 V c t hS) (blk12 V c t hv2)
      (blk13 V c t hv3) hA (blk2 V c t hf1) (blk3 V c t hf2) (h (by omega)).2.1 h4 p) (fun h0 => (h (by omega)).2.1)).trans
      (congrArg Real.toEReal ?_)
    rw [dgwR_step tm b T f1 v3 f2 v2 cs ct S (Lift.lit 0x40000000#32) t.val p]
    by_cases hk : t.val % 8 = 7
    · rw [if_pos hk, if_pos hk]
      unfold dgwT dE
      refine congrArg _ (Finset.sum_congr rfl fun q _ => ?_)
      rw [accR_last tm b ct t.val hk]
    · rw [if_neg hk, if_neg hk]
  · refine (dwStep_apply (pay1_apply (blk5 V c t hx) (blk6 V c t hy) (blk7 V c t he1) (blk8 V c t he2) h4
      (fun p => he1n _) (fun q => he2n _) p) (fun h0 => (h (by omega)).2.2)).trans (congrArg Real.toEReal ?_)
    rw [dwR_step T e1 e2 x y (Lift.lit 0x3F800000#32) (Lift.lit 0x3727C5AC#32) t.val p]
    rfl

theorem scr_inv : ∀ (n : ℕ) (_ : n < cfg3.N), Inv tm b T f1 v3 e1 f2 v2 e2 x y cs ct S (Lift.lit 0x3F800000#32) (Lift.lit 0x3727C5AC#32) (Lift.lit 0x40000000#32) (Reg3.scr V c (n + 1)) n
  | 0, h => by
    rw [show Reg3.scr V c (0 + 1) = Reg3.step V c ⟨0, h⟩ (Reg3.scr V c 0) from Reg3.scr_succ V c ⟨0, h⟩]
    exact step_inv V c tm b T f1 v3 e1 f2 v2 e2 x y cs ct S htm hb hT hf1 hv3 he1 hf2 hv2 he2 hx hy hcs hct hS he1n he2n ⟨0, h⟩ _ fun h0 => (h0 rfl).elim
  | n + 1, h => by
    rw [show Reg3.scr V c (n + 1 + 1) = Reg3.step V c ⟨n + 1, h⟩ (Reg3.scr V c (n + 1)) from Reg3.scr_succ V c ⟨n + 1, h⟩]
    exact step_inv V c tm b T f1 v3 e1 f2 v2 e2 x y cs ct S htm hb hT hf1 hv3 he1 hf2 hv2 he2 hx hy hcs hct hS he1n he2n ⟨n + 1, h⟩ _ fun _ => scr_inv n (Nat.lt_of_succ_lt h)

theorem region3_out :
    (∀ p, ((Reg3.dat V c).arrAt 14 cfg3.N : S4096x1.Idx → EReal) (ix2 p (0 : Fin 1))
        = ((∑ q, (f1 p + f2 q - Lift.lit 0x40000000#32 * (cs * ct * S + cs * v2 q + ct * v3 p
            + ∑ k, tm p k * (b q k - ct))) * T p q : ℝ) : EReal))
    ∧ (∀ p, ((Reg3.dat V c).arrAt 15 cfg3.N : S4096x1.Idx → EReal) (ix2 p (0 : Fin 1))
        = ((∑ q, Spec.cosG (Lift.lit 0x3F800000#32) (Lift.lit 0x3727C5AC#32) (fun u => -u) x y e1 e2 p q * T p q : ℝ) : EReal)) := by
  have hs := fun t : Fin cfg3.N => scr_inv V c tm b T f1 v3 e1 f2 v2 e2 x y cs ct S htm hb hT hf1 hv3 he1 hf2 hv2 he2 hx hy hcs hct hS he1n he2n t.val t.isLt
  exact ⟨final14 V c fun t ht p => ((hs t).2.1 p).trans (congrArg _ (dgwR_last tm b T f1 v3 f2 v2 cs ct S (Lift.lit 0x40000000#32) t.val ht p)),
    final15 V c fun t ht p => ((hs t).2.2 p).trans (congrArg _ (dwR_last T e1 e2 x y (Lift.lit 0x3F800000#32) (Lift.lit 0x3727C5AC#32) t.val ht p))⟩

end Invariant

end Main

end Cert.KernelIdeal.Val3

end
-- ==== Proof.KVal.lean ====
import proofs.«403712_j45286135169680_3_alg».proof.Proof.Keep
import proofs.«403712_j45286135169680_3_alg».proof.Proof.HostK
import proofs.«403712_j45286135169680_3_alg».proof.Proof.Val0
import proofs.«403712_j45286135169680_3_alg».proof.Proof.Val1
import proofs.«403712_j45286135169680_3_alg».proof.Proof.Val2
import proofs.«403712_j45286135169680_3_alg».proof.Proof.Val3
import proofs.«403712_j45286135169680_3_alg».proof.Proof.Alg

set_option maxRecDepth 16384

noncomputable section

namespace Cert.KernelIdeal.KVal

open Idealize.ShloMosaic Idealize.ShloMosaic.ValueIdx Idealize.ShloMosaic.TcCoe Idealize.SL.Sem
open Cert.KernelIdeal Cert.KernelIdeal.Gen Cert.KernelIdeal.Run
open scoped BigOperators

abbrev one : ℝ := Lift.lit 0x3F800000#32
abbrev m5 : ℝ := Lift.lit 0xC0A00000#32
abbrev eps : ℝ := Lift.lit 0x3727C5AC#32
abbrev two : ℝ := Lift.lit 0x40000000#32
abbrev n24 : ℝ := Lift.lit 0x4B800000#32

def rows (t : Fin 50000 → Fin 128 → ℝ) (idx : S4096.Idx → BitVec 32)
    (hi : ∀ p : Fin 4096, 0 ≤ (idx (ix1 p)).toInt ∧ (idx (ix1 p)).toInt < 50000) : Spec.Mat 4096 128 :=
  fun p k => t ⟨(idx (ix1 p)).toInt.toNat, by have := hi p; omega⟩ k

variable (m : (ℓ : Loc nD τ sig) → Buf (Elt Ideal) ℓ) (c : Dev nD)

structure Data where
  t1 : Fin 50000 → Fin 128 → ℝ
  t2 : Fin 50000 → Fin 128 → ℝ
  T : Spec.Mat 4096 4096
  C1 : Spec.Mat 4096 4096
  C2 : Spec.Mat 4096 4096
  μs : Spec.Col 4096
  μt : Spec.Col 4096
  h7 : ∀ r k, (m ((c : Thread nD τ).loc main_arg7) : S50000x128.Idx → EReal) (ix2 r k) = ((t1 r k : ℝ) : EReal)
  h8 : ∀ r k, (m ((c : Thread nD τ).loc main_arg8) : S50000x128.Idx → EReal) (ix2 r k) = ((t2 r k : ℝ) : EReal)
  h2 : ∀ p q, (m ((c : Thread nD τ).loc main_arg2) : S4096x4096.Idx → EReal) (ix2 p q) = ((T p q : ℝ) : EReal)
  h3 : ∀ q, (m ((c : Thread nD τ).loc main_arg3) : S4096x1.Idx → EReal) (ix2 q (0 : Fin 1)) = ((μs q : ℝ) : EReal)
  h4 : ∀ q, (m ((c : Thread nD τ).loc main_arg4) : S4096x1.Idx → EReal) (ix2 q (0 : Fin 1)) = ((μt q : ℝ) : EReal)
  h5 : ∀ p q, (m ((c : Thread nD τ).loc main_arg5) : S4096x4096.Idx → EReal) (ix2 p q) = ((C1 p q : ℝ) : EReal)
  h6 : ∀ p q, (m ((c : Thread nD τ).loc main_arg6) : S4096x4096.Idx → EReal) (ix2 p q) = ((C2 p q : ℝ) : EReal)
  hi0 : ∀ p : Fin 4096, 0 ≤ ((m ((c : Thread nD τ).loc main_arg0) : S4096.Idx → BitVec 32) (ix1 p)).toInt
    ∧ ((m ((c : Thread nD τ).loc main_arg0) : S4096.Idx → BitVec 32) (ix1 p)).toInt < 50000
  hi1 : ∀ p : Fin 4096, 0 ≤ ((m ((c : Thread nD τ).loc main_arg1) : S4096.Idx → BitVec 32) (ix1 p)).toInt
    ∧ ((m ((c : Thread nD τ).loc main_arg1) : S4096.Idx → BitVec 32) (ix1 p)).toInt < 50000

namespace Data

variable {m c} (D : Data m c)

def X : Spec.Mat 4096 128 := rows D.t1 (m ((c : Thread nD τ).loc main_arg0)) D.hi0
def Y : Spec.Mat 4096 128 := rows D.t2 (m ((c : Thread nD τ).loc main_arg1)) D.hi1

def cS : Spec.Mat 4096 4096 := Spec.cosS one m5 eps D.X
def cT : Spec.Mat 4096 4096 := Spec.cosS one m5 eps D.Y

def cs : ℝ := Spec.tot (Spec.rsum D.cS) / n24
def ct : ℝ := Spec.tot (Spec.rsum D.cT) / n24

end Data

section Chain

variable {m c} (D : Data m c) (p q : Fin 4096) (k : Fin 128)

theorem x1 :
    (W1 m c main_v0 : S4096x128.Idx → EReal) (ix2 p k) = ((D.X p k : ℝ) : EReal) :=
  HostK.take (HostK.take0 (W0 m c)) D.t1 D.h7 D.hi0 p k

theorem y2 :
    (W2 m c main_v1 : S4096x128.Idx → EReal) (ix2 p k) = ((D.Y p k : ℝ) : EReal) := by
  have e := HostK.take1 (W1 m c)
  rw [W1_of m c main_arg8 (by decide), W1_of m c main_arg1 (by decide)] at e
  exact HostK.take e D.t2 D.h8 D.hi1 p k

theorem x2 :
    (W2 m c main_v0 : S4096x128.Idx → EReal) (ix2 p k) = ((D.X p k : ℝ) : EReal) := by
  rw [W2_of m c main_v0 (by decide)]; exact x1 D p k

theorem gx :
    (W1 m c main_v0 : S4096x128.Idx → EReal) (ix2 p k) = ((D.X p k : ℝ) : EReal) := x1 D p k
theorem gy :
    (W2 m c main_v1 : S4096x128.Idx → EReal) (ix2 p k) = ((D.Y p k : ℝ) : EReal) := y2 D p k

theorem x3 :
    (W3 m c main_v0 : S4096x128.Idx → EReal) (ix2 p k) = ((D.X p k : ℝ) : EReal) := by
  rw [W3_of m c main_v0 (by decide)]; exact x2 D p k

theorem reg0 :
    (∀ p q, (W4 m c main_v8_0 : S4096x4096.Idx → EReal) (ix2 p q) = ((D.cS p q : ℝ) : EReal))
    ∧ (∀ p, (W4 m c main_v8_1 : S4096x1.Idx → EReal) (ix2 p (0 : Fin 1)) = ((Spec.fvec D.cS D.μs p : ℝ) : EReal))
    ∧ (∀ p, (W4 m c main_v8_2 : S4096x1.Idx → EReal) (ix2 p (0 : Fin 1)) = ((Spec.simv D.cS D.C1 p : ℝ) : EReal))
    ∧ (∀ p, (W4 m c main_v8_3 : S4096x1.Idx → EReal) (ix2 p (0 : Fin 1)) = ((Spec.rsum D.cS p : ℝ) : EReal)) := by
  have h := Val0.region0_out (fun c b => W3 m c b) c D.X (Spec.en D.X) D.μs D.C1 (x3 D)
    (HostK.rownorm (HostK.norms0_col (W2 m c)) D.X (x2 D))
    (fun q => (HostK.trow (HostK.norms0_row (W2 m c)) q).trans (HostK.rownorm rfl D.X (x2 D) q))
    (fun q => (HostK.trow (HostK.norms0_mu (W2 m c)) q).trans (by
      rw [W2_of m c main_arg3 (by decide), W1_of m c main_arg3 (by decide)]; exact D.h3 q))
    (fun p q => by
      rw [W3_of m c main_arg5 (by decide), W2_of m c main_arg5 (by decide), W1_of m c main_arg5 (by decide)]
      exact D.h5 p q)
    (fun p => Real.sqrt_nonneg _)
  exact ⟨fun p q => (congrFun (W4_out6 m c) _).trans (h.1 p q), fun p => (congrFun (W4_out7 m c) _).trans (h.2.1 p),
    fun p => (congrFun (W4_out8 m c) _).trans (h.2.2.1 p), fun p => (congrFun (W4_out9 m c) _).trans (h.2.2.2 p)⟩

theorem y4 :
    (W4 m c main_v1 : S4096x128.Idx → EReal) (ix2 p k) = ((D.Y p k : ℝ) : EReal) := by
  rw [W4_of_ne m c main_v1 (by decide), W3_of m c main_v1 (by decide)]; exact y2 D p k

theorem y5 :
    (W5 m c main_v1 : S4096x128.Idx → EReal) (ix2 p k) = ((D.Y p k : ℝ) : EReal) := by
  rw [W5_of m c main_v1 (by decide)]; exact y4 D p k

theorem reg1 :
    (∀ p q, (W6 m c main_v15_0 : S4096x4096.Idx → EReal) (ix2 p q) = ((D.cT p q : ℝ) : EReal))
    ∧ (∀ p, (W6 m c main_v15_1 : S4096x1.Idx → EReal) (ix2 p (0 : Fin 1)) = ((Spec.fvec D.cT D.μt p : ℝ) : EReal))
    ∧ (∀ p, (W6 m c main_v15_2 : S4096x1.Idx → EReal) (ix2 p (0 : Fin 1)) = ((Spec.simv D.cT D.C2 p : ℝ) : EReal))
    ∧ (∀ p, (W6 m c main_v15_3 : S4096x1.Idx → EReal) (ix2 p (0 : Fin 1)) = ((Spec.rsum D.cT p : ℝ) : EReal)) := by
  have h := Val1.region1_out (fun c b => W5 m c b) c D.Y (Spec.en D.Y) D.μt D.C2 (y5 D)
    (HostK.rownorm (HostK.norms1_col (W4 m c)) D.Y (y4 D))
    (fun q => (HostK.trow (HostK.norms1_row (W4 m c)) q).trans (HostK.rownorm rfl D.Y (y4 D) q))
    (fun q => (HostK.trow (HostK.norms1_mu (W4 m c)) q).trans (by
      rw [W4_of_ne m c main_arg4 (by decide), W3_of m c main_arg4 (by decide), W2_of m c main_arg4 (by decide),
        W1_of m c main_arg4 (by decide)]
      exact D.h4 q))
    (fun p q => by
      rw [W5_of m c main_arg6 (by decide), W4_of_ne m c main_arg6 (by decide), W3_of m c main_arg6 (by decide),
        W2_of m c main_arg6 (by decide), W1_of m c main_arg6 (by decide)]
      exact D.h6 p q)
    (fun p => Real.sqrt_nonneg _)
  exact ⟨fun p q => (congrFun (W6_out6 m c) _).trans (h.1 p q), fun p => (congrFun (W6_out7 m c) _).trans (h.2.1 p),
    fun p => (congrFun (W6_out8 m c) _).trans (h.2.2.1 p), fun p => (congrFun (W6_out9 m c) _).trans (h.2.2.2 p)⟩

theorem r6 :
    (W6 m c main_v8_3 : S4096x1.Idx → EReal) (ix2 p (0 : Fin 1)) = ((Spec.rsum D.cS p : ℝ) : EReal) := by
  rw [W6_of_ne m c main_v8_3 (by decide), W5_of m c main_v8_3 (by decide)]; exact (reg0 D).2.2.2 p

theorem a6 :
    (W6 m c main_v8_0 : S4096x4096.Idx → EReal) (ix2 p q) = ((D.cS p q : ℝ) : EReal) := by
  rw [W6_of_ne m c main_v8_0 (by decide), W5_of m c main_v8_0 (by decide)]; exact (reg0 D).1 p q

theorem T6 :
    (W6 m c main_arg2 : S4096x4096.Idx → EReal) (ix2 p q) = ((D.T p q : ℝ) : EReal) := by
  rw [W6_of_ne m c main_arg2 (by decide), W5_of m c main_arg2 (by decide), W4_of_ne m c main_arg2 (by decide),
    W3_of m c main_arg2 (by decide), W2_of m c main_arg2 (by decide), W1_of m c main_arg2 (by decide)]
  exact D.h2 p q

theorem cs7 : (W7 m c main_v20 : S1x1.Idx → EReal) (ix2 (0 : Fin 1) (0 : Fin 1)) = ((D.cs : ℝ) : EReal) :=
  (HostK.r11 (HostK.means_cs (W6 m c))).trans (HostK.meanOf_apply _ (Spec.rsum D.cS) (r6 D) ix0)

theorem T7 :
    (W7 m c main_arg2 : S4096x4096.Idx → EReal) (ix2 p q) = ((D.T p q : ℝ) : EReal) := by
  rw [W7_of m c main_arg2 (by decide)]; exact T6 D p q

theorem tm8 : (W8 m c main_v36 : S4096x4096.Idx → EReal) (ix2 p q)
    = ((∑ k, (D.cS p k - D.cs) * D.T k q : ℝ) : EReal) :=
  (congrFun (W8_out3 m c) _).trans (Val2.region2_out (fun c b => W7 m c b) c D.cS D.T D.cs
    (fun p q => by rw [W7_of m c main_v8_0 (by decide)]; exact a6 D p q) (T7 D) (cs7 D) p q)

theorem x8 :
    (W8 m c main_v0 : S4096x128.Idx → EReal) (ix2 p k) = ((D.X p k : ℝ) : EReal) := by
  rw [W8_of_ne m c main_v0 (by decide), W7_of m c main_v0 (by decide), W6_of_ne m c main_v0 (by decide),
    W5_of m c main_v0 (by decide), W4_of_ne m c main_v0 (by decide)]
  exact x3 D p k

theorem y8 :
    (W8 m c main_v1 : S4096x128.Idx → EReal) (ix2 p k) = ((D.Y p k : ℝ) : EReal) := by
  rw [W8_of_ne m c main_v1 (by decide), W7_of m c main_v1 (by decide), W6_of_ne m c main_v1 (by decide)]
  exact y5 D p k

theorem reg3 :
    (∀ p, (W10 m c main_v47_0 : S4096x1.Idx → EReal) (ix2 p (0 : Fin 1))
      = ((∑ q, (Spec.fvec D.cS D.μs p + Spec.fvec D.cT D.μt q - two * Spec.kCross D.cS D.cT D.T D.cs D.ct p q) * D.T p q : ℝ) : EReal))
    ∧ (∀ p, (W10 m c main_v47_1 : S4096x1.Idx → EReal) (ix2 p (0 : Fin 1))
      = ((∑ q, Spec.cosM one eps D.X D.Y p q * D.T p q : ℝ) : EReal)) := by
  have h := Val3.region3_out (fun c b => W9 m c b) c (fun p k => ∑ l, (D.cS p l - D.cs) * D.T l k) D.cT D.T
    (Spec.fvec D.cS D.μs) (fun p => ∑ k, (D.cS p k - D.cs) * Spec.rsum D.T k) (Spec.en D.X)
    (Spec.fvec D.cT D.μt) (fun q => ∑ k, (D.cT q k - D.ct) * Spec.csum D.T k) (Spec.en D.Y)
    D.X D.Y D.cs D.ct (Spec.tot (Spec.rsum D.T))
    (fun p q => by rw [W9_of m c main_v36 (by decide)]; exact tm8 D p q)
    (fun p q => by
      rw [W9_of m c main_v15_0 (by decide), W8_of_ne m c main_v15_0 (by decide), W7_of m c main_v15_0 (by decide)]
      exact (reg1 D).1 p q)
    (fun p q => by rw [W9_of m c main_arg2 (by decide), W8_of_ne m c main_arg2 (by decide)]; exact T7 D p q)
    (fun p => by
      rw [W9_of m c main_v8_1 (by decide), W8_of_ne m c main_v8_1 (by decide), W7_of m c main_v8_1 (by decide),
        W6_of_ne m c main_v8_1 (by decide), W5_of m c main_v8_1 (by decide)]
      exact (reg0 D).2.1 p)
    (fun p => by
      rw [W9_of m c main_v31 (by decide), W8_of_ne m c main_v31 (by decide)]
      exact (congrFun (HostK.means_v3 (W6 m c)) _).trans (HostK.shiftDot_apply _ _ _ D.cS _ (Spec.rsum D.T) (a6 D)
        (HostK.meanOf_apply _ (Spec.rsum D.cS) (r6 D)) (HostK.rowSums_apply _ D.T (T6 D)) p))
    (HostK.rownorm (HostK.norms3_e1 (W8 m c)) D.X (x8 D))
    (fun q => (HostK.trow (HostK.norms3_f2 (W8 m c)) q).trans (by
      rw [W8_of_ne m c main_v15_1 (by decide), W7_of m c main_v15_1 (by decide)]; exact (reg1 D).2.1 q))
    (fun q => by
      rw [W9_of m c main_v35 (by decide), W8_of_ne m c main_v35 (by decide)]
      exact (HostK.trow (HostK.means_v2 (W6 m c)) q).trans (HostK.shiftDot_apply _ _ _ D.cT _ (Spec.csum D.T) (reg1 D).1
        (HostK.meanOf_apply _ (Spec.rsum D.cT) (reg1 D).2.2.2) (HostK.colSums_apply _ D.T (T6 D)) q))
    (fun q => (HostK.trow (HostK.norms3_e2 (W8 m c)) q).trans (HostK.rownorm rfl D.Y (y8 D) q))
    (fun p k => by rw [W9_of m c main_v0 (by decide)]; exact x8 D p k)
    (fun p k => by rw [W9_of m c main_v1 (by decide)]; exact y8 D p k)
    (by rw [W9_of m c main_v20 (by decide), W8_of_ne m c main_v20 (by decide)]; exact cs7 D)
    (by
      rw [W9_of m c main_v21 (by decide), W8_of_ne m c main_v21 (by decide)]
      exact (HostK.r11 (HostK.means_ct (W6 m c))).trans (HostK.meanOf_apply _ (Spec.rsum D.cT) (reg1 D).2.2.2 ix0))
    (by
      rw [W9_of m c main_v28 (by decide), W8_of_ne m c main_v28 (by decide)]
      exact (HostK.r11 (HostK.means_S (W6 m c))).trans
        (HostK.coltot _ (Spec.rsum D.T) (HostK.rowSums_apply _ D.T (T6 D)) ix0))
    (fun p => Real.sqrt_nonneg _) (fun q => Real.sqrt_nonneg _)
  exact ⟨fun p => (congrFun (W10_out14 m c) _).trans (h.1 p), fun p => (congrFun (W10_out15 m c) _).trans (h.2 p)⟩

theorem dgw : (W11 m c main_v48 : S_.Idx → EReal) ix0
    = ((Spec.kDgw two D.cS D.cT D.T D.μs D.μt D.cs D.ct : ℝ) : EReal) :=
  (congrFun (HostK.finals_dgw (W10 m c)) _).trans (HostK.coltot _
    (fun p => ∑ q, (Spec.fvec D.cS D.μs p + Spec.fvec D.cT D.μt q - two * Spec.kCross D.cS D.cT D.T D.cs D.ct p q) * D.T p q)
    (reg3 D).1 ix0)

theorem dwv : (W11 m c main_v49 : S_.Idx → EReal) ix0
    = ((Spec.dw (Spec.cosM one eps D.X D.Y) D.T : ℝ) : EReal) :=
  (congrFun (HostK.finals_dw (W10 m c)) _).trans
    (HostK.coltot _ (fun p => ∑ q, Spec.cosM one eps D.X D.Y p q * D.T p q) (reg3 D).2 ix0)

end Chain

theorem x10 : W10 m c (Proc.devRef .tc main_v0) = W1 m c (Proc.devRef .tc main_v0) := by
  rw [W10_of_ne m c main_v0 (by decide), W9_of m c main_v0 (by decide), W8_of_ne m c main_v0 (by decide),
    W7_of m c main_v0 (by decide), W6_of_ne m c main_v0 (by decide), W5_of m c main_v0 (by decide),
    W4_of_ne m c main_v0 (by decide), W3_of m c main_v0 (by decide), W2_of m c main_v0 (by decide)]
theorem y10 : W10 m c (Proc.devRef .tc main_v1) = W2 m c (Proc.devRef .tc main_v1) := by
  rw [W10_of_ne m c main_v1 (by decide), W9_of m c main_v1 (by decide), W8_of_ne m c main_v1 (by decide),
    W7_of m c main_v1 (by decide), W6_of_ne m c main_v1 (by decide), W5_of m c main_v1 (by decide),
    W4_of_ne m c main_v1 (by decide), W3_of m c main_v1 (by decide)]

theorem regv {m c} (D : Data m c) : (W11 m c main_v76 : S_.Idx → EReal) ix0
    = ((((Spec.simTot D.cS D.C1 : ℝ) : EReal) + ((Spec.simTot D.cT D.C2 : ℝ) : EReal))
        + HostK.orthK (W1 m c main_v0 : S4096x128.Idx → EReal)) + HostK.orthK (W2 m c main_v1 : S4096x128.Idx → EReal) := by
  have h := HostK.finals_reg (W10 m c) (Spec.simv D.cS D.C1) (Spec.simv D.cT D.C2)
    (fun p => by
      rw [W10_of_ne m c main_v8_2 (by decide), W9_of m c main_v8_2 (by decide), W8_of_ne m c main_v8_2 (by decide),
        W7_of m c main_v8_2 (by decide), W6_of_ne m c main_v8_2 (by decide), W5_of m c main_v8_2 (by decide)]
      exact (reg0 D).2.2.1 p)
    (fun p => by
      rw [W10_of_ne m c main_v15_2 (by decide), W9_of m c main_v15_2 (by decide), W8_of_ne m c main_v15_2 (by decide),
        W7_of m c main_v15_2 (by decide)]
      exact (reg1 D).2.2.1 p)
  rw [x10 m c, y10 m c] at h
  exact h

end Cert.KernelIdeal.KVal
-- ==== Proof.RefVal.lean ====
import proofs.«403712_j45286135169680_3_alg».proof.Proof.Gen.ReferenceIdeal.Read
import proofs.«403712_j45286135169680_3_alg».proof.Proof.Spec
import proofs.«403712_j45286135169680_3_alg».proof.Proof.Lift
import proofs.«403712_j45286135169680_3_alg».proof.Proof.Alg
import proofs.«403712_j45286135169680_3_alg».proof.Proof.LibGather
import Idealize.ShloMosaic.Lib.ValueIdx
import Idealize.ShloMosaic.PureOps.Ideal.Laws

noncomputable section

namespace Cert.ReferenceIdeal.RefVal

open Cert Cert.ReferenceIdeal Cert.ReferenceIdeal.Read Idealize.ShloMosaic Idealize.ShloMosaic.ValueIdx
open Cert.ReferenceIdeal.Gen Idealize.ShloMosaic.TcCoe Idealize.SL.Sem Idealize.ShloMosaic.StableHlo
open scoped BigOperators

abbrev one : ℝ := Lift.lit 0x3F800000#32
abbrev m5 : ℝ := Lift.lit 0xC0A00000#32
abbrev eps : ℝ := Lift.lit 0x3727C5AC#32
abbrev two : ℝ := Lift.lit 0x40000000#32

def rows (t : Fin 50000 → Fin 128 → ℝ) (ix : (⟨S4096, .i32⟩ : BufTy).Contents (Elt Ideal))
    (h : ∀ p : Fin 4096, 0 ≤ (ix (ix1 p)).toInt ∧ (ix (ix1 p)).toInt < 50000) : Spec.Mat 4096 128 :=
  fun p k => t ⟨(ix (ix1 p)).toInt.toNat, by have := h p; omega⟩ k

def orthArr (X : FVec Ideal S4096x128 .f32) : FVec Ideal S_ .f32 :=
  (fun d : FVec Ideal S128x128 .f32 =>
      Host.reduceAdd (F := Ideal) (mulf d d) (constant (F := Ideal) S_ .f32 0x00000000#32) reducesTo_S128x128_S_d0_1 h_S_)
    (subf (Host.dotGeneral dot_S128x4096_S4096x128_S128x128_1_0_0_1_n_n none
        (transpose S128x4096 [1, 0] X transposes_S4096x128_S128x4096_1_0) X)
      (uitofp .f32 (cmpi .eq (addi (iotaInDim S128x128 32 0)
        (broadcastInDim S128x128 ![] bcast_S_S128x128 (constantI S_ 32 0#32))) (iotaInDim S128x128 32 1))))

def orthR (X : FVec Ideal S4096x128 .f32) : EReal := orthArr X ix0

local macro "idx2" : tactic => `(tactic| (funext d; match d with | ⟨0, _⟩ => rfl | ⟨1, _⟩ => rfl))
local macro "idx1" : tactic => `(tactic| (funext d; match d with | ⟨0, _⟩ => rfl))

theorem en_nonneg (x : Spec.Mat 4096 128) (i : Fin 4096) : 0 ≤ Spec.en x i := Real.sqrt_nonneg _

theorem den_ne (x y : Spec.Mat 4096 128) (i j : Fin 4096) : Spec.en x i * Spec.en y j + eps ≠ 0 :=
  ne_of_gt (add_pos_of_nonneg_of_pos (mul_nonneg (en_nonneg x i) (en_nonneg y j)) Lift.lit_eps_pos)

theorem select_nonneg (w a : BitVec 32) (h : 0 ≤ w.toInt) :
    Scalar.select (IntOp.cmpi .slt w 0#32) a w = w := by
  have hs : w.slt 0#32 = false := by
    rw [Bool.eq_false_iff]
    intro hs
    rw [BitVec.slt_iff_toInt_lt] at hs
    have h0 : (0#32 : BitVec 32).toInt = 0 := by decide
    omega
  show (if BitVec.ofBool (w.slt 0#32) = 1 then a else w) = w
  rw [hs, if_neg (by decide)]

variable (x0 x1 : (⟨S4096, .i32⟩ : BufTy).Contents (Elt Ideal))
  (x2 : (⟨S4096x4096, .f32⟩ : BufTy).Contents (Elt Ideal))
  (x3 x4 : (⟨S4096x1, .f32⟩ : BufTy).Contents (Elt Ideal))
  (x5 x6 : (⟨S4096x4096, .f32⟩ : BufTy).Contents (Elt Ideal))
  (x7 x8 : (⟨S50000x128, .f32⟩ : BufTy).Contents (Elt Ideal))
  (t1 t2 : Fin 50000 → Fin 128 → ℝ) (x y : Spec.Mat 4096 128) (T C1 C2 : Spec.Mat 4096 4096) (μs μt : Spec.Col 4096)
  (h0 : ∀ p : Fin 4096, 0 ≤ (x0 (ix1 p)).toInt ∧ (x0 (ix1 p)).toInt < 50000)
  (h1 : ∀ p : Fin 4096, 0 ≤ (x1 (ix1 p)).toInt ∧ (x1 (ix1 p)).toInt < 50000)
  (hX : ∀ p k, val_main_v6 (F := Ideal) x0 x7 (ix2 p k) = ((x p k : ℝ) : EReal))
  (hY : ∀ p k, val_main_v13 (F := Ideal) x1 x8 (ix2 p k) = ((y p k : ℝ) : EReal))
  (h2 : ∀ i j, x2 (ix2 i j) = ((T i j : ℝ) : EReal))
  (h3 : ∀ i, x3 (ix2 i (0 : Fin 1)) = ((μs i : ℝ) : EReal))
  (h4 : ∀ i, x4 (ix2 i (0 : Fin 1)) = ((μt i : ℝ) : EReal))
  (h5 : ∀ i j, x5 (ix2 i j) = ((C1 i j : ℝ) : EReal))
  (h6 : ∀ i j, x6 (ix2 i j) = ((C2 i j : ℝ) : EReal))
  (h7 : ∀ r k, x7 (ix2 r k) = ((t1 r k : ℝ) : EReal))
  (h8 : ∀ r k, x8 (ix2 r k) = ((t2 r k : ℝ) : EReal))

include h0 in
theorem v5_word (p : Fin 4096) :
    val_main_v5 (F := Ideal) x0 (ix2 p (0 : Fin 1)) = x0 (ix1 p) := by
  rw [val_main_v5_apply]
  have e : idx_main_v5 (ix2 p (0 : Fin 1)) = ix1 p := by idx1
  rw [e, val_main_v4_apply, val_main_v1_apply, val_main_v0_apply, val_main_c_apply]
  exact select_nonneg _ _ (h0 p).1

include h7 in
theorem gathered_x (p : Fin 4096) (k : Fin 128) :
    val_main_v6 (F := Ideal) x0 x7 (ix2 p k) = ((rows t1 x0 h0 p k : ℝ) : EReal) := by
  unfold val_main_v6
  have hd : gather_S50000x128_S4096x1_S4096x128_1_0_n_n_0_1_1128
      = Cert.PackedLinear.rowDims 50000 128 4096 Facts₀.gather_S50000x128_S4096x1_S4096x128_1_0_n_n_0_1_1128_wf := rfl
  rw [hd, Cert.PackedLinear.gather_rows_apply (by decide), h7]
  unfold rows
  refine congrArg _ (congrArg (fun r => t1 r k) (Fin.ext ?_))
  show min ((val_main_v5 (F := Ideal) x0 (ix2 p (0 : Fin 1))).toInt.toNat) (50000 - 1) = _
  rw [v5_word x0 h0 p]
  show min ((x0 (ix1 p)).toInt.toNat) (50000 - 1) = (x0 (ix1 p)).toInt.toNat
  have := h0 p
  omega

include h8 in
theorem gathered_y (p : Fin 4096) (k : Fin 128) :
    val_main_v13 (F := Ideal) x1 x8 (ix2 p k) = ((rows t2 x1 h1 p k : ℝ) : EReal) :=
  gathered_x x1 x8 t2 h1 h8 p k

include hX in
theorem v15_real (p : Fin 4096) :
    val_main_v15 (F := Ideal) x0 x7 (ix1 p) = ((∑ k, x p k * x p k : ℝ) : EReal) := by
  rw [val_main_v15_apply]
  have e : ∀ k, idx_main_v15 (ix1 p) k = ix2 p k := fun k => by idx2
  simp only [e, val_main_v14_apply, hX, val_main_cst_apply, Ideal.ofBits_def, Ideal.mulf_def, Lift.ofBits_zero,
    Lift.mul_coe, Lift.coe_sum_univ, Lift.add_coe, zero_add]

include hX in
theorem v17_real (p : Fin 4096) :
    val_main_v17 (F := Ideal) x0 x7 (ix2 p (0 : Fin 1)) = ((Spec.en x p : ℝ) : EReal) := by
  rw [val_main_v17_apply, val_main_v16_apply]
  have e : idx_main_v16 (ix2 p (0 : Fin 1)) = ix1 p := by idx1
  rw [e, v15_real x0 x7 x hX p, Ideal.hostUnary_sqrt_def, Lift.sqrt_coe _ (Lift.sum_mul_self_nonneg _)]
  rfl

include hX hY in
theorem v59_real (i j : Fin 4096) :
    val_main_v59 (F := Ideal) x0 x1 x7 x8 (ix2 i j) = ((Spec.gram x y i j : ℝ) : EReal) := by
  rw [val_main_v59_apply]
  have el : ∀ k, lidx_main_v59 (ix2 i j) k = ix2 i k := fun k => by idx2
  have er : ∀ k, idx_main_v58 (ridx_main_v59 (ix2 i j) k) = ix2 j k := fun k => by idx2
  simp only [val_main_v58_apply, el, er, hX, hY, Lift.mul_coe, Lift.coe_sum_univ]
  rfl

include hX hY in
theorem v61_real (i j : Fin 4096) :
    val_main_v61 (F := Ideal) x0 x1 x7 x8 (ix2 i j) = ((Spec.en x i * Spec.en y j : ℝ) : EReal) := by
  rw [val_main_v61_apply, Fin.sum_univ_one, val_main_v60_apply]
  have el : lidx_main_v61 (ix2 i j) (0 : Fin 1) = ix2 i (0 : Fin 1) := by idx2
  have er : idx_main_v60 (ridx_main_v61 (ix2 i j) (0 : Fin 1)) = ix2 j (0 : Fin 1) := by idx2
  rw [el, er]
  exact (congrArg₂ (· * ·) (v17_real x0 x7 x hX i) (v17_real x1 x8 y hY j)).trans (Lift.mul_coe _ _)

include hX in
theorem v19_real (i j : Fin 4096) :
    val_main_v19 (F := Ideal) x0 x7 (ix2 i j) = ((Spec.gram x x i j : ℝ) : EReal) :=
  v59_real x0 x0 x7 x7 x x hX hX i j

include hX in
theorem v21_real (i j : Fin 4096) :
    val_main_v21 (F := Ideal) x0 x7 (ix2 i j) = ((Spec.en x i * Spec.en x j : ℝ) : EReal) :=
  v61_real x0 x0 x7 x7 x x hX hX i j

include hX in
theorem v31_real (i j : Fin 4096) :
    val_main_v31 (F := Ideal) x0 x7 (ix2 i j) = ((Spec.cosS one m5 eps x i j : ℝ) : EReal) := by
  rw [val_main_v31_apply, val_main_v30_apply, val_main_cst_6_apply, val_main_v29_apply, val_main_v28_apply,
    val_main_v27_apply, val_main_cst_5_apply, val_main_v26_apply, val_main_v25_apply, val_main_cst_4_apply,
    val_main_v24_apply, val_main_v23_apply, val_main_v22_apply, val_main_cst_3_apply,
    v19_real x0 x7 x hX i j, v21_real x0 x7 x hX i j]
  simp only [Ideal.ofBits_def, Ideal.subf_def, Ideal.mulf_def, Ideal.addf_def, Ideal.hostDivf_def,
    Ideal.hostUnary_exp_def, Lift.ofBits_one, Lift.ofBits_negfive, Lift.ofBits_eps, Lift.add_coe]
  rw [Lift.div_coe_coe _ _ (den_ne x x i j)]
  simp only [Lift.sub_coe, Lift.mul_coe, Lift.exp_coe]
  rfl

include hY in
theorem v49_real (i j : Fin 4096) :
    val_main_v49 (F := Ideal) x1 x8 (ix2 i j) = ((Spec.cosS one m5 eps y i j : ℝ) : EReal) :=
  v31_real x1 x8 y hY i j

include hX hY in
theorem v70_real (i j : Fin 4096) :
    val_main_v70 (F := Ideal) x0 x1 x7 x8 (ix2 i j) = ((Spec.cosM one eps x y i j : ℝ) : EReal) := by
  rw [val_main_v70_apply, val_main_v69_apply, val_main_cst_16_apply, val_main_v68_apply, val_main_v67_apply,
    val_main_v66_apply, val_main_v65_apply, val_main_cst_15_apply,
    val_main_v64_apply, val_main_v63_apply, val_main_v62_apply, val_main_cst_14_apply,
    v59_real x0 x1 x7 x8 x y hX hY i j, v61_real x0 x1 x7 x8 x y hX hY i j]
  simp only [Ideal.ofBits_def, Ideal.subf_def, Ideal.addf_def, Ideal.hostDivf_def, Ideal.hostNegf_def, Ideal.negf_def,
    Ideal.hostUnary_exp_def, Lift.ofBits_one, Lift.ofBits_eps, Lift.add_coe]
  rw [Lift.div_coe_coe _ _ (den_ne x y i j)]
  simp only [Lift.sub_coe, Lift.neg_coe, Lift.exp_coe]
  rfl

include hX h3 in
theorem v72_real (i : Fin 4096) :
    val_main_v72 (F := Ideal) x0 x3 x7 (ix2 i (0 : Fin 1))
      = ((Spec.fvec (Spec.cosS one m5 eps x) μs i : ℝ) : EReal) := by
  rw [val_main_v72_apply]
  have el : ∀ k, lidx_main_v72 (ix2 i (0 : Fin 1)) k = ix2 i k := fun k => by idx2
  have er : ∀ k, ridx_main_v72 (ix2 i (0 : Fin 1)) k = ix2 k (0 : Fin 1) := fun k => by idx2
  simp only [el, er, val_main_v71_apply, v31_real x0 x7 x hX, h3, Ideal.mulf_def, Lift.mul_coe, Lift.coe_sum_univ]
  rfl

include hY h4 in
theorem v76_real (j : Fin 4096) :
    val_main_v76 (F := Ideal) x1 x4 x8 (ix2 (0 : Fin 1) j)
      = ((∑ k, μt k * (Spec.cosS one m5 eps y j k * Spec.cosS one m5 eps y j k) : ℝ) : EReal) := by
  rw [val_main_v76_apply]
  have el : ∀ k, idx_main_v73 (lidx_main_v76 (ix2 (0 : Fin 1) j) k) = ix2 k (0 : Fin 1) := fun k => by idx2
  have er : ∀ k, idx_main_v75 (ridx_main_v76 (ix2 (0 : Fin 1) j) k) = ix2 j k := fun k => by idx2
  simp only [val_main_v73_apply, val_main_v75_apply, el, er, val_main_v74_apply, v49_real x1 x8 y hY, h4,
    Ideal.mulf_def, Lift.mul_coe, Lift.coe_sum_univ]

include hX h2 in
theorem v80_real (i l : Fin 4096) :
    val_main_v80 (F := Ideal) x0 x2 x7 (ix2 i l)
      = ((∑ k, Spec.cosS one m5 eps x i k * T k l : ℝ) : EReal) := by
  rw [val_main_v80_apply]
  have el : ∀ k, lidx_main_v80 (ix2 i l) k = ix2 i k := fun k => by idx2
  have er : ∀ k, ridx_main_v80 (ix2 i l) k = ix2 k l := fun k => by idx2
  simp only [el, er, v31_real x0 x7 x hX, h2, Lift.mul_coe, Lift.coe_sum_univ]

include hX hY h2 in
theorem v82_real (i j : Fin 4096) :
    val_main_v82 (F := Ideal) x0 x1 x2 x7 x8 (ix2 i j)
      = ((Spec.rCross (Spec.cosS one m5 eps x) (Spec.cosS one m5 eps y) T i j : ℝ) : EReal) := by
  rw [val_main_v82_apply]
  have el : ∀ l, lidx_main_v82 (ix2 i j) l = ix2 i l := fun l => by idx2
  have er : ∀ l, idx_main_v81 (ridx_main_v82 (ix2 i j) l) = ix2 j l := fun l => by idx2
  simp only [val_main_v81_apply, el, er, v80_real x0 x2 x7 x T hX h2, v49_real x1 x8 y hY, Lift.mul_coe,
    Lift.coe_sum_univ]
  rfl

include hX hY h2 h3 h4 in
theorem v86_real (i j : Fin 4096) :
    val_main_v86 (F := Ideal) x0 x1 x2 x3 x4 x7 x8 (ix2 i j)
      = (((Spec.fvec (Spec.cosS one m5 eps x) μs i
            + (∑ k, μt k * (Spec.cosS one m5 eps y j k * Spec.cosS one m5 eps y j k))
            - two * Spec.rCross (Spec.cosS one m5 eps x) (Spec.cosS one m5 eps y) T i j) * T i j : ℝ) : EReal) := by
  rw [val_main_v86_apply, val_main_v85_apply, val_main_v84_apply, val_main_v83_apply, val_main_cst_17_apply,
    val_main_v79_apply, val_main_v77_apply, val_main_v78_apply]
  have e1 : idx_main_v77 (ix2 i j) = ix2 i (0 : Fin 1) := by idx2
  have e2 : idx_main_v78 (ix2 i j) = ix2 (0 : Fin 1) j := by idx2
  rw [e1, e2, v72_real x0 x3 x7 x μs hX h3 i, v76_real x1 x4 x8 y μt hY h4 j,
    v82_real x0 x1 x2 x7 x8 x y T hX hY h2 i j, h2]
  simp only [Ideal.ofBits_def, Ideal.mulf_def, Ideal.subf_def, Ideal.addf_def, Lift.ofBits_two, Lift.add_coe,
    Lift.mul_coe, Lift.sub_coe]

include hX hY h2 h3 h4 in
theorem dgw_real :
    val_main_v87 (F := Ideal) x0 x1 x2 x3 x4 x7 x8 ix0
      = ((Spec.rDgw two (Spec.cosS one m5 eps x) (Spec.cosS one m5 eps y) T μs μt : ℝ) : EReal) := by
  rw [val_main_v87_apply, ValueIdx.sum_idx2]
  simp only [v86_real x0 x1 x2 x3 x4 x7 x8 x y T μs μt hX hY h2 h3 h4, val_main_cst_18_apply, Ideal.ofBits_def,
    Lift.ofBits_zero, Lift.coe_sum_univ, Lift.add_coe, zero_add]
  rfl

include hX hY h2 in
theorem dw_real :
    val_main_v89 (F := Ideal) x0 x1 x2 x7 x8 ix0 = ((Spec.dw (Spec.cosM one eps x y) T : ℝ) : EReal) := by
  rw [val_main_v89_apply, ValueIdx.sum_idx2]
  simp only [val_main_v88_apply, v70_real x0 x1 x7 x8 x y hX hY, h2, val_main_cst_19_apply, Ideal.ofBits_def,
    Ideal.mulf_def, Lift.ofBits_zero, Lift.mul_coe, Lift.coe_sum_univ, Lift.add_coe, zero_add]
  rfl

include hX h5 in
theorem v95_real :
    val_main_v95 (F := Ideal) x0 x5 x7 ix0 = ((Spec.simTot (Spec.cosS one m5 eps x) C1 : ℝ) : EReal) := by
  rw [val_main_v95_apply, ValueIdx.sum_idx2]
  simp only [val_main_v94_apply, val_main_v93_apply, val_main_v92_apply, val_main_v91_apply, val_main_v90_apply,
    v31_real x0 x7 x hX, h5, val_main_cst_20_apply, Ideal.ofBits_def, Ideal.mulf_def, Ideal.subf_def,
    Ideal.hostNegf_def, Ideal.negf_def, Ideal.hostUnary_exp_def, Lift.ofBits_zero, Lift.sub_coe, Lift.neg_coe,
    Lift.exp_coe, Lift.mul_coe, Lift.coe_sum_univ, Lift.add_coe, zero_add]
  rfl

include hY h6 in
theorem v101_real :
    val_main_v101 (F := Ideal) x1 x6 x8 ix0 = ((Spec.simTot (Spec.cosS one m5 eps y) C2 : ℝ) : EReal) :=
  v95_real x1 x6 x8 y C2 hY h6

theorem orth_x : val_main_v113 (F := Ideal) x0 x7 ix0 = orthR (val_main_v6 (F := Ideal) x0 x7) := rfl

theorem orth_y : val_main_v125 (F := Ideal) x1 x8 ix0 = orthR (val_main_v13 (F := Ideal) x1 x8) := rfl

include hX hY h5 h6 in
theorem reg_real :
    val_main_v126 (F := Ideal) x0 x1 x5 x6 x7 x8 ix0
      = ((((Spec.simTot (Spec.cosS one m5 eps x) C1 : ℝ) : EReal)
            + ((Spec.simTot (Spec.cosS one m5 eps y) C2 : ℝ) : EReal))
          + orthR (val_main_v6 (F := Ideal) x0 x7))
        + orthR (val_main_v13 (F := Ideal) x1 x8) := by
  rw [val_main_v126_apply, val_main_v114_apply, val_main_v102_apply, v95_real x0 x5 x7 x C1 hX h5,
    v101_real x1 x6 x8 y C2 hY h6, orth_x x0 x7, orth_y x1 x8]
  rfl

include h2 h3 h4 h7 h8 in
theorem ref_dgw :
    val_main_v87 (F := Ideal) x0 x1 x2 x3 x4 x7 x8 ix0
      = ((Spec.rDgw two (Spec.cosS one m5 eps (rows t1 x0 h0)) (Spec.cosS one m5 eps (rows t2 x1 h1)) T μs μt : ℝ) : EReal) :=
  dgw_real x0 x1 x2 x3 x4 x7 x8 (rows t1 x0 h0) (rows t2 x1 h1) T μs μt
    (gathered_x x0 x7 t1 h0 h7) (gathered_y x1 x8 t2 h1 h8) h2 h3 h4

include h2 h7 h8 in
theorem ref_dw :
    val_main_v89 (F := Ideal) x0 x1 x2 x7 x8 ix0
      = ((Spec.dw (Spec.cosM one eps (rows t1 x0 h0) (rows t2 x1 h1)) T : ℝ) : EReal) :=
  dw_real x0 x1 x2 x7 x8 (rows t1 x0 h0) (rows t2 x1 h1) T
    (gathered_x x0 x7 t1 h0 h7) (gathered_y x1 x8 t2 h1 h8) h2

include h5 h6 h7 h8 in
theorem ref_reg :
    val_main_v126 (F := Ideal) x0 x1 x5 x6 x7 x8 ix0
      = ((((Spec.simTot (Spec.cosS one m5 eps (rows t1 x0 h0)) C1 : ℝ) : EReal)
            + ((Spec.simTot (Spec.cosS one m5 eps (rows t2 x1 h1)) C2 : ℝ) : EReal))
          + orthR (val_main_v6 (F := Ideal) x0 x7))
        + orthR (val_main_v13 (F := Ideal) x1 x8) :=
  reg_real x0 x1 x5 x6 x7 x8 (rows t1 x0 h0) (rows t2 x1 h1) C1 C2
    (gathered_x x0 x7 t1 h0 h7) (gathered_y x1 x8 t2 h1 h8) h5 h6

end Cert.ReferenceIdeal.RefVal

end
-- ==== Proof.PreFacts.lean ====
import proofs.«403712_j45286135169680_3_alg».proof.Pre_finite_inputs
import proofs.«403712_j45286135169680_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Cert.Pre_finite_inputs

attribute [local instance] Cert.Pre_finite_inputs.Gen.facts

instance subsingleton_scalar_idx : Subsingleton S_.Idx := ⟨fun a b => funext fun d => d.elim0⟩

-- An extended real x with max x (-x) below ⊤ is neither ⊤ nor ⊥, hence a real.
theorem finite_of_all {s : Shape} {axes : List (Fin s.rank)} (hb : S_.BroadcastsInDim s (![] : Fin 0 → Fin s.rank))
    (hr : s.ReducesTo axes S_) (h0 : 0 < S_.numel) (a : FVec Ideal s .f32) (init : IVec S_ 1)
    (e : Host.reduce IntOp.andi
        (cmpf .olt (Host.absf a) (broadcastInDim s ![] hb (constant (F := Ideal) S_ .f32 0x7F800000#32)))
        init hr h0 ValueIdx.ix0 = 1#1) (i : s.Idx) : ∃ r : ℝ, a i = (r : EReal) := by
  have h : Ideal.cmp .olt (max (a i) (-a i)) (Ideal.ofBits .f32 0x7F800000#32) = 1#1 :=
    Host.reduce_andi_all _ init hr h0 _ e i
  rw [show Ideal.ofBits .f32 0x7F800000#32 = (⊤ : EReal) by simp [Ideal.ofBits, Ideal.ieee]] at h
  generalize a i = x at h
  induction x using EReal.rec with
  | bot => simp [Ideal.cmp] at h
  | coe r => exact ⟨r, rfl⟩
  | top => simp [Ideal.cmp] at h

theorem range_of_all {axes : List (Fin S4096.rank)} (hb : S_.BroadcastsInDim S4096 (![] : Fin 0 → Fin S4096.rank))
    (hr : S4096.ReducesTo axes S_) (h0 : 0 < S_.numel) (a : IVec S4096 32) (init : IVec S_ 1)
    (e : Host.reduce IntOp.andi
        (andi (cmpi .sge a (broadcastInDim S4096 ![] hb (constantI S_ 32 0#32)))
          (cmpi .slt a (broadcastInDim S4096 ![] hb (constantI S_ 32 50000#32))))
        init hr h0 ValueIdx.ix0 = 1#1) (i : S4096.Idx) : 0 ≤ (a i).toInt ∧ (a i).toInt < 50000 := by
  have h : IntOp.andi (IntOp.cmpi .sge (a i) 0#32) (IntOp.cmpi .slt (a i) 50000#32) = 1#1 :=
    Host.reduce_andi_all _ init hr h0 _ e i
  exact ⟨IntOp.cmpi_sge.1 (IntOp.andi_eq_one.1 h).1, IntOp.cmpi_slt.1 (IntOp.andi_eq_one.1 h).2⟩

theorem decoded (a0 a1 : IVec S4096 32) (a2 : FVec Ideal S4096x4096 .f32) (a3 a4 : FVec Ideal S4096x1 .f32)
    (a5 a6 : FVec Ideal S4096x4096 .f32) (a7 a8 : FVec Ideal S50000x128 .f32)
    (h : fn (F := Ideal) a0 a1 a2 a3 a4 a5 a6 a7 a8 = fun _ => 1#1) :
    ((∀ i, ∃ r : ℝ, a2 i = (r : EReal)) ∧ (∀ i, ∃ r : ℝ, a3 i = (r : EReal)) ∧ (∀ i, ∃ r : ℝ, a4 i = (r : EReal)) ∧
      (∀ i, ∃ r : ℝ, a5 i = (r : EReal)) ∧ (∀ i, ∃ r : ℝ, a6 i = (r : EReal)) ∧ (∀ i, ∃ r : ℝ, a7 i = (r : EReal)) ∧
      (∀ i, ∃ r : ℝ, a8 i = (r : EReal))) ∧
    ((∀ i, 0 ≤ (a0 i).toInt ∧ (a0 i).toInt < 50000) ∧ (∀ i, 0 ≤ (a1 i).toInt ∧ (a1 i).toInt < 50000)) := by
  have e := congrFun h ValueIdx.ix0
  dsimp only [fn, fn_part1, fn_part2] at e
  simp only [show ∀ (x y : IVec S_ 1) (i : S_.Idx), andi x y i = 1#1 ↔ x i = 1#1 ∧ y i = 1#1 from
    fun _ _ _ => IntOp.andi_eq_one] at e
  obtain ⟨⟨⟨⟨⟨⟨⟨⟨h2, h3⟩, h4⟩, h5⟩, h6⟩, h7⟩, h8⟩, hi0⟩, hi1⟩ := e
  exact ⟨⟨finite_of_all _ _ _ a2 _ h2, finite_of_all _ _ _ a3 _ h3, finite_of_all _ _ _ a4 _ h4,
      finite_of_all _ _ _ a5 _ h5, finite_of_all _ _ _ a6 _ h6, finite_of_all _ _ _ a7 _ h7,
      finite_of_all _ _ _ a8 _ h8⟩,
    range_of_all _ _ _ a0 _ hi0, range_of_all _ _ _ a1 _ hi1⟩

end Cert.PreFacts

end
-- ==== Proof.Final.lean ====
import proofs.«403712_j45286135169680_3_alg».proof.Defs
import proofs.«403712_j45286135169680_3_alg».proof.Proof.Run
import proofs.«403712_j45286135169680_3_alg».proof.Proof.Keep
import proofs.«403712_j45286135169680_3_alg».proof.Proof.HostK
import proofs.«403712_j45286135169680_3_alg».proof.Proof.KVal
import proofs.«403712_j45286135169680_3_alg».proof.Proof.RefVal
import proofs.«403712_j45286135169680_3_alg».proof.Proof.PreFacts
import proofs.«403712_j45286135169680_3_alg».proof.Proof.Alg
import proofs.«403712_j45286135169680_3_alg».proof.Proof.Gen.ReferenceIdeal.Run
import proofs.«403712_j45286135169680_3_alg».proof.Proof.Gen.ReferenceIdeal.Read

noncomputable section

namespace Cert.Proof.Final

open Idealize.ShloMosaic Idealize.ShloMosaic.TcCoe Idealize.SL.Sem Idealize.ShloMosaic.ValueIdx
open Cert Cert.KernelIdeal Cert.ReferenceIdeal.Read Cert.ReferenceIdeal.RefVal

theorem scalar_ext (f g : Cert.ReferenceIdeal.S_.Idx → EReal) (h : f ix0 = g ix0) : f = g := by
  funext i
  rw [eq_ix0 i]
  exact h

theorem arr_ext (X X' : Cert.ReferenceIdeal.S4096x128.Idx → EReal) (x : Spec.Mat 4096 128)
    (h : ∀ p k, X (ix2 p k) = ((x p k : ℝ) : EReal)) (h' : ∀ p k, X' (ix2 p k) = ((x p k : ℝ) : EReal)) : X = X' := by
  funext q
  obtain ⟨p, k, rfl⟩ : ∃ (p : Fin 4096) (k : Fin 128), q = ix2 p k := ⟨q 0, q 1, eq_ix2 q⟩
  rw [h, h']

variable (m : (ℓ : Loc nD τ sig) → Buf (Elt Ideal) ℓ) (c : Dev nD)

abbrev arg (b : Ref sig .tc) := m ((c.tc : Thread nD τ).loc b)

abbrev PreAt : Prop :=
  Cert.Pre_finite_inputs.fn (F := Ideal) (arg m c main_arg0) (arg m c main_arg1) (arg m c main_arg2) (arg m c main_arg3)
    (arg m c main_arg4) (arg m c main_arg5) (arg m c main_arg6) (arg m c main_arg7) (arg m c main_arg8) = fun _ => 1#1

-- Every float input is finite and every index word is in range, so the inputs are real data.
theorem data (hp : PreAt m c) : Nonempty (KVal.Data m c) := by
  obtain ⟨⟨f2, f3, f4, f5, f6, f7, f8⟩, r0, r1⟩ := Cert.PreFacts.decoded _ _ _ _ _ _ _ _ _ hp
  choose g2 hg2 using f2
  choose g3 hg3 using f3
  choose g4 hg4 using f4
  choose g5 hg5 using f5
  choose g6 hg6 using f6
  choose g7 hg7 using f7
  choose g8 hg8 using f8
  exact ⟨⟨fun r k => g7 (ix2 r k), fun r k => g8 (ix2 r k), fun i j => g2 (ix2 i j), fun i j => g5 (ix2 i j),
    fun i j => g6 (ix2 i j), fun i => g3 (ix2 i (0 : Fin 1)), fun i => g4 (ix2 i (0 : Fin 1)),
    fun _ _ => hg7 _, fun _ _ => hg8 _, fun _ _ => hg2 _, fun _ => hg3 _, fun _ => hg4 _, fun _ _ => hg5 _, fun _ _ => hg6 _,
    fun p => r0 (ix1 p), fun p => r1 (ix1 p)⟩⟩

theorem dgw_same (hp : PreAt m c) :
    val_main_v87 (F := Ideal) (arg m c main_arg0) (arg m c main_arg1) (arg m c main_arg2) (arg m c main_arg3)
      (arg m c main_arg4) (arg m c main_arg7) (arg m c main_arg8) = Run.W11 m c (Proc.devRef .tc main_v48) := by
  obtain ⟨D⟩ := data m c hp
  refine scalar_ext _ _ ?_
  rw [ref_dgw _ _ _ _ _ _ _ D.t1 D.t2 D.T D.μs D.μt D.hi0 D.hi1 D.h2 D.h3 D.h4 D.h7 D.h8]
  refine Eq.trans ?_ (KVal.dgw D).symm
  rw [Spec.kDgw_eq]
  rfl

theorem dw_same (hp : PreAt m c) :
    val_main_v89 (F := Ideal) (arg m c main_arg0) (arg m c main_arg1) (arg m c main_arg2) (arg m c main_arg7)
      (arg m c main_arg8) = Run.W11 m c (Proc.devRef .tc main_v49) := by
  obtain ⟨D⟩ := data m c hp
  refine scalar_ext _ _ ?_
  rw [ref_dw _ _ _ _ _ D.t1 D.t2 D.T D.hi0 D.hi1 D.h2 D.h7 D.h8]
  exact (KVal.dwv D).symm

theorem reg_same (hp : PreAt m c) :
    val_main_v126 (F := Ideal) (arg m c main_arg0) (arg m c main_arg1) (arg m c main_arg5) (arg m c main_arg6)
      (arg m c main_arg7) (arg m c main_arg8) = Run.W11 m c (Proc.devRef .tc main_v76) := by
  obtain ⟨D⟩ := data m c hp
  refine scalar_ext _ _ ?_
  rw [ref_reg _ _ _ _ _ _ D.t1 D.t2 D.C1 D.C2 D.hi0 D.hi1 D.h5 D.h6 D.h7 D.h8,
    arr_ext _ _ _ (gathered_x _ _ D.t1 D.hi0 D.h7) (KVal.gx D),
    arr_ext _ _ _ (gathered_y _ _ D.t2 D.hi1 D.h8) (KVal.gy D)]
  exact (KVal.regv D).symm

theorem algebraic : Cert.algebraic_KernelIdeal_ReferenceIdeal := by
  intro m ρ m' ρ' hpre hagree
  refine ⟨fun c => Run.W11 m c (Proc.devRef .tc main_v48), fun c => Run.W11 m c (Proc.devRef .tc main_v49),
    fun c => Run.W11 m c (Proc.devRef .tc main_v76), ?_, ?_⟩
  · exact (θ_run Cert.KernelIdeal.defs _ _).mono (fun r h c =>
      ⟨h c _ (Run.mem_uc main_v48 (by decide)), h c _ (Run.mem_uc main_v49 (by decide)), h c _ (Run.mem_uc main_v76 (by decide)),
       (h c _ (Run.mem_uc main_arg0 (by decide))).trans (Run.W11_arg0 m c),
       (h c _ (Run.mem_uc main_arg1 (by decide))).trans (Run.W11_arg1 m c),
       (h c _ (Run.mem_uc main_arg2 (by decide))).trans (Run.W11_arg2 m c),
       (h c _ (Run.mem_uc main_arg3 (by decide))).trans (Run.W11_arg3 m c),
       (h c _ (Run.mem_uc main_arg4 (by decide))).trans (Run.W11_arg4 m c),
       (h c _ (Run.mem_uc main_arg5 (by decide))).trans (Run.W11_arg5 m c),
       (h c _ (Run.mem_uc main_arg6 (by decide))).trans (Run.W11_arg6 m c),
       (h c _ (Run.mem_uc main_arg7 (by decide))).trans (Run.W11_arg7 m c),
       (h c _ (Run.mem_uc main_arg8 (by decide))).trans (Run.W11_arg8 m c)⟩)
      (Run.run_all m ρ)
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨(h c).1.trans ?_, (h c).2.1.trans ?_, (h c).2.2.1.trans ?_, (h c).2.2.2⟩
    · rw [val_main_v87_eq, e0, e1, e2, e3, e4, e7, e8]
      exact dgw_same m c (hpre c)
    · rw [val_main_v89_eq, e0, e1, e2, e7, e8]
      exact dw_same m c (hpre c)
    · rw [val_main_v126_eq, e0, e1, e5, e6, e7, e8]
      exact reg_same m c (hpre c)

end Cert.Proof.Final

end
-- ==== Proof.lean ====
import proofs.«403712_j45286135169680_3_alg».proof.Defs
import proofs.«403712_j45286135169680_3_alg».proof.Proof.Gen.Kernel
import proofs.«403712_j45286135169680_3_alg».proof.Proof.Gen.KernelIdeal
import proofs.«403712_j45286135169680_3_alg».proof.Proof.Gen.ReferenceIdeal
import proofs.«403712_j45286135169680_3_alg».proof.Proof.Gen.ReferenceIdeal.Run
import proofs.«403712_j45286135169680_3_alg».proof.Proof.Gen.ReferenceIdeal.Read
import proofs.«403712_j45286135169680_3_alg».proof.Proof.Gen.Pre_finite_inputs
import proofs.«403712_j45286135169680_3_alg».proof.Proof.BitsKeep
import proofs.«403712_j45286135169680_3_alg».proof.Proof.Keep
import proofs.«403712_j45286135169680_3_alg».proof.Proof.Final
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

theorem preserves : Cert.preserves_Kernel_KernelIdeal :=
  ⟨IdealRules.truncf_extf.statement _ _ _, IdealRules.truncf_extf.statement _ _ _, IdealRules.truncf_extf.statement _ _ _,
   IdealRules.truncf_extf.statement _ _ _, IdealRules.truncf_extf.statement _ _ _, IdealRules.truncf_extf.statement _ _ _⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Final.algebraic⟩

end Cert.Proof

end
